-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S100000x64 : Shape := ⟨2, ![100000, 64]⟩
abbrev S50000x64 : Shape := ⟨2, ![50000, 64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn_part1 {F : FTy → Type} [FloatOps F] (main_arg0 : IVec S1200000 32) (main_arg1 : IVec S1200000 32) (main_v13 : IVec S_ 1) (main_v15 : IVec S1200000 1) (main_c_5 : IVec S_ 1) : IVec S_ 1 :=
  let main_v16 : IVec S_ 1 := (fun x v => Host.reduce IntOp.andi x v reducesTo_S1200000_S_d0 h_S_) main_v15 main_c_5
  let main_v17 : IVec S_ 1 := andi main_v13 main_v16
  let main_c_6 : IVec S_ 32 := constantI S_ 32 150000#32
  let main_v18 : IVec S1200000 32 := broadcastInDim S1200000 ![] bcast_S_S1200000 main_c_6
  let main_v19 : IVec S1200000 1 := cmpi .slt main_arg0 main_v18
  let main_c_7 : IVec S_ 1 := constantI S_ 1 1#1
  let main_v20 : IVec S_ 1 := (fun x v => Host.reduce IntOp.andi x v reducesTo_S1200000_S_d0 h_S_) main_v19 main_c_7
  let main_v21 : IVec S_ 1 := andi main_v17 main_v20
  let main_c_8 : IVec S_ 32 := constantI S_ 32 0#32
  let main_v22 : IVec S1200000 32 := broadcastInDim S1200000 ![] bcast_S_S1200000 main_c_8
  let main_v23 : IVec S1200000 1 := cmpi .sge main_arg1 main_v22
  let main_c_9 : IVec S_ 1 := constantI S_ 1 1#1
  let main_v24 : IVec S_ 1 := (fun x v => Host.reduce IntOp.andi x v reducesTo_S1200000_S_d0 h_S_) main_v23 main_c_9
  let main_v25 : IVec S_ 1 := andi main_v21 main_v24
  let main_c_10 : IVec S_ 32 := constantI S_ 32 150000#32
  let main_v26 : IVec S1200000 32 := broadcastInDim S1200000 ![] bcast_S_S1200000 main_c_10
  let main_v27 : IVec S1200000 1 := cmpi .slt main_arg1 main_v26
  let main_c_11 : IVec S_ 1 := constantI S_ 1 1#1
  let main_v28 : IVec S_ 1 := (fun x v => Host.reduce IntOp.andi x v reducesTo_S1200000_S_d0 h_S_) main_v27 main_c_11
  let main_v29 : IVec S_ 1 := andi main_v25 main_v28
  main_v29

def fn {F : FTy → Type} [FloatOps F] (main_arg0 : IVec S1200000 32) (main_arg1 : IVec S1200000 32) (main_arg2 : FVec F S1200000 .f32) (main_arg3 : FVec F S100000x64 .f32) (main_arg4 : FVec F S50000x64 .f32) : IVec S_ 1 :=
  let main_v0 : FVec F S1200000 .f32 := Host.absf main_arg2
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_c_4 : IVec S_ 32 := constantI S_ 32 0#32
  let main_v14 : IVec S1200000 32 := broadcastInDim S1200000 ![] bcast_S_S1200000 main_c_4
  let main_v15 : IVec S1200000 1 := cmpi .sge main_arg0 main_v14
  let main_c_5 : IVec S_ 1 := constantI S_ 1 1#1
  fn_part1 (F := F) main_arg0 main_arg1 main_v13 main_v15 main_c_5
-- ==== Kernel.lean ====
abbrev S1200000 : Shape := ⟨1, ![1200000]⟩
abbrev S100000x64 : Shape := ⟨2, ![100000, 64]⟩
abbrev S50000x64 : Shape := ⟨2, ![50000, 64]⟩
abbrev S_ : Shape := ⟨0, ![]⟩
abbrev S1200128 : Shape := ⟨1, ![1200128]⟩
abbrev S1200128x1 : Shape := ⟨2, ![1200128, 1]⟩
abbrev S293x4096 : Shape := ⟨2, ![293, 4096]⟩
abbrev S293x1 : Shape := ⟨2, ![293, 1]⟩
abbrev S293 : Shape := ⟨1, ![293]⟩
abbrev S150000x64 : Shape := ⟨2, ![150000, 64]⟩
abbrev S150528x64 : Shape := ⟨2, ![150528, 64]⟩
abbrev S64x150528 : Shape := ⟨2, ![64, 150528]⟩
abbrev S64x1200128 : Shape := ⟨2, ![64, 1200128]⟩
abbrev S4096 : Shape := ⟨1, ![4096]⟩
abbrev S64x1024 : Shape := ⟨2, ![64, 1024]⟩
abbrev S64x4096 : Shape := ⟨2, ![64, 4096]⟩
abbrev S1 : Shape := ⟨1, ![1]⟩
abbrev S1024x1 : Shape := ⟨2, ![1024, 1]⟩
abbrev S1x4096 : Shape := ⟨2, ![1, 4096]⟩
abbrev S1024x4096 : Shape := ⟨2, ![1024, 4096]⟩
abbrev S1x1 : Shape := ⟨2, ![1, 1]⟩
abbrev S1x1024 : Shape := ⟨2, ![1, 1024]⟩
abbrev S4096x1 : Shape := ⟨2, ![4096, 1]⟩
abbrev S4096x1024 : Shape := ⟨2, ![4096, 1024]⟩

abbrev nBuf : Space → Nat
  | .hbm => 239
  | .vmem => 48
  | .smem => 4
  | _ => 0

abbrev hbmTy0_0 (i : Nat) : BufTy := match i % 128 with
  | 0 => ⟨S1200000, .i32⟩
  | 1 => ⟨S1200000, .i32⟩
  | 2 => ⟨S1200000, .f32⟩
  | 3 => ⟨S100000x64, .f32⟩
  | 4 => ⟨S50000x64, .f32⟩
  | 5 => ⟨S_, .i32⟩
  | 6 => ⟨S_, .i32⟩
  | 7 => ⟨S1200128, .i32⟩
  | 8 => ⟨S_, .i32⟩
  | 9 => ⟨S_, .i32⟩
  | 10 => ⟨S1200128, .i32⟩
  | 11 => ⟨S_, .f32⟩
  | 12 => ⟨S_, .f32⟩
  | 13 => ⟨S1200128, .f32⟩
  | 14 => ⟨S1200128, .i32⟩
  | 15 => ⟨S1200128, .i32⟩
  | 16 => ⟨S1200128, .i32⟩
  | 17 => ⟨S_, .i32⟩
  | 18 => ⟨S1200128, .i32⟩
  | 19 => ⟨S1200128, .i1⟩
  | 20 => ⟨S_, .i32⟩
  | 21 => ⟨S1200128, .i32⟩
  | 22 => ⟨S1200128, .i32⟩
  | 23 => ⟨S1200128, .i32⟩
  | 24 => ⟨S1200128x1, .i32⟩
  | 25 => ⟨S1200128, .i32⟩
  | 26 => ⟨S_, .i32⟩
  | 27 => ⟨S1200128, .i32⟩
  | 28 => ⟨S1200128, .i1⟩
  | 29 => ⟨S_, .i32⟩
  | 30 => ⟨S1200128, .i32⟩
  | 31 => ⟨S1200128, .i32⟩
  | 32 => ⟨S1200128, .i32⟩
  | 33 => ⟨S1200128x1, .i32⟩
  | 34 => ⟨S1200128, .f32⟩
  | 35 => ⟨S293x4096, .i32⟩
  | 36 => ⟨S293x1, .i32⟩
  | 37 => ⟨S293, .i32⟩
  | 38 => ⟨S_, .i32⟩
  | 39 => ⟨S_, .i32⟩
  | 40 => ⟨S293, .i32⟩
  | 41 => ⟨S293, .i32⟩
  | 42 => ⟨S293, .i32⟩
  | 43 => ⟨S_, .i32⟩
  | 44 => ⟨S293, .i32⟩
  | 45 => ⟨S293, .i1⟩
  | 46 => ⟨S293, .i32⟩
  | 47 => ⟨S293, .i32⟩
  | 48 => ⟨S_, .i32⟩
  | 49 => ⟨S293, .i32⟩
  | 50 => ⟨S293, .i1⟩
  | 51 => ⟨S293, .i1⟩
  | 52 => ⟨S_, .i32⟩
  | 53 => ⟨S293, .i32⟩
  | 54 => ⟨S293, .i32⟩
  | 55 => ⟨S293x1, .i32⟩
  | 56 => ⟨S293, .i32⟩
  | 57 => ⟨S_, .i32⟩
  | 58 => ⟨S_, .i32⟩
  | 59 => ⟨S293, .i32⟩
  | 60 => ⟨S293, .i32⟩
  | 61 => ⟨S293, .i32⟩
  | 62 => ⟨S_, .i32⟩
  | 63 => ⟨S293, .i32⟩
  | 64 => ⟨S293, .i1⟩
  | 65 => ⟨S293, .i32⟩
  | 66 => ⟨S293, .i32⟩
  | 67 => ⟨S_, .i32⟩
  | 68 => ⟨S293, .i32⟩
  | 69 => ⟨S293, .i1⟩
  | 70 => ⟨S293, .i1⟩
  | 71 => ⟨S_, .i32⟩
  | 72 => ⟨S293, .i32⟩
  | 73 => ⟨S293, .i32⟩
  | 74 => ⟨S1200128, .i32⟩
  | 75 => ⟨S1200128, .i32⟩
  | 76 => ⟨S1200128, .i32⟩
  | 77 => ⟨S_, .i32⟩
  | 78 => ⟨S1200128, .i32⟩
  | 79 => ⟨S1200128, .i1⟩
  | 80 => ⟨S_, .i32⟩
  | 81 => ⟨S1200128, .i32⟩
  | 82 => ⟨S1200128, .i32⟩
  | 83 => ⟨S1200128, .i32⟩
  | 84 => ⟨S1200128x1, .i32⟩
  | 85 => ⟨S1200128, .i32⟩
  | 86 => ⟨S293x4096, .i32⟩
  | 87 => ⟨S293x1, .i32⟩
  | 88 => ⟨S293, .i32⟩
  | 89 => ⟨S_, .i32⟩
  | 90 => ⟨S_, .i32⟩
  | 91 => ⟨S293, .i32⟩
  | 92 => ⟨S293, .i32⟩
  | 93 => ⟨S293, .i32⟩
  | 94 => ⟨S_, .i32⟩
  | 95 => ⟨S293, .i32⟩
  | 96 => ⟨S293, .i1⟩
  | 97 => ⟨S293, .i32⟩
  | 98 => ⟨S293, .i32⟩
  | 99 => ⟨S_, .i32⟩
  | 100 => ⟨S293, .i32⟩
  | 101 => ⟨S293, .i1⟩
  | 102 => ⟨S293, .i1⟩
  | 103 => ⟨S_, .i32⟩
  | 104 => ⟨S293, .i32⟩
  | 105 => ⟨S293, .i32⟩
  | 106 => ⟨S293x1, .i32⟩
  | 107 => ⟨S293, .i32⟩
  | 108 => ⟨S_, .i32⟩
  | 109 => ⟨S_, .i32⟩
  | 110 => ⟨S293, .i32⟩
  | 111 => ⟨S293, .i32⟩
  | 112 => ⟨S293, .i32⟩
  | 113 => ⟨S_, .i32⟩
  | 114 => ⟨S293, .i32⟩
  | 115 => ⟨S293, .i1⟩
  | 116 => ⟨S293, .i32⟩
  | 117 => ⟨S293, .i32⟩
  | 118 => ⟨S_, .i32⟩
  | 119 => ⟨S293, .i32⟩
  | 120 => ⟨S293, .i1⟩
  | 121 => ⟨S293, .i1⟩
  | 122 => ⟨S_, .i32⟩
  | 123 => ⟨S293, .i32⟩
  | 124 => ⟨S293, .i32⟩
  | 125 => ⟨S_, .i32⟩
  | 126 => ⟨S1200128, .i32⟩
  | 127 => ⟨S1200128, .i32⟩
  | _ => ⟨S1200000, .i32⟩

abbrev hbmTy0_1 (i : Nat) : BufTy := match i % 128 with
  | 0 => ⟨S_, .i32⟩
  | 1 => ⟨S1200128, .i32⟩
  | 2 => ⟨S1200128, .i1⟩
  | 3 => ⟨S_, .i32⟩
  | 4 => ⟨S1200128, .i32⟩
  | 5 => ⟨S1200128, .i32⟩
  | 6 => ⟨S1200128, .i32⟩
  | 7 => ⟨S1200128x1, .i32⟩
  | 8 => ⟨S1200128, .i32⟩
  | 9 => ⟨S_, .i32⟩
  | 10 => ⟨S1200128, .i32⟩
  | 11 => ⟨S1200128, .i1⟩
  | 12 => ⟨S_, .i32⟩
  | 13 => ⟨S1200128, .i32⟩
  | 14 => ⟨S1200128, .i32⟩
  | 15 => ⟨S1200128, .i32⟩
  | 16 => ⟨S1200128x1, .i32⟩
  | 17 => ⟨S1200128, .i32⟩
  | 18 => ⟨S150000x64, .f32⟩
  | 19 => ⟨S_, .i32⟩
  | 20 => ⟨S_, .f32⟩
  | 21 => ⟨S150528x64, .f32⟩
  | 22 => ⟨S64x150528, .f32⟩
  | 23 => ⟨S64x150528, .bf16⟩
  | 24 => ⟨S64x1200128, .f32⟩
  | 25 => ⟨S_, .i32⟩
  | 26 => ⟨S1200128, .i32⟩
  | 27 => ⟨S1200128, .i1⟩
  | 28 => ⟨S_, .i32⟩
  | 29 => ⟨S1200128, .i32⟩
  | 30 => ⟨S1200128, .i32⟩
  | 31 => ⟨S1200128, .i32⟩
  | 32 => ⟨S1200128x1, .i32⟩
  | 33 => ⟨S1, .i32⟩
  | 34 => ⟨S_, .i32⟩
  | 35 => ⟨S1200128x1, .i32⟩
  | 36 => ⟨S1200128x1, .i1⟩
  | 37 => ⟨S1x1, .i32⟩
  | 38 => ⟨S1200128x1, .i32⟩
  | 39 => ⟨S1200128x1, .i1⟩
  | 40 => ⟨S1200128x1, .i1⟩
  | 41 => ⟨S_, .i1⟩
  | 42 => ⟨S1200128, .i1⟩
  | 43 => ⟨S64x1200128, .f32⟩
  | 44 => ⟨S64x1200128, .i1⟩
  | 45 => ⟨S_, .f32⟩
  | 46 => ⟨S64x1200128, .f32⟩
  | 47 => ⟨S64x1200128, .f32⟩
  | 48 => ⟨S64x150528, .f32⟩
  | 49 => ⟨S64x150528, .f32⟩
  | 50 => ⟨S64x150528, .bf16⟩
  | 51 => ⟨S64x1200128, .f32⟩
  | 52 => ⟨S_, .i32⟩
  | 53 => ⟨S1200128, .i32⟩
  | 54 => ⟨S1200128, .i1⟩
  | 55 => ⟨S_, .i32⟩
  | 56 => ⟨S1200128, .i32⟩
  | 57 => ⟨S1200128, .i32⟩
  | 58 => ⟨S1200128, .i32⟩
  | 59 => ⟨S1200128x1, .i32⟩
  | 60 => ⟨S1, .i32⟩
  | 61 => ⟨S_, .i32⟩
  | 62 => ⟨S1200128x1, .i32⟩
  | 63 => ⟨S1200128x1, .i1⟩
  | 64 => ⟨S1x1, .i32⟩
  | 65 => ⟨S1200128x1, .i32⟩
  | 66 => ⟨S1200128x1, .i1⟩
  | 67 => ⟨S1200128x1, .i1⟩
  | 68 => ⟨S_, .i1⟩
  | 69 => ⟨S1200128, .i1⟩
  | 70 => ⟨S64x1200128, .f32⟩
  | 71 => ⟨S64x1200128, .i1⟩
  | 72 => ⟨S_, .f32⟩
  | 73 => ⟨S64x1200128, .f32⟩
  | 74 => ⟨S64x1200128, .f32⟩
  | 75 => ⟨S64x150528, .f32⟩
  | 76 => ⟨S64x150528, .f32⟩
  | 77 => ⟨S64x150528, .bf16⟩
  | 78 => ⟨S64x1200128, .f32⟩
  | 79 => ⟨S_, .i32⟩
  | 80 => ⟨S1200128, .i32⟩
  | 81 => ⟨S1200128, .i1⟩
  | 82 => ⟨S_, .i32⟩
  | 83 => ⟨S1200128, .i32⟩
  | 84 => ⟨S1200128, .i32⟩
  | 85 => ⟨S1200128, .i32⟩
  | 86 => ⟨S1200128x1, .i32⟩
  | 87 => ⟨S1, .i32⟩
  | 88 => ⟨S_, .i32⟩
  | 89 => ⟨S1200128x1, .i32⟩
  | 90 => ⟨S1200128x1, .i1⟩
  | 91 => ⟨S1x1, .i32⟩
  | 92 => ⟨S1200128x1, .i32⟩
  | 93 => ⟨S1200128x1, .i1⟩
  | 94 => ⟨S1200128x1, .i1⟩
  | 95 => ⟨S_, .i1⟩
  | 96 => ⟨S1200128, .i1⟩
  | 97 => ⟨S64x1200128, .f32⟩
  | 98 => ⟨S64x1200128, .i1⟩
  | 99 => ⟨S_, .f32⟩
  | 100 => ⟨S64x1200128, .f32⟩
  | 101 => ⟨S64x1200128, .f32⟩
  | 102 => ⟨S64x150528, .f32⟩
  | 103 => ⟨S64x150528, .f32⟩
  | 104 => ⟨S_, .f32⟩
  | 105 => ⟨S64x150528, .f32⟩
  | 106 => ⟨S64x150528, .f32⟩
  | 107 => ⟨S150528x64, .f32⟩
  | 108 => ⟨S150000x64, .f32⟩
  | 109 => ⟨S100000x64, .f32⟩
  | 110 => ⟨S50000x64, .f32⟩
  | _ => ⟨S1200000, .i32⟩

abbrev hbmTy (i : Nat) : BufTy := match i / 128 with
  | 0 => hbmTy0_0 i
  | 1 => hbmTy0_1 i
  | _ => ⟨S1200000, .i32⟩

abbrev bufTy : (tb : Table) → Fin (tcTables nBuf tb) → BufTy
  | .hbm, ⟨i, _⟩ => hbmTy i
  | .local _ .vmem, ⟨0, _⟩ => ⟨S4096, .i32⟩
  | .local _ .vmem, ⟨1, _⟩ => ⟨S4096, .i32⟩
  | .local _ .vmem, ⟨2, _⟩ => ⟨S4096, .f32⟩
  | .local _ .vmem, ⟨3, _⟩ => ⟨S4096, .f32⟩
  | .local _ .vmem, ⟨4, _⟩ => ⟨S64x1024, .bf16⟩
  | .local _ .vmem, ⟨5, _⟩ => ⟨S64x1024, .bf16⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S4096, .i32⟩
  | .local _ .vmem, ⟨10, _⟩ => ⟨S4096, .i32⟩
  | .local _ .vmem, ⟨11, _⟩ => ⟨S64x4096, .f32⟩
  | .local _ .vmem, ⟨12, _⟩ => ⟨S64x4096, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S4096, .i32⟩
  | .local _ .vmem, ⟨17, _⟩ => ⟨S4096, .i32⟩
  | .local _ .vmem, ⟨18, _⟩ => ⟨S4096, .f32⟩
  | .local _ .vmem, ⟨19, _⟩ => ⟨S4096, .f32⟩
  | .local _ .vmem, ⟨20, _⟩ => ⟨S64x1024, .bf16⟩
  | .local _ .vmem, ⟨21, _⟩ => ⟨S64x1024, .bf16⟩
  | .local _ .vmem, ⟨22, _⟩ => ⟨S64x4096, .f32⟩
  | .local _ .vmem, ⟨23, _⟩ => ⟨S64x4096, .f32⟩
  | .local _ .vmem, ⟨24, _⟩ => ⟨S64x4096, .f32⟩
  | .local _ .vmem, ⟨25, _⟩ => ⟨S4096, .i32⟩
  | .local _ .vmem, ⟨26, _⟩ => ⟨S4096, .i32⟩
  | .local _ .vmem, ⟨27, _⟩ => ⟨S64x4096, .f32⟩
  | .local _ .vmem, ⟨28, _⟩ => ⟨S64x4096, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S4096, .i32⟩
  | .local _ .vmem, ⟨33, _⟩ => ⟨S4096, .i32⟩
  | .local _ .vmem, ⟨34, _⟩ => ⟨S4096, .f32⟩
  | .local _ .vmem, ⟨35, _⟩ => ⟨S4096, .f32⟩
  | .local _ .vmem, ⟨36, _⟩ => ⟨S64x1024, .bf16⟩
  | .local _ .vmem, ⟨37, _⟩ => ⟨S64x1024, .bf16⟩
  | .local _ .vmem, ⟨38, _⟩ => ⟨S64x4096, .f32⟩
  | .local _ .vmem, ⟨39, _⟩ => ⟨S64x4096, .f32⟩
  | .local _ .vmem, ⟨40, _⟩ => ⟨S64x4096, .f32⟩
  | .local _ .vmem, ⟨41, _⟩ => ⟨S4096, .i32⟩
  | .local _ .vmem, ⟨42, _⟩ => ⟨S4096, .i32⟩
  | .local _ .vmem, ⟨43, _⟩ => ⟨S64x4096, .f32⟩
  | .local _ .vmem, ⟨44, _⟩ => ⟨S64x4096, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .smem, ⟨0, _⟩ => ⟨S293, .i32⟩
  | .local _ .smem, ⟨1, _⟩ => ⟨S293, .i32⟩
  | .local _ .smem, ⟨2, _⟩ => ⟨S293, .i32⟩
  | .local _ .smem, ⟨3, _⟩ => ⟨S293, .i32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_cst : Ref sig .tc := ⟨.hbm, 11, rfl⟩
abbrev main_call2_v0 : Ref sig .tc := ⟨.hbm, 12, rfl⟩
abbrev main_v2 : Ref sig .tc := ⟨.hbm, 13, rfl⟩
abbrev main_call3_v0 : Ref sig .tc := ⟨.hbm, 14, rfl⟩
abbrev main_call3_v1_0 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_c : Ref sig .tc := ⟨.hbm, 48, rfl⟩
abbrev main_call4_v9 : Ref sig .tc := ⟨.hbm, 49, rfl⟩
abbrev main_call4_v10 : Ref sig .tc := ⟨.hbm, 50, rfl⟩
abbrev main_call4_v11 : Ref sig .tc := ⟨.hbm, 51, rfl⟩
abbrev main_call4_c_0 : Ref sig .tc := ⟨.hbm, 52, rfl⟩
abbrev main_call4_v12 : Ref sig .tc := ⟨.hbm, 53, rfl⟩
abbrev main_call4_v13 : Ref sig .tc := ⟨.hbm, 54, rfl⟩
abbrev main_v22 : Ref sig .tc := ⟨.hbm, 55, rfl⟩
abbrev main_v23 : Ref sig .tc := ⟨.hbm, 56, rfl⟩
abbrev main_c_6 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_call5_v5 : Ref sig .tc := ⟨.hbm, 63, rfl⟩
abbrev main_call5_v6 : Ref sig .tc := ⟨.hbm, 64, rfl⟩
abbrev main_call5_v7 : Ref sig .tc := ⟨.hbm, 65, rfl⟩
abbrev main_call5_v8 : Ref sig .tc := ⟨.hbm, 66, rfl⟩
abbrev main_call5_c : Ref sig .tc := ⟨.hbm, 67, rfl⟩
abbrev main_call5_v9 : Ref sig .tc := ⟨.hbm, 68, rfl⟩
abbrev main_call5_v10 : Ref sig .tc := ⟨.hbm, 69, rfl⟩
abbrev main_call5_v11 : Ref sig .tc := ⟨.hbm, 70, rfl⟩
abbrev main_call5_c_0 : Ref sig .tc := ⟨.hbm, 71, rfl⟩
abbrev main_call5_v12 : Ref sig .tc := ⟨.hbm, 72, rfl⟩
abbrev main_call5_v13 : Ref sig .tc := ⟨.hbm, 73, rfl⟩
abbrev main_call6_v0 : Ref sig .tc := ⟨.hbm, 74, rfl⟩
abbrev main_call6_v1_0 : Ref sig .tc := ⟨.hbm, 75, rfl⟩
abbrev main_v25 : Ref sig .tc := ⟨.hbm, 76, rfl⟩
abbrev main_c_7 : Ref sig .tc := ⟨.hbm, 77, rfl⟩
abbrev main_v26 : Ref sig .tc := ⟨.hbm, 78, rfl⟩
abbrev main_v27 : Ref sig .tc := ⟨.hbm, 79, rfl⟩
abbrev main_c_8 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_c_9 : Ref sig .tc := ⟨.hbm, 89, rfl⟩
abbrev main_call7_v0 : Ref sig .tc := ⟨.hbm, 90, rfl⟩
abbrev main_call7_v1 : Ref sig .tc := ⟨.hbm, 91, rfl⟩
abbrev main_call7_v2 : Ref sig .tc := ⟨.hbm, 92, rfl⟩
abbrev main_call7_v3 : Ref sig .tc := ⟨.hbm, 93, rfl⟩
abbrev main_call7_v4 : Ref sig .tc := ⟨.hbm, 94, rfl⟩
abbrev main_call7_v5 : Ref sig .tc := ⟨.hbm, 95, rfl⟩
abbrev main_call7_v6 : Ref sig .tc := ⟨.hbm, 96, rfl⟩
abbrev main_call7_v7 : Ref sig .tc := ⟨.hbm, 97, rfl⟩
abbrev main_call7_v8 : Ref sig .tc := ⟨.hbm, 98, rfl⟩
abbrev main_call7_c : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_c_0 : Ref sig .tc := ⟨.hbm, 103, rfl⟩
abbrev main_call7_v12 : Ref sig .tc := ⟨.hbm, 104, rfl⟩
abbrev main_call7_v13 : Ref sig .tc := ⟨.hbm, 105, rfl⟩
abbrev main_v37 : Ref sig .tc := ⟨.hbm, 106, rfl⟩
abbrev main_v38 : Ref sig .tc := ⟨.hbm, 107, rfl⟩
abbrev main_c_10 : Ref sig .tc := ⟨.hbm, 108, rfl⟩
abbrev main_call8_v0 : Ref sig .tc := ⟨.hbm, 109, rfl⟩
abbrev main_call8_v1 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_call8_v5 : Ref sig .tc := ⟨.hbm, 114, rfl⟩
abbrev main_call8_v6 : Ref sig .tc := ⟨.hbm, 115, rfl⟩
abbrev main_call8_v7 : Ref sig .tc := ⟨.hbm, 116, rfl⟩
abbrev main_call8_v8 : Ref sig .tc := ⟨.hbm, 117, rfl⟩
abbrev main_call8_c : Ref sig .tc := ⟨.hbm, 118, rfl⟩
abbrev main_call8_v9 : Ref sig .tc := ⟨.hbm, 119, rfl⟩
abbrev main_call8_v10 : Ref sig .tc := ⟨.hbm, 120, rfl⟩
abbrev main_call8_v11 : Ref sig .tc := ⟨.hbm, 121, rfl⟩
abbrev main_call8_c_0 : Ref sig .tc := ⟨.hbm, 122, rfl⟩
abbrev main_call8_v12 : Ref sig .tc := ⟨.hbm, 123, rfl⟩
abbrev main_call8_v13 : Ref sig .tc := ⟨.hbm, 124, rfl⟩
abbrev main_c_11 : Ref sig .tc := ⟨.hbm, 125, rfl⟩
abbrev main_v40 : Ref sig .tc := ⟨.hbm, 126, rfl⟩
abbrev main_v41 : Ref sig .tc := ⟨.hbm, 127, rfl⟩
abbrev main_c_12 : Ref sig .tc := ⟨.hbm, 128, rfl⟩
abbrev main_v42 : Ref sig .tc := ⟨.hbm, 129, rfl⟩
abbrev main_v43 : Ref sig .tc := ⟨.hbm, 130, rfl⟩
abbrev main_c_13 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_c_14 : Ref sig .tc := ⟨.hbm, 137, rfl⟩
abbrev main_v49 : Ref sig .tc := ⟨.hbm, 138, rfl⟩
abbrev main_v50 : Ref sig .tc := ⟨.hbm, 139, rfl⟩
abbrev main_c_15 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_c_16 : Ref sig .tc := ⟨.hbm, 147, rfl⟩
abbrev main_call9_v0 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_call10_c : Ref sig .tc := ⟨.hbm, 153, rfl⟩
abbrev main_call10_v0 : Ref sig .tc := ⟨.hbm, 154, rfl⟩
abbrev main_call10_v1 : Ref sig .tc := ⟨.hbm, 155, rfl⟩
abbrev main_call10_c_0 : Ref sig .tc := ⟨.hbm, 156, rfl⟩
abbrev main_call10_v2 : Ref sig .tc := ⟨.hbm, 157, rfl⟩
abbrev main_call10_v3 : Ref sig .tc := ⟨.hbm, 158, rfl⟩
abbrev main_call10_v4 : Ref sig .tc := ⟨.hbm, 159, rfl⟩
abbrev main_call10_v5 : Ref sig .tc := ⟨.hbm, 160, rfl⟩
abbrev main_call10_c_1 : Ref sig .tc := ⟨.hbm, 161, rfl⟩
abbrev main_call10_c_2 : Ref sig .tc := ⟨.hbm, 162, rfl⟩
abbrev main_call10_v6 : Ref sig .tc := ⟨.hbm, 163, rfl⟩
abbrev main_call10_v7 : Ref sig .tc := ⟨.hbm, 164, rfl⟩
abbrev main_call10_v8 : Ref sig .tc := ⟨.hbm, 165, rfl⟩
abbrev main_call10_v9 : Ref sig .tc := ⟨.hbm, 166, rfl⟩
abbrev main_call10_v10 : Ref sig .tc := ⟨.hbm, 167, rfl⟩
abbrev main_call10_v11 : Ref sig .tc := ⟨.hbm, 168, rfl⟩
abbrev main_call10_c_3 : Ref sig .tc := ⟨.hbm, 169, rfl⟩
abbrev main_call10_v12 : Ref sig .tc := ⟨.hbm, 170, rfl⟩
abbrev main_call10_v13 : Ref sig .tc := ⟨.hbm, 171, rfl⟩
abbrev main_call10_v14 : Ref sig .tc := ⟨.hbm, 172, rfl⟩
abbrev main_call10_cst : Ref sig .tc := ⟨.hbm, 173, rfl⟩
abbrev main_call10_v15 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_call11_c : Ref sig .tc := ⟨.hbm, 180, rfl⟩
abbrev main_call11_v0 : Ref sig .tc := ⟨.hbm, 181, rfl⟩
abbrev main_call11_v1 : Ref sig .tc := ⟨.hbm, 182, rfl⟩
abbrev main_call11_c_0 : Ref sig .tc := ⟨.hbm, 183, rfl⟩
abbrev main_call11_v2 : Ref sig .tc := ⟨.hbm, 184, rfl⟩
abbrev main_call11_v3 : Ref sig .tc := ⟨.hbm, 185, rfl⟩
abbrev main_call11_v4 : Ref sig .tc := ⟨.hbm, 186, rfl⟩
abbrev main_call11_v5 : Ref sig .tc := ⟨.hbm, 187, rfl⟩
abbrev main_call11_c_1 : Ref sig .tc := ⟨.hbm, 188, rfl⟩
abbrev main_call11_c_2 : Ref sig .tc := ⟨.hbm, 189, rfl⟩
abbrev main_call11_v6 : Ref sig .tc := ⟨.hbm, 190, rfl⟩
abbrev main_call11_v7 : Ref sig .tc := ⟨.hbm, 191, rfl⟩
abbrev main_call11_v8 : Ref sig .tc := ⟨.hbm, 192, rfl⟩
abbrev main_call11_v9 : Ref sig .tc := ⟨.hbm, 193, rfl⟩
abbrev main_call11_v10 : Ref sig .tc := ⟨.hbm, 194, rfl⟩
abbrev main_call11_v11 : Ref sig .tc := ⟨.hbm, 195, rfl⟩
abbrev main_call11_c_3 : Ref sig .tc := ⟨.hbm, 196, rfl⟩
abbrev main_call11_v12 : Ref sig .tc := ⟨.hbm, 197, rfl⟩
abbrev main_call11_v13 : Ref sig .tc := ⟨.hbm, 198, rfl⟩
abbrev main_call11_v14 : Ref sig .tc := ⟨.hbm, 199, rfl⟩
abbrev main_call11_cst : Ref sig .tc := ⟨.hbm, 200, rfl⟩
abbrev main_call11_v15 : Ref sig .tc := ⟨.hbm, 201, rfl⟩
abbrev main_v66 : Ref sig .tc := ⟨.hbm, 202, rfl⟩
abbrev main_v67 : Ref sig .tc := ⟨.hbm, 203, rfl⟩
abbrev main_v68 : Ref sig .tc := ⟨.hbm, 204, rfl⟩
abbrev main_v69 : Ref sig .tc := ⟨.hbm, 205, rfl⟩
abbrev main_v70 : Ref sig .tc := ⟨.hbm, 206, rfl⟩
abbrev main_call12_c : Ref sig .tc := ⟨.hbm, 207, rfl⟩
abbrev main_call12_v0 : Ref sig .tc := ⟨.hbm, 208, rfl⟩
abbrev main_call12_v1 : Ref sig .tc := ⟨.hbm, 209, rfl⟩
abbrev main_call12_c_0 : Ref sig .tc := ⟨.hbm, 210, rfl⟩
abbrev main_call12_v2 : Ref sig .tc := ⟨.hbm, 211, rfl⟩
abbrev main_call12_v3 : Ref sig .tc := ⟨.hbm, 212, rfl⟩
abbrev main_call12_v4 : Ref sig .tc := ⟨.hbm, 213, rfl⟩
abbrev main_call12_v5 : Ref sig .tc := ⟨.hbm, 214, rfl⟩
abbrev main_call12_c_1 : Ref sig .tc := ⟨.hbm, 215, rfl⟩
abbrev main_call12_c_2 : Ref sig .tc := ⟨.hbm, 216, rfl⟩
abbrev main_call12_v6 : Ref sig .tc := ⟨.hbm, 217, rfl⟩
abbrev main_call12_v7 : Ref sig .tc := ⟨.hbm, 218, rfl⟩
abbrev main_call12_v8 : Ref sig .tc := ⟨.hbm, 219, rfl⟩
abbrev main_call12_v9 : Ref sig .tc := ⟨.hbm, 220, rfl⟩
abbrev main_call12_v10 : Ref sig .tc := ⟨.hbm, 221, rfl⟩
abbrev main_call12_v11 : Ref sig .tc := ⟨.hbm, 222, rfl⟩
abbrev main_call12_c_3 : Ref sig .tc := ⟨.hbm, 223, rfl⟩
abbrev main_call12_v12 : Ref sig .tc := ⟨.hbm, 224, rfl⟩
abbrev main_call12_v13 : Ref sig .tc := ⟨.hbm, 225, rfl⟩
abbrev main_call12_v14 : Ref sig .tc := ⟨.hbm, 226, rfl⟩
abbrev main_call12_cst : Ref sig .tc := ⟨.hbm, 227, rfl⟩
abbrev main_call12_v15 : Ref sig .tc := ⟨.hbm, 228, rfl⟩
abbrev main_v71 : Ref sig .tc := ⟨.hbm, 229, rfl⟩
abbrev main_v72 : Ref sig .tc := ⟨.hbm, 230, rfl⟩
abbrev main_v73 : Ref sig .tc := ⟨.hbm, 231, rfl⟩
abbrev main_cst_17 : Ref sig .tc := ⟨.hbm, 232, rfl⟩
abbrev main_v74 : Ref sig .tc := ⟨.hbm, 233, rfl⟩
abbrev main_v75 : Ref sig .tc := ⟨.hbm, 234, rfl⟩
abbrev main_v76 : Ref sig .tc := ⟨.hbm, 235, rfl⟩
abbrev main_v77 : Ref sig .tc := ⟨.hbm, 236, rfl⟩
abbrev main_v78 : Ref sig .tc := ⟨.hbm, 237, rfl⟩
abbrev main_v79 : Ref sig .tc := ⟨.hbm, 238, rfl⟩
abbrev main_v21 : Ref sig .tc := ⟨.smem, 0, rfl⟩
abbrev main_v24 : Ref sig .tc := ⟨.smem, 1, rfl⟩
abbrev main_v36 : Ref sig .tc := ⟨.smem, 2, rfl⟩
abbrev main_v39 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨2, ![293, 147], ![false, false]⟩

abbrev pre0 : Pipeline.Prefetch sig := ⟨2, ![main_v21.idx, main_v24.idx], fun | 0 => main_v21.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond3 (i : grid0.Coords) : BitVec 1 :=
  let arg1 : BitVec 32 := BitVec.ofNat 32 (i 1).val
  let c146_i32 : BitVec 32 := 146#32
  let v12 : BitVec 1 := Scalar.cmpi .eq arg1 c146_i32
  let v13 : BitVec 32 := Scalar.extui v12
  let c0_i32_2 : BitVec 32 := 0#32
  let v14 : BitVec 1 := Scalar.cmpi .ne v13 c0_i32_2
  v14

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![147, 293], ![false, false]⟩

abbrev pre1 : Pipeline.Prefetch sig := ⟨2, ![main_v36.idx, main_v39.idx], fun | 0 => main_v36.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v3 : Index := Scalar.indexCast arg1
  ![v3.toNat]
def k1_cond3 (i : grid1.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![293, 147], ![false, false]⟩

abbrev pre2 : Pipeline.Prefetch sig := ⟨2, ![main_v21.idx, main_v24.idx], fun | 0 => main_v21.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v3 : Index := Scalar.indexCast arg0
  ![v3.toNat]
def k2_cond3 (i : grid2.Coords) : BitVec 1 :=
  let arg1 : BitVec 32 := BitVec.ofNat 32 (i 1).val
  let c146_i32 : BitVec 32 := 146#32
  let v12 : BitVec 1 := Scalar.cmpi .eq arg1 c146_i32
  let v13 : BitVec 32 := Scalar.extui v12
  let c0_i32_2 : BitVec 32 := 0#32
  let v14 : BitVec 1 := Scalar.cmpi .ne v13 c0_i32_2
  v14

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S64x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![147, 293], ![false, false]⟩

abbrev pre3 : Pipeline.Prefetch sig := ⟨2, ![main_v36.idx, main_v39.idx], fun | 0 => main_v36.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg1 : BitVec 32 := BitVec.ofNat 32 (i 1).val
  let v3 : Index := Scalar.indexCast arg1
  ![v3.toNat]
def k3_cond3 (i : grid3.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S64x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![293, 147], ![false, false]⟩

abbrev pre4 : Pipeline.Prefetch sig := ⟨2, ![main_v21.idx, main_v24.idx], fun | 0 => main_v21.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v3 : Index := Scalar.indexCast arg0
  ![v3.toNat]
def k4_cond3 (i : grid4.Coords) : BitVec 1 :=
  let arg1 : BitVec 32 := BitVec.ofNat 32 (i 1).val
  let c146_i32 : BitVec 32 := 146#32
  let v12 : BitVec 1 := Scalar.cmpi .eq arg1 c146_i32
  let v13 : BitVec 32 := Scalar.extui v12
  let c0_i32_2 : BitVec 32 := 0#32
  let v14 : BitVec 1 := Scalar.cmpi .ne v13 c0_i32_2
  v14

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S64x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S64x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![147, 293], ![false, false]⟩

abbrev pre5 : Pipeline.Prefetch sig := ⟨2, ![main_v36.idx, main_v39.idx], fun | 0 => main_v36.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg1 : BitVec 32 := BitVec.ofNat 32 (i 1).val
  let v3 : Index := Scalar.indexCast arg1
  ![v3.toNat]
def k5_cond3 (i : grid5.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S64x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S64x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  pads_S1200000_S1200128_01280 : S1200000.Pads (![0] : Fin 1 → Nat) ![128] ![0] S1200128
  h_S_ : 0 < S_.numel
  bcast_S_S1200128 : S_.BroadcastsInDim S1200128 (![] : Fin 0 → Fin S1200128.rank)
  bcast_S1200128_S1200128x1_0 : S1200128.BroadcastsInDim S1200128x1 (![0] : Fin 1 → Fin S1200128x1.rank)
  shapeCasts_S1200128_S293x4096 : S1200128.ShapeCasts S293x4096
  slices_S293x4096_S293x1_0_0 : S293x4096.Slices ![0, 0] S293x1
  shapeCasts_S293x1_S293 : S293x1.ShapeCasts S293
  bcast_S_S293 : S_.BroadcastsInDim S293 (![] : Fin 0 → Fin S293.rank)
  slices_S293x4096_S293x1_0_4095 : S293x4096.Slices ![0, 4095] S293x1
  concatenates_S100000x64_S50000x64_S150000x64_d0 : Shape.Concatenates [S100000x64, S50000x64] S150000x64 0
  pads_S150000x64_S150528x64_05280_000 : S150000x64.Pads (![0, 0] : Fin 2 → Nat) ![528, 0] ![0, 0] S150528x64
  transposes_S150528x64_S64x150528_1_0 : S150528x64.Transposes [1, 0] S64x150528
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  numel1_S1 : S1.numel = 1
  iota_S1024x1_d0_w32 : S1024x1.Iotas .tc 32 [0]
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1024x1_S1024x4096 : S1024x1.Broadcasts S1024x4096
  broadcasts_S1x4096_S1024x4096 : S1x4096.Broadcasts S1024x4096
  shapeCasts_S1x4096_S1x4096 : S1x4096.ShapeCasts S1x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bcast_S_S1200128x1 : S_.BroadcastsInDim S1200128x1 (![] : Fin 0 → Fin S1200128x1.rank)
  bcast_S1_S1x1_1 : S1.BroadcastsInDim S1x1 (![1] : Fin 1 → Fin S1x1.rank)
  bcast_S1x1_S1200128x1_0_1 : S1x1.BroadcastsInDim S1200128x1 (![0, 1] : Fin 2 → Fin S1200128x1.rank)
  reducesTo_S1200128x1_S1200128_d1 : S1200128x1.ReducesTo [1] S1200128
  bcast_S1200128_S64x1200128_1 : S1200128.BroadcastsInDim S64x1200128 (![1] : Fin 1 → Fin S64x1200128.rank)
  bcast_S_S64x1200128 : S_.BroadcastsInDim S64x1200128 (![] : Fin 0 → Fin S64x1200128.rank)
  iota_S1x1024_d1_w32 : S1x1024.Iotas .tc 32 [1]
  shapeCasts_S4096_S4096x1 : S4096.ShapeCasts S4096x1
  broadcasts_S4096x1_S4096x1024 : S4096x1.Broadcasts S4096x1024
  broadcasts_S1x1024_S4096x1024 : S1x1024.Broadcasts S4096x1024
  natLt_1_32 : 1 < 32
  bcast_S_S64x150528 : S_.BroadcastsInDim S64x150528 (![] : Fin 0 → Fin S64x150528.rank)
  transposes_S64x150528_S150528x64_1_0 : S64x150528.Transposes [1, 0] S150528x64
  slices_S150528x64_S150000x64_0_0 : S150528x64.Slices ![0, 0] S150000x64
  slices_S150000x64_S100000x64_0_0 : S150000x64.Slices ![0, 0] S100000x64
  slices_S150000x64_S50000x64_100000_0 : S150000x64.Slices ![100000, 0] S50000x64
  gather_S1200128_S1200128x1_S1200128_n_0_n_n_0_1_1_wf : GatherDims.WF S1200128 S1200128x1 S1200128 [] [0] [] [0] [] 1 ![1]
  scatter_S1200128_S1200128x1_S1200128_n_0_0_1_wf : ScatterDims.WF S1200128 S1200128x1 S1200128 [] [0] [0] 1
  dot_S64x1024_S1024x4096_S64x4096_1_0_0_1_n_n_wf : DotDims.WF S64x1024 S1024x4096 S64x4096 [1] [0] [0] [1] [] []
  gather_S64x1200128_S1200128x1_S64x1200128_0_1_n_n_1_1_641_wf : GatherDims.WF S64x1200128 S1200128x1 S64x1200128 [0] [1] [] [1] [] 1 ![64, 1]
  dot_S64x4096_S4096x1024_S64x1024_1_0_0_1_n_n_wf : DotDims.WF S64x4096 S4096x1024 S64x1024 [1] [0] [0] [1] [] []
  hrank0 : 0 < grid0.rank
  k0_off1_inb : ∀ i : grid0.Coords, ∀ a, (k0_off1 i) a + S1.size a ≤ S293.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1200128.size a
  hwx0_0 : ∀ i : grid0.Coords, EltTy.bits .i32 = 32 ∨ (Rect.block (s := S1200128) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1200128.size a
  hwx0_1 : ∀ i : grid0.Coords, EltTy.bits .f32 = 32 ∨ (Rect.block (s := S1200128) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x150528.size a
  hwx0_2 : ∀ i : grid0.Coords, EltTy.bits .bf16 = 32 ∨ (Rect.block (s := S64x150528) S64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x1200128.size a
  hwx0_3 : ∀ i : grid0.Coords, EltTy.bits .f32 = 32 ∨ (Rect.block (s := S64x1200128) S64x4096.size (cc0_transform_3 i) (hinb0_3 i)).WholeWords (EltTy.packing .f32)
  hrank1 : 0 < grid1.rank
  k1_off1_inb : ∀ i : grid1.Coords, ∀ a, (k1_off1 i) a + S1.size a ≤ S293.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1200128.size a
  hwx1_0 : ∀ i : grid1.Coords, EltTy.bits .i32 = 32 ∨ (Rect.block (s := S1200128) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x1200128.size a
  hwx1_1 : ∀ i : grid1.Coords, EltTy.bits .f32 = 32 ∨ (Rect.block (s := S64x1200128) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x150528.size a
  hwx1_2 : ∀ i : grid1.Coords, EltTy.bits .f32 = 32 ∨ (Rect.block (s := S64x150528) S64x1024.size (cc1_transform_2 i) (hinb1_2 i)).WholeWords (EltTy.packing .f32)
  hrank2 : 0 < grid2.rank
  k2_off1_inb : ∀ i : grid2.Coords, ∀ a, (k2_off1 i) a + S1.size a ≤ S293.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S1200128.size a
  hwx2_0 : ∀ i : grid2.Coords, EltTy.bits .i32 = 32 ∨ (Rect.block (s := S1200128) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096.size a ≤ S1200128.size a
  hwx2_1 : ∀ i : grid2.Coords, EltTy.bits .f32 = 32 ∨ (Rect.block (s := S1200128) S4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x1024.size a ≤ S64x150528.size a
  hwx2_2 : ∀ i : grid2.Coords, EltTy.bits .bf16 = 32 ∨ (Rect.block (s := S64x150528) S64x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x4096.size a ≤ S64x1200128.size a
  hwx2_3 : ∀ i : grid2.Coords, EltTy.bits .f32 = 32 ∨ (Rect.block (s := S64x1200128) S64x4096.size (cc2_transform_3 i) (hinb2_3 i)).WholeWords (EltTy.packing .f32)
  hrank3 : 0 < grid3.rank
  k3_off1_inb : ∀ i : grid3.Coords, ∀ a, (k3_off1 i) a + S1.size a ≤ S293.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096.size a ≤ S1200128.size a
  hwx3_0 : ∀ i : grid3.Coords, EltTy.bits .i32 = 32 ∨ (Rect.block (s := S1200128) S4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x4096.size a ≤ S64x1200128.size a
  hwx3_1 : ∀ i : grid3.Coords, EltTy.bits .f32 = 32 ∨ (Rect.block (s := S64x1200128) S64x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x1024.size a ≤ S64x150528.size a
  hwx3_2 : ∀ i : grid3.Coords, EltTy.bits .f32 = 32 ∨ (Rect.block (s := S64x150528) S64x1024.size (cc3_transform_2 i) (hinb3_2 i)).WholeWords (EltTy.packing .f32)
  hrank4 : 0 < grid4.rank
  k4_off1_inb : ∀ i : grid4.Coords, ∀ a, (k4_off1 i) a + S1.size a ≤ S293.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096.size a ≤ S1200128.size a
  hwx4_0 : ∀ i : grid4.Coords, EltTy.bits .i32 = 32 ∨ (Rect.block (s := S1200128) S4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096.size a ≤ S1200128.size a
  hwx4_1 : ∀ i : grid4.Coords, EltTy.bits .f32 = 32 ∨ (Rect.block (s := S1200128) S4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x1024.size a ≤ S64x150528.size a
  hwx4_2 : ∀ i : grid4.Coords, EltTy.bits .bf16 = 32 ∨ (Rect.block (s := S64x150528) S64x1024.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x4096.size a ≤ S64x1200128.size a
  hwx4_3 : ∀ i : grid4.Coords, EltTy.bits .f32 = 32 ∨ (Rect.block (s := S64x1200128) S64x4096.size (cc4_transform_3 i) (hinb4_3 i)).WholeWords (EltTy.packing .f32)
  hrank5 : 0 < grid5.rank
  k5_off1_inb : ∀ i : grid5.Coords, ∀ a, (k5_off1 i) a + S1.size a ≤ S293.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S1200128.size a
  hwx5_0 : ∀ i : grid5.Coords, EltTy.bits .i32 = 32 ∨ (Rect.block (s := S1200128) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S64x4096.size a ≤ S64x1200128.size a
  hwx5_1 : ∀ i : grid5.Coords, EltTy.bits .f32 = 32 ∨ (Rect.block (s := S64x1200128) S64x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S64x1024.size a ≤ S64x150528.size a
  hwx5_2 : ∀ i : grid5.Coords, EltTy.bits .f32 = 32 ∨ (Rect.block (s := S64x150528) S64x1024.size (cc5_transform_2 i) (hinb5_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1200128_S1200128x1_S1200128_n_0_n_n_0_1_1 : GatherDims S1200128 S1200128x1 S1200128 where
  offsetDims := []
  collapsedSliceDims := [0]
  operandBatchingDims := []
  startIndicesBatchingDims := []
  startIndexMap := [0]
  indexVectorDim := 1
  sliceSizes := ![1]
  wf := gather_S1200128_S1200128x1_S1200128_n_0_n_n_0_1_1_wf
def scatter_S1200128_S1200128x1_S1200128_n_0_0_1 : ScatterDims S1200128 S1200128x1 S1200128 where
  updateWindowDims := []
  insertedWindowDims := [0]
  scatterDimsToOperandDims := [0]
  indexVectorDim := 1
  wf := scatter_S1200128_S1200128x1_S1200128_n_0_0_1_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def gather_S64x1200128_S1200128x1_S64x1200128_0_1_n_n_1_1_641 : GatherDims S64x1200128 S1200128x1 S64x1200128 where
  offsetDims := [0]
  collapsedSliceDims := [1]
  operandBatchingDims := []
  startIndicesBatchingDims := []
  startIndexMap := [1]
  indexVectorDim := 1
  sliceSizes := ![64, 1]
  wf := gather_S64x1200128_S1200128x1_S64x1200128_0_1_n_n_1_1_641_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

abbrev spec0_0 : Pipeline.WinSpec sig grid0.rank :=
  Pipeline.WinSpec.ofSpec (Memref.whole main_v10) S4096.size reads0_0 false false 2 stage0_0 sem0_0 nbuf0_0 hstage0_0

abbrev spec0_1 : Pipeline.WinSpec sig grid0.rank :=
  Pipeline.WinSpec.ofSpec (Memref.whole main_v17) S4096.size reads0_1 false false 2 stage0_1 sem0_1 nbuf0_1 hstage0_1

abbrev spec0_2 : Pipeline.WinSpec sig grid0.rank :=
  Pipeline.WinSpec.ofSpec (Memref.whole main_v59) S64x1024.size reads0_2 false false 2 stage0_2 sem0_2 nbuf0_2 hstage0_2

abbrev spec0_3 : Pipeline.WinSpec sig grid0.rank :=
  Pipeline.WinSpec.ofSpec (Memref.whole main_v60) S64x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev spec1_0 : Pipeline.WinSpec sig grid1.rank :=
  Pipeline.WinSpec.ofSpec (Memref.whole main_v32) S4096.size reads1_0 false false 2 stage1_0 sem1_0 nbuf1_0 hstage1_0

abbrev spec1_1 : Pipeline.WinSpec sig grid1.rank :=
  Pipeline.WinSpec.ofSpec (Memref.whole main_v61) S64x4096.size reads1_1 false false 2 stage1_1 sem1_1 nbuf1_1 hstage1_1

abbrev spec1_2 : Pipeline.WinSpec sig grid1.rank :=
  Pipeline.WinSpec.ofSpec (Memref.whole main_v62) S64x1024.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev spec2_0 : Pipeline.WinSpec sig grid2.rank :=
  Pipeline.WinSpec.ofSpec (Memref.whole main_v10) S4096.size reads2_0 false false 2 stage2_0 sem2_0 nbuf2_0 hstage2_0

abbrev spec2_1 : Pipeline.WinSpec sig grid2.rank :=
  Pipeline.WinSpec.ofSpec (Memref.whole main_v17) S4096.size reads2_1 false false 2 stage2_1 sem2_1 nbuf2_1 hstage2_1

abbrev spec2_2 : Pipeline.WinSpec sig grid2.rank :=
  Pipeline.WinSpec.ofSpec (Memref.whole main_v64) S64x1024.size reads2_2 false false 2 stage2_2 sem2_2 nbuf2_2 hstage2_2

abbrev spec2_3 : Pipeline.WinSpec sig grid2.rank :=
  Pipeline.WinSpec.ofSpec (Memref.whole main_v65) S64x4096.size reads2_3 true false 2 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 | 1 => cc2_transform_1 | 2 => cc2_transform_2 | 3 => cc2_transform_3 | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 | ⟨_ + 4, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | 3 => hinb2_3 | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | 3 => hwx2_3 | ⟨_ + 4, h⟩ => absurd h (Nat.not_lt.2 (Nat.le_add_left _ _))
abbrev idle2 : Fin 4 → grid2.Coords → Bool := fun | 0 => fun _ => false | 1 => fun _ => false | 2 => fun _ => false | 3 => fun i => !(k2_cond3 i == 1#1) | ⟨_ + 4, h⟩ => absurd h (Nat.not_lt.2 (Nat.le_add_left _ _))

abbrev spec3_0 : Pipeline.WinSpec sig grid3.rank :=
  Pipeline.WinSpec.ofSpec (Memref.whole main_v32) S4096.size reads3_0 false false 2 stage3_0 sem3_0 nbuf3_0 hstage3_0

abbrev spec3_1 : Pipeline.WinSpec sig grid3.rank :=
  Pipeline.WinSpec.ofSpec (Memref.whole main_v66) S64x4096.size reads3_1 false false 2 stage3_1 sem3_1 nbuf3_1 hstage3_1

abbrev spec3_2 : Pipeline.WinSpec sig grid3.rank :=
  Pipeline.WinSpec.ofSpec (Memref.whole main_v67) S64x1024.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 | 1 => cc3_transform_1 | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | ⟨_ + 3, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | ⟨_ + 3, h⟩ => absurd h (Nat.not_lt.2 (Nat.le_add_left _ _))
abbrev idle3 : Fin 3 → grid3.Coords → Bool := fun | 0 => fun _ => false | 1 => fun _ => false | 2 => fun i => !(k3_cond3 i == 1#1) | ⟨_ + 3, h⟩ => absurd h (Nat.not_lt.2 (Nat.le_add_left _ _))

abbrev spec4_0 : Pipeline.WinSpec sig grid4.rank :=
  Pipeline.WinSpec.ofSpec (Memref.whole main_v10) S4096.size reads4_0 false false 2 stage4_0 sem4_0 nbuf4_0 hstage4_0

abbrev spec4_1 : Pipeline.WinSpec sig grid4.rank :=
  Pipeline.WinSpec.ofSpec (Memref.whole main_v17) S4096.size reads4_1 false false 2 stage4_1 sem4_1 nbuf4_1 hstage4_1

abbrev spec4_2 : Pipeline.WinSpec sig grid4.rank :=
  Pipeline.WinSpec.ofSpec (Memref.whole main_v69) S64x1024.size reads4_2 false false 2 stage4_2 sem4_2 nbuf4_2 hstage4_2

abbrev spec4_3 : Pipeline.WinSpec sig grid4.rank :=
  Pipeline.WinSpec.ofSpec (Memref.whole main_v70) S64x4096.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 | 1 => cc4_transform_1 | 2 => cc4_transform_2 | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | 3 => hreads4_3 | ⟨_ + 4, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | 3 => hwx4_3 | ⟨_ + 4, h⟩ => absurd h (Nat.not_lt.2 (Nat.le_add_left _ _))
abbrev idle4 : Fin 4 → grid4.Coords → Bool := fun | 0 => fun _ => false | 1 => fun _ => false | 2 => fun _ => false | 3 => fun i => !(k4_cond3 i == 1#1) | ⟨_ + 4, h⟩ => absurd h (Nat.not_lt.2 (Nat.le_add_left _ _))

abbrev spec5_0 : Pipeline.WinSpec sig grid5.rank :=
  Pipeline.WinSpec.ofSpec (Memref.whole main_v32) S4096.size reads5_0 false false 2 stage5_0 sem5_0 nbuf5_0 hstage5_0

abbrev spec5_1 : Pipeline.WinSpec sig grid5.rank :=
  Pipeline.WinSpec.ofSpec (Memref.whole main_v71) S64x4096.size reads5_1 false false 2 stage5_1 sem5_1 nbuf5_1 hstage5_1

abbrev spec5_2 : Pipeline.WinSpec sig grid5.rank :=
  Pipeline.WinSpec.ofSpec (Memref.whole main_v72) S64x1024.size reads5_2 true false 2 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 | 1 => cc5_transform_1 | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | 2 => hreads5_2 | ⟨_ + 3, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | 2 => hwx5_2 | ⟨_ + 3, h⟩ => absurd h (Nat.not_lt.2 (Nat.le_add_left _ _))
abbrev idle5 : Fin 3 → grid5.Coords → Bool := fun | 0 => fun _ => false | 1 => fun _ => false | 2 => fun i => !(k5_cond3 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole

variable [Facts]
-- ==== ReferenceIdeal.lean ====
abbrev S1200000 : Shape := ⟨1, ![1200000]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S1200000x1 : Shape := ⟨2, ![1200000, 1]⟩
abbrev S1200000x64 : Shape := ⟨2, ![1200000, 64]⟩

abbrev nBuf : Space → Nat
  | .hbm => 62
  | .vmem => 0
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S100000x64, .f32⟩
  | .hbm, ⟨4, _⟩ => ⟨S50000x64, .f32⟩
  | .hbm, ⟨5, _⟩ => ⟨S150000x64, .f32⟩
  | .hbm, ⟨6, _⟩ => ⟨S_, .i32⟩
  | .hbm, ⟨7, _⟩ => ⟨S1200000, .i32⟩
  | .hbm, ⟨8, _⟩ => ⟨S1200000, .i1⟩
  | .hbm, ⟨9, _⟩ => ⟨S_, .i32⟩
  | .hbm, ⟨10, _⟩ => ⟨S1200000, .i32⟩
  | .hbm, ⟨11, _⟩ => ⟨S1200000, .i32⟩
  | .hbm, ⟨12, _⟩ => ⟨S1200000, .i32⟩
  | .hbm, ⟨13, _⟩ => ⟨S1200000x1, .i32⟩
  | .hbm, ⟨14, _⟩ => ⟨S1200000x64, .f32⟩
  | .hbm, ⟨15, _⟩ => ⟨S1200000x1, .f32⟩
  | .hbm, ⟨16, _⟩ => ⟨S1200000x64, .f32⟩
  | .hbm, ⟨17, _⟩ => ⟨S1200000x64, .f32⟩
  | .hbm, ⟨18, _⟩ => ⟨S_, .f32⟩
  | .hbm, ⟨19, _⟩ => ⟨S150000x64, .f32⟩
  | .hbm, ⟨20, _⟩ => ⟨S1200000x1, .i32⟩
  | .hbm, ⟨21, _⟩ => ⟨S150000x64, .f32⟩
  | .hbm, ⟨22, _⟩ => ⟨S150000x64, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .f32⟩
  | .hbm, ⟨32, _⟩ => ⟨S1200000x1, .f32⟩
  | .hbm, ⟨33, _⟩ => ⟨S1200000x64, .f32⟩
  | .hbm, ⟨34, _⟩ => ⟨S1200000x64, .f32⟩
  | .hbm, ⟨35, _⟩ => ⟨S_, .f32⟩
  | .hbm, ⟨36, _⟩ => ⟨S150000x64, .f32⟩
  | .hbm, ⟨37, _⟩ => ⟨S1200000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S1200000x1, .f32⟩
  | .hbm, ⟨50, _⟩ => ⟨S1200000x64, .f32⟩
  | .hbm, ⟨51, _⟩ => ⟨S1200000x64, .f32⟩
  | .hbm, ⟨52, _⟩ => ⟨S_, .f32⟩
  | .hbm, ⟨53, _⟩ => ⟨S150000x64, .f32⟩
  | .hbm, ⟨54, _⟩ => ⟨S1200000x1, .i32⟩
  | .hbm, ⟨55, _⟩ => ⟨S150000x64, .f32⟩
  | .hbm, ⟨56, _⟩ => ⟨S150000x64, .f32⟩
  | .hbm, ⟨57, _⟩ => ⟨S_, .f32⟩
  | .hbm, ⟨58, _⟩ => ⟨S150000x64, .f32⟩
  | .hbm, ⟨59, _⟩ => ⟨S150000x64, .f32⟩
  | .hbm, ⟨60, _⟩ => ⟨S100000x64, .f32⟩
  | .hbm, ⟨61, _⟩ => ⟨S50000x64, .f32⟩
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

class Facts : Prop extends Facts₀ where

variable [Facts]
-- ==== Proof.LibClassARegion.lean ====
import Idealize.ShloMosaic.Lib.Pipeline.Regions
import Idealize.ShloMosaic.Lib.Pipeline.RegionsLoop
import Idealize.ShloMosaic.Lib.Pipeline.FrameSuffix
noncomputable section
namespace Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open TcCoe
variable {nD : Nat} {τ : Topo} {sig : RefSig} {Val : EltTy → Type}
namespace Pipeline
open Idealize.ShloMosaic.Rounds
variable {Λ₀ : SL.Sem.Labels} {P : Type} [Fintype P]
namespace ClassA
variable {U' : Type} [URA U']
local notation "𝕄₁" => MT nD τ sig Unit Val ℕ U' ℕ
variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)
def rides (c : Dev nD) : sProp 𝕄₁ :=
  iprop((∃ r, prngReg c r) ∗ ∃ W, owes (c.tc : Thread nD τ) (0 : CellTallies nD τ sig Unit) W)
def between (c : Dev nD) (W : Valuation τ sig Val) : sProp 𝕄₁ :=
  iprop(StableHlo.held (c.tc : Thread nD τ) (ucRefs τ sig) W ∗ rides (U' := U') c)
end ClassA
end Pipeline
end Idealize.ShloMosaic
end
-- ==== Proof.LibRegionPf.lean ====
import proofs.«426118_j38259568672975_2_alg».proof.Proof.LibClassARegion
noncomputable section
namespace Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open TcCoe
variable {nD : Nat} {τ : Topo} {sig : RefSig} {Val : EltTy → Type}
namespace Pipeline
open Idealize.ShloMosaic.Rounds
variable {Λ₀ : SL.Sem.Labels} {P : Type} [Fintype P]
namespace ClassA
variable {U' : Type} [URA U']
local notation "𝕄₁" => MT nD τ sig Unit Val ℕ U' ℕ
variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)
set_option backward.isDefEq.respectTransparency.types false in
theorem unscopedRest_tables (kit : PLaunchFacts (nD := nD) (τ := τ) pcs p) (c : Dev nD) (W : Valuation τ sig Val)
    (hT : ∀ k, (a p).1 k = W (Proc.devRef .tc ((pcs p).pre.ref k))) :
    (unscopedRest (Ix := Unit) (Name := ℕ) (U := U') (Lvl := ℕ) (pin pcs a p).spec c (fun b => W b) : sProp 𝕄₁)
      = iprop(prefHeld (pcs p).pre c (fun _ => fullShare) (a p).1
          ∗ unscopedRestP (Ix := Unit) (Name := ℕ) (U := U') (Lvl := ℕ) (pcs p).pre (pin pcs a p).spec c (fun b => W b)) := by
  have hTc : (a p).1 = fun k => W (Proc.devRef .tc ((pcs p).pre.ref k)) := funext hT
  rw [hTc]
  exact unscopedRest_split (Ix := Unit) (Name := ℕ) (U := U') (Lvl := ℕ) kit.pre c (fun b => W b)
set_option backward.isDefEq.respectTransparency.types false in
def regionPf (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (iprop(ΦA (pin pcs a p).spec c ∗ prefHeld (pcs p).pre c (fun _ => fullShare) (a p).1) : sProp 𝕄₁) ⊢ (pdats p c).Φ 0)
    (hΦout : ∀ c, (pdats p c).Φ (Fin.last (pin pcs a p).N)
      ⊢ (iprop(ΦA (pin pcs a p).spec c ∗ prefHeld (pcs p).pre c (fun _ => fullShare) (a p).1) : sProp 𝕄₁))
    (W W' : Dev nD → Valuation τ sig Val)
    (hT : ∀ c k, (a p).1 k = W c (Proc.devRef .tc ((pcs p).pre.ref k)))
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop((∃ r, prngReg c r) ∗ prefHeld (pcs p).pre c (fun _ => fullShare) (a p).1)
  Z c := unscopedRestP (Ix := Unit) (Name := ℕ) (U := U') (Lvl := ℕ) (pcs p).pre (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    have htab := unscopedRest_tables (U' := U') pcs a p kit c (W c) (hT c)
    rw [ownSems0_none]
    unfold between rides
    iintro ⟨⟨Hub, Hp, HO⟩, -, -⟩
    ihave H := hsplit $$ Hub
    icases H with ⟨Ha, Hrest⟩
    ihave Hsp := (Entails.of_eq htab) $$ Hrest
    icases Hsp with ⟨Ht, Hbyp⟩
    imodintro
    isplitl [Ha]; · iexact Ha
    isplitl [Ht]; · iexact Ht
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hbyp
  hin c := by
    have h : (iprop((∃ r, prngReg c r) ∗ prefHeld (pcs p).pre c (fun _ => fullShare) (a p).1 ∗ scopedRest (pin pcs a p).spec c) : sProp 𝕄₁)
        ⊢ iprop(ΦA (pin pcs a p).spec c ∗ prefHeld (pcs p).pre c (fun _ => fullShare) (a p).1) := by
      unfold ΦA
      iintro ⟨Hp, Ht, Hr⟩
      isplitl [Hr Hp]
      · isplitl [Hr]; · iexact Hr
        iexact Hp
      iexact Ht
    exact h.trans (hΦin c)
  hout c := by
    have h : (iprop(ΦA (pin pcs a p).spec c ∗ prefHeld (pcs p).pre c (fun _ => fullShare) (a p).1) : sProp 𝕄₁)
        ⊢ iprop(((∃ r, prngReg c r) ∗ prefHeld (pcs p).pre c (fun _ => fullShare) (a p).1)
            ∗ ownSems0 (fun k : PEmpty => k.elim) c ∗ scopedRest (pin pcs a p).spec c) := by
      rw [ownSems0_none]; unfold ΦA
      iintro ⟨⟨Hr, Hp⟩, Ht⟩
      isplitl [Hp Ht]
      · isplitl [Hp]; · iexact Hp
        iexact Ht
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    have htab := (unscopedRest_tables (U' := U') pcs a p kit c (W c) (hT c)).symm
    unfold between rides
    iintro ⟨Ha, HO, ⟨HY, Ht⟩, Hbyp⟩
    ihave Hrest := (Entails.of_eq htab) $$ [Ht Hbyp]
    · isplitl [Ht]; · iexact Ht
      iexact Hbyp
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO
end ClassA
end Pipeline
end Idealize.ShloMosaic
end
-- ==== Proof.KiFrame.lean ====
import proofs.«426118_j38259568672975_2_alg».proof.Proof.Gen.KernelIdeal.Regions
import proofs.«426118_j38259568672975_2_alg».proof.Proof.LibClassARegion
import proofs.«426118_j38259568672975_2_alg».proof.Proof.KiRunValues
set_option maxRecDepth 1676
noncomputable section
namespace Cert.KernelIdeal.Hand
open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.Pipeline.ClassA (rides between)
variable {F : FTy → Type} [FloatOps F]
local notation "𝕄ᵣ" => MT nD τ sig Unit (Elt F) ℕ (UR sig nD τ) ℕ
def u₀ (a : (p : Fin 6) → (pcfgs (F := F) p).Adm) : UR sig nD τ :=
  initOf (Pipeline.cells (Pipeline.pin (pcfgs (F := F)) a) (cellOf_inj a)) (Pipeline.launchToks (Pipeline.pin (pcfgs (F := F)) a) (cellOf_inj a))
theorem launch_elt (a : (p : Fin 6) → (pcfgs (F := F) p).Adm) :
    (ownU (u₀ a) : sProp 𝕄ᵣ)
      ⊢ |={Set.univ}=> iprop(BI.own ((emb₁ : Emb (UR sig nD τ) 𝕄ᵣ) (initOf (Pipeline.cells (Pipeline.pin (pcfgs (F := F)) a) (cellOf_inj a)) (Pipeline.launchToks (Pipeline.pin (pcfgs (F := F)) a) (cellOf_inj a))))
          ∗ bigSep Finset.univ fun _ : Dev nD => (BI.emp : sProp 𝕄ᵣ)) := by
  unfold u₀
  rw [ownU_emb₁]
  iintro Hu
  imodintro
  isplitl [Hu]; · iexact Hu
  iapply (show (BI.emp : sProp 𝕄ᵣ) ⊢ bigSep Finset.univ (fun _ : Dev nD => (BI.emp : sProp 𝕄ᵣ)) from by rw [BI.bigSep_emp_const])
  iempintro
theorem rides_init_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄ᵣ)) : sProp 𝕄ᵣ)
      ⊢ rides (U' := UR sig nD τ) c := by
  unfold rides
  iintro ⟨-, HO, -, Hp, -⟩
  isplitl [Hp]; · iexists (ρ c); iexact Hp
  iexists ∅; iexact HO
theorem rides_init (L : GSem nD τ sig → Finset Unit) (lv : GSem nD τ sig → Unit → ℕ) (ρ : Dev nD → PrngReg) :
    (iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄ᵣ))) ∗ levAts L lv) : sProp 𝕄ᵣ)
      ⊢ |={Set.univ}=> bigSep Finset.univ (fun c : Dev nD => rides (U' := UR sig nD τ) c) := by
  have h : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄ᵣ)))
      ⊢ (bigSep Finset.univ (fun c : Dev nD => rides (U' := UR sig nD τ) c) : sProp 𝕄ᵣ) :=
    bigSep_mono fun c _ => rides_init_core ρ c
  iintro ⟨H, -⟩
  imodintro
  iapply h; iexact H
theorem rides_owes (c : Dev nD) :
    (rides (U' := UR sig nD τ) c : sProp 𝕄ᵣ) ⊢ iprop(∃ W, owes (c : Thread nD τ) (0 : CellTallies nD τ sig Unit) W) := by
  unfold rides
  iintro ⟨-, HO⟩
  iexact HO
set_option backward.isDefEq.respectTransparency.types false in
theorem run_of_regions (m : (ℓ : Loc nD τ sig) → Buf (Elt F) ℓ) (ρ : Dev nD → PrngReg) (outs : Outs (F := F))
    (𝒱₀ : Variants) (L : GSem nD τ sig → Finset Unit) (lv : GSem nD τ sig → Unit → ℕ)
    (hL : ∀ g : GSem nD τ sig, g.1.2 ≠ .tc → L g = ∅)
    (a : (p : Fin 6) → (pcfgs (F := F) p).Adm)
    (pdats : (p : Fin 6) → (c : Dev nD) → Dat τ (Elt F) Unit ℕ (UR sig nD τ) ℕ (Pipeline.pin (pcfgs (F := F)) a p) c)
    (R0 : RegionSeg (pcfgs (F := F)) a pdats () defs₀ 𝒱₀ L lv 0)
    (hpre0 : ∀ c : Dev nD, R0.pre c = between (U' := UR sig nD τ) c (V19 m c))
    (hpost0 : ∀ c : Dev nD, R0.post c = between (U' := UR sig nD τ) c (V20 m outs c))
    (R1 : RegionSeg (pcfgs (F := F)) a pdats () defs₀ 𝒱₀ L lv 1)
    (hpre1 : ∀ c : Dev nD, R1.pre c = between (U' := UR sig nD τ) c (V21 m outs c))
    (hpost1 : ∀ c : Dev nD, R1.post c = between (U' := UR sig nD τ) c (V22 m outs c))
    (R2 : RegionSeg (pcfgs (F := F)) a pdats () defs₀ 𝒱₀ L lv 2)
    (hpre2 : ∀ c : Dev nD, R2.pre c = between (U' := UR sig nD τ) c (V23 m outs c))
    (hpost2 : ∀ c : Dev nD, R2.post c = between (U' := UR sig nD τ) c (V24 m outs c))
    (R3 : RegionSeg (pcfgs (F := F)) a pdats () defs₀ 𝒱₀ L lv 3)
    (hpre3 : ∀ c : Dev nD, R3.pre c = between (U' := UR sig nD τ) c (V25 m outs c))
    (hpost3 : ∀ c : Dev nD, R3.post c = between (U' := UR sig nD τ) c (V26 m outs c))
    (R4 : RegionSeg (pcfgs (F := F)) a pdats () defs₀ 𝒱₀ L lv 4)
    (hpre4 : ∀ c : Dev nD, R4.pre c = between (U' := UR sig nD τ) c (V27 m outs c))
    (hpost4 : ∀ c : Dev nD, R4.post c = between (U' := UR sig nD τ) c (V28 m outs c))
    (R5 : RegionSeg (pcfgs (F := F)) a pdats () defs₀ 𝒱₀ L lv 5)
    (hpre5 : ∀ c : Dev nD, R5.pre c = between (U' := UR sig nD τ) c (V29 m outs c))
    (hpost5 : ∀ c : Dev nD, R5.post c = between (U' := UR sig nD τ) c (V30 m outs c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v78) = V31 m outs c main_v78
      ∧ r.2.mem ((c.tc : Thread nD τ).loc main_v79) = V31 m outs c main_v79) :=
  run_cond (m := m) (EP := emb₁) (ι := ()) (𝒱₀ := 𝒱₀) (L := L) (lv := lv) (hL := hL) (ρ := ρ) (outs := outs)
    (a := a) (pdats := pdats) (O₀ := 0) (G := fun _ => BI.emp) (u₀ := u₀ a) (hu₀ := launch_elt a)
    (E := fun _ c => rides (U' := UR sig nD τ) c) (hE0 := rides_init L lv ρ) (hE6 := rides_owes)
    (R0 := R0) (hpre0 := fun c => Entails.of_eq (hpre0 c).symm) (hpost0 := fun c => Entails.of_eq (hpost0 c))
    (R1 := R1) (hpre1 := fun c => Entails.of_eq (hpre1 c).symm) (hpost1 := fun c => Entails.of_eq (hpost1 c))
    (R2 := R2) (hpre2 := fun c => Entails.of_eq (hpre2 c).symm) (hpost2 := fun c => Entails.of_eq (hpost2 c))
    (R3 := R3) (hpre3 := fun c => Entails.of_eq (hpre3 c).symm) (hpost3 := fun c => Entails.of_eq (hpost3 c))
    (R4 := R4) (hpre4 := fun c => Entails.of_eq (hpre4 c).symm) (hpost4 := fun c => Entails.of_eq (hpost4 c))
    (R5 := R5) (hpre5 := fun c => Entails.of_eq (hpre5 c).symm) (hpost5 := fun c => Entails.of_eq (hpost5 c))
end Cert.KernelIdeal.Hand
end
-- ==== Proof.KiGatherBody.lean ====
import proofs.«426118_j38259568672975_2_alg».proof.Proof.Gen.KernelIdeal.Launch
import proofs.«426118_j38259568672975_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.GatherBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gather call's body: one function, whichever of the three calls runs it. -/
abbrev body := @cc0__gather_kernel_T

abbrev condFirst (i : grid0.Coords) : Prop :=
  (Scalar.cmpi .ne (Scalar.extui (Scalar.cmpi .eq (BitVec.ofNat 32 (i 1).val) 0#32)) 0#32) = 1#1
abbrev condIn (i : grid0.Coords) (lo hi : Elt F .i32) : Prop :=
  (Scalar.cmpi .ne (Scalar.extui (Scalar.andi (Scalar.cmpi .sge (BitVec.ofNat 32 (i 1).val) lo)
    (Scalar.cmpi .sle (BitVec.ofNat 32 (i 1).val) hi))) 0#32) = 1#1
abbrev condLast (i : grid0.Coords) : Prop := k0_cond3 i = 1#1

abbrev tbLo : Memref sig .tc .smem S293 .i32 := Memref.whole main_v21
abbrev tbHi : Memref sig .tc .smem S293 .i32 := Memref.whole main_v24

abbrev TbBuf (c : Dev nD) {S : Shape} {e : EltTy} (M : Memref sig .tc .smem S e) : Type :=
  Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

abbrev wordAt (c : Dev nD) (i : grid0.Coords) (M : Memref sig .tc .smem S293 .i32) (xt : TbBuf (F := F) c M) : Elt F .i32 :=
  M.view.readAt (Elt F) (Rect.unit (s := S293) (k0_off1 i) S1.size (k0_off1_inb i)).toLoadRect xt
    (Shape.Idx.first (numel1_S1.symm ▸ Nat.one_pos))

theorem zeroOffsOne : (![0] : Fin 1 → Nat) = fun _ => 0 := by
  funext a; match a with | ⟨0, _⟩ => rfl
theorem zeroOffsTwo : (![0, 0] : Fin 2 → Nat) = fun _ => 0 := by
  funext a; match a with | ⟨0, _⟩ => rfl | ⟨1, _⟩ => rfl

/-- After stores the last of which covers the whole shape, the view reads that store's payload. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.Mem.head _, View.mem_set_unit_zero h inb y⟩), View.canon_cons_unit_zero h inb]

section
variable (c : Dev nD) (i : grid0.Coords)
  (arg4 : Memref sig .tc .vmem S4096 .i32) (harg4 : arg4.IsWhole) (arg5 : Memref sig .tc .vmem S4096 .f32) (harg5 : arg5.IsWhole)
  (arg6 : Memref sig .tc .vmem S64x1024 .bf16) (harg6 : arg6.IsWhole) (arg7 : Memref sig .tc .vmem S64x4096 .f32) (harg7 : arg7.IsWhole)
  (arg8 : Memref sig .tc .vmem S64x4096 .f32) (harg8 : arg8.IsWhole)
  (x0 : Vec F S4096 .i32) (x1 : Vec F S4096 .f32) (x2 : Vec F S64x1024 .bf16)
  (xt0 : TbBuf (F := F) c tbLo) (xt1 : TbBuf (F := F) c tbHi) (xi3 xs : Vec F S64x4096 .f32) (E : Set ℕ) (K : PUnit.{1} → sProp (MT nD τ sig Unit (Elt F) ℕ (UR sig nD τ) ℕ))

/-- What the body holds: the five vector operands at their contents, the last two at v7 and v8, and the two tables. -/
abbrev heldAt (v7 v8 : Vec F S64x4096 .f32) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare v7 ∗ owns (c : Thread nD τ) arg8 fullShare v8 ∗ tbPt c tbLo xt0 ∗ tbPt c tbHi xt1)

/-- The body run from heldAt xi3 xs to heldAt v7 v8. -/
abbrev runsTo (v7 v8 : Vec F S64x4096 .f32) : Prop :=
  iprop(heldAt c arg4 arg5 arg6 arg7 arg8 x0 x1 x2 xt0 xt1 xi3 xs ∗ (heldAt c arg4 arg5 arg6 arg7 arg8 x0 x1 x2 xt0 xt1 v7 v8 -∗ K ⟨⟩))
    ⊢ wp frame (wpE (defs₀ (F := F)) Variants.none c none) E
        (body i tbLo (Memref.isWhole_whole _) tbHi (Memref.isWhole_whole _) arg4 harg4 arg5 harg5 arg6 harg6 arg7 harg7 arg8 harg8) K

/-- What the body leaves in an accumulator that held z: the zeros on the first column, then the product added where the words bracket the column. -/
def accAfter (z : Vec F S64x4096 .f32) : Vec F S64x4096 .f32 :=
  if condIn i (wordAt c i tbLo xt0) (wordAt c i tbHi xt1) then k0_pay2 i x0 x1 x2 (if condFirst i then k0_pay1 else z)
  else if condFirst i then k0_pay1 else z

set_option maxHeartbeats 1000000 in
/-- The body's run at any point that is not on the first and the last column at once: the three conditionals are decided
    case by case; a buffer stored into reads the last store's payload, the others read what they held. -/
theorem run (hAC : condFirst i → ¬condLast i) :
    runsTo c i arg4 harg4 arg5 harg5 arg6 harg6 arg7 harg7 arg8 harg8 x0 x1 x2 xt0 xt1 xi3 xs E K (if condLast i then accAfter c i x0 x1 x2 xt0 xt1 xs else xi3) (accAfter c i x0 x1 x2 xt0 xt1 xs) := by
  unfold runsTo heldAt body accAfter
  simp only [cc0__gather_kernel_T_eq_skeleton]; unfold cc0__gather_kernel_T_skel
  unfold owns
  iintro ⟨⟨⟨%f0, %hf0, H0⟩, ⟨%f1, %hf1, H1⟩, ⟨%f2, %hf2, H2⟩, ⟨%f3, %hf3, H3⟩, ⟨%fs, %hfs, HS⟩, HT0, HT1⟩, Hk⟩
  obtain rfl := harg4.eq_unread hf0; obtain rfl := harg5.eq_unread hf1; obtain rfl := harg6.eq_unread hf2
  obtain rfl := harg7.eq_unread hf3; obtain rfl := harg8.eq_unread hfs
  by_cases hc0 : condFirst i <;> by_cases hc1 : condIn i (wordAt c i tbLo xt0) (wordAt c i tbHi xt1) <;> by_cases hc2 : condLast i <;>
    try exact absurd hc2 (hAC hc0)
  all_goals
    first | rw [if_pos hc0] | rw [if_neg hc0]
    first | rw [if_pos hc1] | rw [if_neg hc1]
    first | rw [if_pos hc2] | rw [if_neg hc2]
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      first
      | with_reducible exact harg7.read_unread _
      | (try sl_unfold_words
         rw [read_writes_whole_last _ _ zeroOffsTwo]
         try simp only [View.readAt_eq_ld, harg4.read_unread, harg5.read_unread, harg6.read_unread, harg8.read_unread, View.ld_unit_zero (S := S4096) zeroOffsOne, View.ld_unit_zero (S := S64x1024) zeroOffsTwo, View.ld_unit_zero (S := S64x4096) zeroOffsTwo, View.readCov_unit_zero (S := S64x4096) _ zeroOffsTwo])
    isplitl [HS]
    · iexists _; isplitr; swap; · iexact HS
      ipureintro
      first
      | with_reducible exact harg8.read_unread _
      | (try sl_unfold_words
         rw [read_writes_whole_last _ _ zeroOffsTwo]
         try simp only [View.readAt_eq_ld, harg4.read_unread, harg5.read_unread, harg6.read_unread, harg8.read_unread, View.ld_unit_zero (S := S4096) zeroOffsOne, View.ld_unit_zero (S := S64x1024) zeroOffsTwo, View.ld_unit_zero (S := S64x4096) zeroOffsTwo, View.readCov_unit_zero (S := S64x4096) _ zeroOffsTwo])
    isplitl [HT0]; · iexact HT0
    iexact HT1

end

end Cert.KernelIdeal.GatherBody

end
-- ==== Proof.KiGatherRuns.lean ====
import proofs.«426118_j38259568672975_2_alg».proof.Proof.KiGatherBody

set_option maxRecDepth 16384

noncomputable section

namespace Cert.KernelIdeal.Hand0

open Cert.KernelIdeal.Gen Cert.KernelIdeal.GatherBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body_eq : @cc0__gather_kernel_T F _ = @GatherBody.body F _ := rfl

theorem gridN : grid0.N = 43071 := by decide

theorem coordsJ (t : Fin grid0.N) : (grid0.coords t 1).val = t.val % 147 := by
  show t.val / grid0.stride 1 % 147 = t.val % 147
  rw [show grid0.stride 1 = 1 from by decide, Nat.div_one]

theorem coordsI (t : Fin grid0.N) : (grid0.coords t 0).val = t.val / 147 := by
  have hN : t.val < 43071 := lt_of_lt_of_eq t.isLt gridN
  show t.val / grid0.stride 0 % 293 = t.val / 147
  rw [show grid0.stride 0 = 147 from by decide]
  omega

/-- Each coordinate condition is a fact about the 147 values of the column coordinate, carried to the point by coordsJ. -/
theorem hcond0_0 (t : Fin grid0.N) : condFirst (grid0.coords t) ↔ t.val % 147 = 0 := by
  have key : ∀ j : Fin (grid0.bound 1),
      (Scalar.cmpi .ne (Scalar.extui (Scalar.cmpi .eq (BitVec.ofNat 32 j.val) 0#32)) 0#32) = 1#1 ↔ j.val = 0 := by
    decide +kernel
  exact (key (grid0.coords t 1)).trans (by rw [coordsJ t])

theorem hcond0_2 (t : Fin grid0.N) : condLast (grid0.coords t) ↔ t.val % 147 = 146 := by
  have key : ∀ j : Fin (grid0.bound 1),
      (Scalar.cmpi .ne (Scalar.extui (Scalar.cmpi .eq (BitVec.ofNat 32 j.val) 146#32)) 0#32) = 1#1 ↔ j.val = 146 := by
    decide +kernel
  exact (key (grid0.coords t 1)).trans (by rw [coordsJ t])

variable (a0 : (pcfg0 (F := F)).Adm)

theorem idleAt0_3 (t : Fin (cfg0 a0).N) (h : ¬condLast (grid0.coords t)) :
    (cfg0 a0).idle 3 ((cfg0 a0).grid.coords t) = true := by
  have h' : ¬k0_cond3 (grid0.coords t) = 1#1 := h
  show (!(k0_cond3 (grid0.coords t) == 1#1)) = true
  rw [beq_eq_false_iff_ne.mpr h']; rfl

theorem liveAt0_3 (t : Fin (cfg0 a0).N) (h : condLast (grid0.coords t)) :
    (cfg0 a0).idle 3 ((cfg0 a0).grid.coords t) = false := by
  have h' : k0_cond3 (grid0.coords t) = 1#1 := h
  show (!(k0_cond3 (grid0.coords t) == 1#1)) = false
  rw [beq_iff_eq.mpr h']; rfl

/-- Off the last column t + 1 is a point of the grid and has the row coordinate of t. -/
theorem noFlush0_3 (t : Fin (cfg0 a0).N) (h : ¬t.val % 147 = 146) : ((cfg0 a0).win 3).flush t = false := by
  have hN : t.val < 43071 := lt_of_lt_of_eq t.isLt gridN
  cases hf : ((cfg0 a0).win 3).flush t with
  | false => rfl
  | true =>
    exfalso
    rcases (((cfg0 a0).win 3).flush_out rfl t).mp hf with e | ⟨h1, hne⟩
    · have e' : t.val + 1 = 43071 := e.trans gridN
      omega
    · refine hne ?_
      have hI : grid0.coords ⟨t.val + 1, h1⟩ 0 = grid0.coords t 0 :=
        Fin.ext ((coordsI _).trans (Eq.trans (by show (t.val + 1) / 147 = t.val / 147; omega) (coordsI _).symm))
      show cc0_transform_3 (grid0.coords ⟨t.val + 1, h1⟩) = cc0_transform_3 (grid0.coords t)
      unfold cc0_transform_3
      rw [hI]

theorem prefHeld_split (c : Dev nD) (V : pre0.Contents (Elt F)) :
    (Pipeline.prefHeld (Ix := Unit) (Name := ℕ) (U := UR sig nD τ) (Lvl := ℕ) pre0 c (fun _ => fullShare) V : sProp 𝕄)
      = iprop(tbPt c tbLo (V 0) ∗ tbPt c tbHi (V 1)) := by
  unfold Pipeline.prefHeld
  exact bigSep_univ_eq_bigSepL [(0 : Fin 2), (1 : Fin 2)] (by decide) (by decide) _

abbrev ms0_0 (t : Fin (cfg0 a0).N) : Memref sig .tc .vmem S4096 .i32 := spec0_0.stage ((cfg0 a0).slots t 0)
abbrev hs0_0 (t : Fin (cfg0 a0).N) : (ms0_0 a0 t).IsWhole := (launch0 (F := F)).stage_whole 0 ((cfg0 a0).slots t 0)
abbrev ms0_1 (t : Fin (cfg0 a0).N) : Memref sig .tc .vmem S4096 .f32 := spec0_1.stage ((cfg0 a0).slots t 1)
abbrev hs0_1 (t : Fin (cfg0 a0).N) : (ms0_1 a0 t).IsWhole := (launch0 (F := F)).stage_whole 1 ((cfg0 a0).slots t 1)
abbrev ms0_2 (t : Fin (cfg0 a0).N) : Memref sig .tc .vmem S64x1024 .bf16 := spec0_2.stage ((cfg0 a0).slots t 2)
abbrev hs0_2 (t : Fin (cfg0 a0).N) : (ms0_2 a0 t).IsWhole := (launch0 (F := F)).stage_whole 2 ((cfg0 a0).slots t 2)
abbrev ms0_3 (t : Fin (cfg0 a0).N) : Memref sig .tc .vmem S64x4096 .f32 := spec0_3.stage ((cfg0 a0).slots t 3)
abbrev hs0_3 (t : Fin (cfg0 a0).N) : (ms0_3 a0 t).IsWhole := (launch0 (F := F)).stage_whole 3 ((cfg0 a0).slots t 3)
abbrev scM0 : Memref sig .tc .vmem S64x4096 .f32 := Memref.whole cc0_scratch0

abbrev bodyHere (t : Fin (cfg0 a0).N) : Prog (TpuEff nD τ sig (Elt F) Λ₀ .tc) PUnit :=
  cc0__gather_kernel_T (grid0.coords t) tbLo (Memref.isWhole_whole _) tbHi (Memref.isWhole_whole _)
    (ms0_0 a0 t) (hs0_0 a0 t) (ms0_1 a0 t) (hs0_1 a0 t) (ms0_2 a0 t) (hs0_2 a0 t) (ms0_3 a0 t) (hs0_3 a0 t)
    scM0 (Memref.isWhole_whole _)

end Cert.KernelIdeal.Hand0

end
-- ==== Proof.KiGatherDat.lean ====
import proofs.«426118_j38259568672975_2_alg».proof.Proof.KiGatherRuns

set_option maxRecDepth 16384

noncomputable section

namespace Cert.KernelIdeal.Hand0

open Cert.KernelIdeal.Gen Cert.KernelIdeal.GatherBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (a0 : (pcfg0 (F := F)).Adm)

abbrev VW (c : Dev nD) (b : Ref sig .tc) : Buf (Elt F) ((c : Thread nD τ).loc b) := W c (Proc.devRef .tc b)

def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (VW W c (Pipeline.arrRef spec0 w))

abbrev wordLo (c : Dev nD) (t : Fin (cfg0 a0).N) : Elt F .i32 := wordAt c (grid0.coords t) tbLo (a0.1 0)
abbrev wordHi (c : Dev nD) (t : Fin (cfg0 a0).N) : Elt F .i32 := wordAt c (grid0.coords t) tbHi (a0.1 1)

abbrev bracketed (c : Dev nD) (t : Fin (cfg0 a0).N) : Prop := condIn (grid0.coords t) (wordLo a0 c t) (wordHi a0 c t)

def accStep (c : Dev nD) (t : Fin (cfg0 a0).N) (z : Vec F S64x4096 .f32) : Vec F S64x4096 .f32 :=
  if bracketed a0 c t then k0_pay2 (grid0.coords t) (iblk0 W a0 c 0 t) (iblk0 W a0 c 1 t) (iblk0 W a0 c 2 t) z else z

def accAt (c : Dev nD) : (n : ℕ) → n < (cfg0 a0).N → Vec F S64x4096 .f32
  | 0, hn => accStep W a0 c ⟨0, hn⟩ (k0_pay1 (F := F))
  | n + 1, hn =>
    if (n + 1) % 147 = 0 then accStep W a0 c ⟨n + 1, hn⟩ (k0_pay1 (F := F))
    else accStep W a0 c ⟨n + 1, hn⟩ (accAt c n (Nat.lt_of_succ_lt hn))

def outsAt0 (c : Dev nD) (n : ℕ) (hn : n < (cfg0 a0).N) : Vec F S64x4096 .f32 × Vec F S64x4096 .f32 :=
  (accAt W a0 c n hn, accAt W a0 c n hn)

theorem outsAt0_fst (c : Dev nD) (n : ℕ) (hn : n < (cfg0 a0).N) : (outsAt0 W a0 c n hn).1 = accAt W a0 c n hn := rfl

theorem accAt_first (c : Dev nD) (t : Fin (cfg0 a0).N) (h0 : t.val % 147 = 0) :
    accAt W a0 c t.val t.isLt = accStep W a0 c t (k0_pay1 (F := F)) := by
  obtain ⟨n, hn⟩ := t
  cases n with
  | zero => rfl
  | succ n => exact if_pos h0

theorem accAt_next (c : Dev nD) (t : Fin (cfg0 a0).N) (h0 : ¬t.val % 147 = 0) :
    accAt W a0 c t.val t.isLt
      = accStep W a0 c t (accAt W a0 c (t.val - 1) (Nat.lt_of_le_of_lt (Nat.sub_le _ _) t.isLt)) := by
  obtain ⟨n, hn⟩ := t
  cases n with
  | zero => exact absurd (Nat.zero_mod _) h0
  | succ n => exact if_neg h0

/-- The accumulation is the body's effect on what the point before left; on a first column that is overwritten, so there z is free. -/
theorem accAt_eq (c : Dev nD) (t : Fin (cfg0 a0).N) (z : Vec F S64x4096 .f32)
    (hz : t.val ≠ 0 → z = accAt W a0 c (t.val - 1) (Nat.lt_of_le_of_lt (Nat.sub_le _ _) t.isLt)) :
    accAt W a0 c t.val t.isLt
      = accAfter c (grid0.coords t) (iblk0 W a0 c 0 t) (iblk0 W a0 c 1 t) (iblk0 W a0 c 2 t) (a0.1 0) (a0.1 1) z := by
  unfold accAfter
  by_cases h0 : t.val % 147 = 0
  · rw [accAt_first W a0 c t h0, if_pos ((hcond0_0 t).mpr h0)]; rfl
  · rw [accAt_next W a0 c t h0, if_neg (mt (hcond0_0 t).mp h0), hz fun h => h0 (by omega)]; rfl

abbrev restBut (c : Dev nD) : sProp 𝕄 :=
  Pipeline.scopedRestBut (Ix := Unit) (Name := ℕ) (U := UR sig nD τ) (Lvl := ℕ) (Val := Elt F) spec0 c [cc0_scratch0]

theorem PhiA_split (c : Dev nD) :
    (Pipeline.ΦA spec0 c : sProp 𝕄)
      = iprop(iprop((∃ d, owns (c : Thread nD τ) scM0 fullShare d) ∗ restBut c) ∗ (∃ r, prngReg c r)) := by
  unfold Pipeline.ΦA; rw [scopedRest0_split]; simp only [scM0, owns_whole]; try rfl

def PhiS0 (c : Dev nD) : (n : ℕ) → n ≤ (cfg0 a0).N → sProp 𝕄
  | 0, _ => iprop(Pipeline.ΦA spec0 c ∗ Pipeline.prefHeld (Ix := Unit) (Name := ℕ) (U := UR sig nD τ) (Lvl := ℕ) pre0 c (fun _ => fullShare) a0.1)
  | n + 1, hn => iprop(owns (c : Thread nD τ) scM0 fullShare ((outsAt0 W a0 c n hn).2) ∗ restBut c ∗ (∃ r, prngReg c r)
      ∗ tbPt c tbLo (a0.1 0) ∗ tbPt c tbHi (a0.1 1))

/-- Before any position the invariant holds the accumulator, at what the point before left if there is one, and the rest. -/
theorem PhiS0_open (c : Dev nD) (n : ℕ) (h : n ≤ (cfg0 a0).N) :
    PhiS0 W a0 c n h ⊢ iprop(∃ z, ⌜∀ hz : n ≠ 0, z = accAt W a0 c (n - 1) (Nat.lt_of_lt_of_le (Nat.sub_one_lt hz) h)⌝
      ∗ owns (c : Thread nD τ) scM0 fullShare z ∗ restBut c ∗ (∃ r, prngReg c r) ∗ tbPt c tbLo (a0.1 0) ∗ tbPt c tbHi (a0.1 1)) := by
  cases n with
  | zero =>
    rw [show PhiS0 W a0 c 0 h = iprop(Pipeline.ΦA spec0 c ∗ Pipeline.prefHeld (Ix := Unit) (Name := ℕ) (U := UR sig nD τ) (Lvl := ℕ) pre0 c (fun _ => fullShare) a0.1) from rfl, PhiA_split, prefHeld_split]
    iintro ⟨⟨⟨⟨%z, HS⟩, Hr⟩, Hg⟩, HT0, HT1⟩
    iexists z; isplitr; · ipureintro; exact fun hz => absurd rfl hz
    isplitl [HS]; · iexact HS
    isplitl [Hr]; · iexact Hr
    isplitl [Hg]; · iexact Hg
    isplitl [HT0]; · iexact HT0
    iexact HT1
  | succ n =>
    rw [show PhiS0 W a0 c (n + 1) h = iprop(owns (c : Thread nD τ) scM0 fullShare (accAt W a0 c n h) ∗ restBut c ∗ (∃ r, prngReg c r) ∗ tbPt c tbLo (a0.1 0) ∗ tbPt c tbHi (a0.1 1)) from rfl]
    iintro H
    iexists _; isplitr; swap; · iexact H
    ipureintro; exact fun _ => rfl

def dat0 (c : Dev nD) : Dat τ (Elt F) Unit ℕ (UR sig nD τ) ℕ (cfg0 a0) c where
  A w := VW W c (Pipeline.arrRef spec0 w)
  after w t := match w with
    | ⟨0, _⟩ => iblk0 W a0 c 0 t
    | ⟨1, _⟩ => iblk0 W a0 c 1 t
    | ⟨2, _⟩ => iblk0 W a0 c 2 t
    | ⟨3, _⟩ => (outsAt0 W a0 c t.val t.isLt).1
  Φ t := PhiS0 W a0 c t.val (Nat.le_of_lt_succ t.isLt)
  q _ := fullShare
  owed _ := 0

theorem dat0_A (c : Dev nD) : ∀ w, (dat0 W a0 c).A w = W c (Proc.devRef .tc (Pipeline.arrRef spec0 w)) := by
  intro w; dsimp only [dat0]

theorem dat0_q (c : Dev nD) : ∀ w, (dat0 W a0 c).q w = fullShare := fun _ => rfl
theorem dat0_owed (c : Dev nD) : ∀ t, (dat0 W a0 c).owed t = 0 := fun _ => rfl
theorem dat0_recorded (c : Dev nD) : ∀ t, (dat0 W a0 c).recorded t = Set.univ := fun _ => rfl

theorem after0_3 (c : Dev nD) (t : Fin (cfg0 a0).N) : (dat0 W a0 c).after 3 t = (outsAt0 W a0 c t.val t.isLt).1 := by dsimp only [dat0]; rfl

theorem after0_0 (c : Dev nD) (t : Fin (cfg0 a0).N) : (dat0 W a0 c).after 0 t = iblk0 W a0 c 0 t := by dsimp only [dat0]; rfl
theorem after0_1 (c : Dev nD) (t : Fin (cfg0 a0).N) : (dat0 W a0 c).after 1 t = iblk0 W a0 c 1 t := by dsimp only [dat0]; rfl
theorem after0_2 (c : Dev nD) (t : Fin (cfg0 a0).N) : (dat0 W a0 c).after 2 t = iblk0 W a0 c 2 t := by dsimp only [dat0]; rfl

theorem before0_0 (c : Dev nD) (t : Fin (cfg0 a0).N) (d) : (dat0 W a0 c).before 0 t d = iblk0 W a0 c 0 t :=
  ((dat0 W a0 c).before_in_eq_fetched 0 rfl (fun _ => rfl) (fun _ _ _ => rfl)
    (fun t => by rw [after0_0]; unfold Dat.blockOf iblk0; rw [dat0_A]; try rfl) t d).trans
    (by unfold Dat.fetched Dat.blockOf iblk0; rw [dat0_A]; try rfl)
theorem before0_1 (c : Dev nD) (t : Fin (cfg0 a0).N) (d) : (dat0 W a0 c).before 1 t d = iblk0 W a0 c 1 t :=
  ((dat0 W a0 c).before_in_eq_fetched 1 rfl (fun _ => rfl) (fun _ _ _ => rfl)
    (fun t => by rw [after0_1]; unfold Dat.blockOf iblk0; rw [dat0_A]; try rfl) t d).trans
    (by unfold Dat.fetched Dat.blockOf iblk0; rw [dat0_A]; try rfl)
theorem before0_2 (c : Dev nD) (t : Fin (cfg0 a0).N) (d) : (dat0 W a0 c).before 2 t d = iblk0 W a0 c 2 t :=
  ((dat0 W a0 c).before_in_eq_fetched 2 rfl (fun _ => rfl) (fun _ _ _ => rfl)
    (fun t => by rw [after0_2]; unfold Dat.blockOf iblk0; rw [dat0_A]; try rfl) t d).trans
    (by unfold Dat.fetched Dat.blockOf iblk0; rw [dat0_A]; try rfl)

theorem leavesCol (c : Dev nD) (t : Fin (cfg0 a0).N) :
    (dat0 W a0 c).leavesExact 0 t = owns (c : Thread nD τ) (ms0_0 a0 t) fullShare (iblk0 W a0 c 0 t) := by
  rw [← after0_0]; rfl
theorem leavesWt (c : Dev nD) (t : Fin (cfg0 a0).N) :
    (dat0 W a0 c).leavesExact 1 t = owns (c : Thread nD τ) (ms0_1 a0 t) fullShare (iblk0 W a0 c 1 t) := by
  rw [← after0_1]; rfl
theorem leavesX (c : Dev nD) (t : Fin (cfg0 a0).N) :
    (dat0 W a0 c).leavesExact 2 t = owns (c : Thread nD τ) (ms0_2 a0 t) fullShare (iblk0 W a0 c 2 t) := by
  rw [← after0_2]; rfl

theorem PhiS0_castSucc (c : Dev nD) (t : Fin (cfg0 a0).N) :
    (dat0 W a0 c).Φ t.castSucc = PhiS0 W a0 c t.val (Nat.le_of_lt t.isLt) := by
  dsimp only [dat0]; simp only [Fin.coe_castSucc]

/-- By cases on the last-column condition. -/
theorem leavesOut (c : Dev nD) (t : Fin (cfg0 a0).N) (d) (x : Vec F S64x4096 .f32) (hx : x = (dat0 W a0 c).before 3 t d) :
    owns (c : Thread nD τ) (ms0_3 a0 t) fullShare (if condLast (grid0.coords t) then accAt W a0 c t.val t.isLt else x)
      ⊢ (dat0 W a0 c).leavesExact 3 t := by
  by_cases hc2 : condLast (grid0.coords t)
  · rw [if_pos hc2, show (dat0 W a0 c).leavesExact 3 t = owns (c : Thread nD τ) (ms0_3 a0 t) fullShare ((dat0 W a0 c).after 3 t) from (by
      unfold Dat.leavesExact; rw [liveAt0_3 a0 t hc2]; rfl), after0_3, outsAt0_fst]
  · rw [if_neg hc2, hx, Dat.leavesExact_idle (dat0 W a0 c) 3 t (idleAt0_3 a0 t hc2) (noFlush0_3 a0 t (mt (hcond0_2 t).mpr hc2))]
    iintro H; iexists d; iexact H

def bodyPre0 (c : Dev nD) (t : Fin (cfg0 a0).N) : sProp 𝕄 :=
  iprop((dat0 W a0 c).Φ t.castSucc ∗ (dat0 W a0 c).owesAt () t.castSucc
    ∗ (∃ d, owns (c : Thread nD τ) (ms0_0 a0 t) fullShare ((dat0 W a0 c).before 0 t d))
    ∗ (∃ d, owns (c : Thread nD τ) (ms0_1 a0 t) fullShare ((dat0 W a0 c).before 1 t d))
    ∗ (∃ d, owns (c : Thread nD τ) (ms0_2 a0 t) fullShare ((dat0 W a0 c).before 2 t d))
    ∗ (∃ d, owns (c : Thread nD τ) (ms0_3 a0 t) fullShare ((dat0 W a0 c).before 3 t d)))

def bodyPost0 (c : Dev nD) (t : Fin (cfg0 a0).N) : sProp 𝕄 :=
  iprop((dat0 W a0 c).Φ t.succ ∗ (dat0 W a0 c).owesAt () t.succ
    ∗ (dat0 W a0 c).leavesExact 0 t ∗ (dat0 W a0 c).leavesExact 1 t
    ∗ (dat0 W a0 c).leavesExact 2 t ∗ (dat0 W a0 c).leavesExact 3 t)

/-- The body at any point: the inputs' buffers hold their blocks, the invariant hands over the accumulator, the run
    leaves it at this point's accumulation and, on the last column, copies it to the output's buffer. -/
theorem sound_body0 (c : Dev nD) (t : Fin (cfg0 a0).N) :
    bodyPre0 W a0 c t ⊢ wp frame (wpE (defs₀ (F := F)) Variants.none c none) Set.univ (bodyHere a0 t) (fun _ => bodyPost0 W a0 c t) := by
  unfold bodyPre0 bodyPost0 bodyHere
  rw [body_eq]
  simp only [before0_0, before0_1, before0_2]
  rw [show (dat0 W a0 c).owesAt () t.succ = (dat0 W a0 c).owesAt () t.castSucc from rfl,
    show (dat0 W a0 c).Φ t.succ = iprop(owns (c : Thread nD τ) scM0 fullShare (accAt W a0 c t.val t.isLt) ∗ restBut c ∗ (∃ r, prngReg c r)
      ∗ tbPt c tbLo (a0.1 0) ∗ tbPt c tbHi (a0.1 1)) from rfl,
    leavesCol, leavesWt, leavesX, PhiS0_castSucc]
  have hAC : condFirst (grid0.coords t) → ¬condLast (grid0.coords t) := fun h h' => by
    have := (hcond0_0 t).mp h; have := (hcond0_2 t).mp h'; omega
  iintro ⟨HΦ, Ho, ⟨%d0, H0⟩, ⟨%d1, H1⟩, ⟨%d2, H2⟩, ⟨%d3, H3⟩⟩
  icases (PhiS0_open W a0 c t.val _) $$ HΦ with ⟨%z, %hz, HS, Hr, Hg, HT0, HT1⟩
  iapply (run c (grid0.coords t) _ (hs0_0 a0 t) _ (hs0_1 a0 t) _ (hs0_2 a0 t) _ (hs0_3 a0 t) _ (Memref.isWhole_whole _)
    (iblk0 W a0 c 0 t) (iblk0 W a0 c 1 t) (iblk0 W a0 c 2 t) (a0.1 0) (a0.1 1) _ z Set.univ _ hAC)
  try unfold heldAt
  isplitl [H0 H1 H2 H3 HS HT0 HT1]
  · isplitl [H0]; · iexact H0
    isplitl [H1]; · iexact H1
    isplitl [H2]; · iexact H2
    isplitl [H3]; · iexact H3
    isplitl [HS]; · iexact HS
    isplitl [HT0]; · iexact HT0
    iexact HT1
  iintro ⟨H0, H1, H2, H3, HS, HT0, HT1⟩
  rw [← accAt_eq W a0 c t z hz]
  isplitl [HS Hr Hg HT0 HT1]
  · isplitl [HS]; · iexact HS
    isplitl [Hr]; · iexact Hr
    isplitl [Hg]; · iexact Hg
    isplitl [HT0]; · iexact HT0
    iexact HT1
  isplitl [Ho]; · iexact Ho
  isplitl [H0]; · iexact H0
  isplitl [H1]; · iexact H1
  isplitl [H2]; · iexact H2
  iapply (leavesOut W a0 c t d3 _ rfl); iexact H3

theorem body_obligation0 (c : Dev nD) :
    BodyObligation (dat0 (F := F) W a0 c) (defs₀ (F := F)) Variants.none () Set.univ := fun t => by
  rw [bigSep_W0, bigSep_W0]
  exact sound_body0 W a0 c t

theorem hΦin0 (c : Dev nD) :
    (iprop(Pipeline.ΦA spec0 c
        ∗ Pipeline.prefHeld (Ix := Unit) (Name := ℕ) (U := UR sig nD τ) (Lvl := ℕ) pre0 c (fun _ => fullShare) a0.1) : sProp 𝕄)
      ⊢ (dat0 W a0 c).Φ 0 := by
  rw [show (dat0 W a0 c).Φ 0 = PhiS0 W a0 c 0 (Nat.zero_le _) from rfl]
  exact Idealize.SL.BI.Entails.refl _

/-- After the last point the accumulator's named contents are forgotten and the two tables are held together again. -/
theorem hΦout0 (c : Dev nD) :
    (dat0 W a0 c).Φ (Fin.last (cfg0 a0).N)
      ⊢ (iprop(Pipeline.ΦA spec0 c
        ∗ Pipeline.prefHeld (Ix := Unit) (Name := ℕ) (U := UR sig nD τ) (Lvl := ℕ) pre0 c (fun _ => fullShare) a0.1) : sProp 𝕄) := by
  rw [show (dat0 W a0 c).Φ (Fin.last (cfg0 a0).N)
      = PhiS0 W a0 c (Fin.last (cfg0 a0).N).val (Nat.le_of_lt_succ (Fin.last (cfg0 a0).N).isLt) from rfl]
  refine (PhiS0_open W a0 c _ _).trans ?_
  rw [PhiA_split, prefHeld_split]
  iintro ⟨%z, -, HS, Hr, Hg, HT0, HT1⟩
  isplitl [HS Hr Hg]
  · isplitl [HS Hr]
    · isplitl [HS]; · iexists z; iexact HS
      iexact Hr
    iexact Hg
  isplitl [HT0]; · iexact HT0
  iexact HT1

end Cert.KernelIdeal.Hand0

end
-- ==== Proof.KiScatterBody.lean ====
import proofs.«426118_j38259568672975_2_alg».proof.Proof.Gen.KernelIdeal.Launch
import proofs.«426118_j38259568672975_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.ScatterBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzA : (![0] : Fin 1 → Nat) = fun _ => 0 := funext (by decide : ∀ a : Fin 1, (![0] : Fin 1 → Nat) a = 0)
theorem hzB : (![0, 0] : Fin 2 → Nat) = fun _ => 0 := funext (by decide : ∀ a : Fin 2, (![0, 0] : Fin 2 → Nat) a = 0)

/-- A store through the whole shape covers every element, so made last it alone decides what is read. -/
theorem read_writes_whole_last {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

abbrev tblA : Memref sig .tc .smem S293 .i32 := Memref.whole main_v36
abbrev tblB : Memref sig .tc .smem S293 .i32 := Memref.whole main_v39

abbrev wordA (i : grid1.Coords) (T : S293.Idx → Elt F .i32) : Elt F .i32 :=
  View.readAt (Elt F) (tblA).view (Rect.unit (s := S293) (k1_off1 i) S1.size (k1_off1_inb i)).toLoadRect T (Shape.Idx.first (numel1_S1.symm ▸ Nat.one_pos))
abbrev wordB (i : grid1.Coords) (T : S293.Idx → Elt F .i32) : Elt F .i32 :=
  View.readAt (Elt F) (tblB).view (Rect.unit (s := S293) (k1_off1 i) S1.size (k1_off1_inb i)).toLoadRect T (Shape.Idx.first (numel1_S1.symm ▸ Nat.one_pos))

abbrev condFirst (i : grid1.Coords) : Prop :=
  (Scalar.cmpi .ne (Scalar.extui (Scalar.cmpi .eq (BitVec.ofNat 32 (i 1).val) 0#32)) 0#32) = 1#1
abbrev condIn (i : grid1.Coords) (T1 T2 : S293.Idx → Elt F .i32) : Prop :=
  (Scalar.cmpi .ne (Scalar.extui (Scalar.andi (Scalar.cmpi .sge (BitVec.ofNat 32 (i 0).val) (wordA i T1)) (Scalar.cmpi .sle (BitVec.ofNat 32 (i 0).val) (wordB i T2)))) 0#32) = 1#1
abbrev condLast (i : grid1.Coords) : Prop := k1_cond3 i = 1#1

/-- A coordinate below 293 fits a 32-bit word, so the word comparison with a constant below 293 is the comparison of numbers. -/
theorem edge_eq_iff (i : grid1.Coords) (k : Nat) (hk : k < 293) :
    Scalar.cmpi .ne (Scalar.extui (Scalar.cmpi .eq (BitVec.ofNat 32 (i 1).val) (BitVec.ofNat 32 k))) 0#32 = 1#1 ↔ (i 1).val = k := by
  have hi : (i 1).val < 293 := (i 1).isLt
  rw [Scalar.guard_iff, Scalar.cmpi, IntOp.cmpi_eq, ← BitVec.toNat_inj, BitVec.toNat_ofNat, BitVec.toNat_ofNat,
    Nat.mod_eq_of_lt (by omega), Nat.mod_eq_of_lt (by omega)]

/-- The scatter body, the same function in every region that runs it. -/
abbrev body := @cc1__scatter_kernel_T F _

section Run

variable (c : Dev nD) (i : grid1.Coords)
    (arg4 : Memref sig .tc .vmem S4096 .i32) (harg4 : arg4.IsWhole) (arg5 : Memref sig .tc .vmem S64x4096 .f32) (harg5 : arg5.IsWhole)
    (arg6 : Memref sig .tc .vmem S64x1024 .f32) (harg6 : arg6.IsWhole) (arg7 : Memref sig .tc .vmem S64x1024 .f32) (harg7 : arg7.IsWhole)
    (T1 T2 : S293.Idx → Elt F .i32) (x0 : Vec F S4096 .i32) (x1 : Vec F S64x4096 .f32) (xs xi2 : Vec F S64x1024 .f32)

def step : Vec F S64x1024 .f32 :=
  if condIn i T1 T2 then k1_pay2 i x0 x1 (if condFirst i then k1_pay1 else xs) else (if condFirst i then k1_pay1 else xs)

/-- At edge block 0 the scratch is zeroed first, so what it held does not matter. -/
theorem step_first (hc : condFirst i) (xs' : Vec F S64x1024 .f32) : step i T1 T2 x0 x1 xs = step i T1 T2 x0 x1 xs' := by
  unfold step; rw [if_pos hc, if_pos hc]

set_option maxHeartbeats 1000000 in
/-- The three conditions decide every branch of the body; on each path the last whole-block store into a buffer is what it then holds. -/
theorem run (E : Set ℕ) (K : PUnit → sProp 𝕄) :
    iprop(owns (c : Thread nD τ) arg4 fullShare x0 ∗ owns (c : Thread nD τ) arg5 fullShare x1 ∗ owns (c : Thread nD τ) arg6 fullShare xi2
        ∗ owns (c : Thread nD τ) arg7 fullShare xs
        ∗ (tblA.view.loc (c : Thread nD τ) ↦{fullShare} T1) ∗ (tblB.view.loc (c : Thread nD τ) ↦{fullShare} T2)
        ∗ (iprop(owns (c : Thread nD τ) arg4 fullShare x0 ∗ owns (c : Thread nD τ) arg5 fullShare x1
            ∗ owns (c : Thread nD τ) arg6 fullShare (if condLast i then step i T1 T2 x0 x1 xs else xi2)
            ∗ owns (c : Thread nD τ) arg7 fullShare (step i T1 T2 x0 x1 xs)
            ∗ (tblA.view.loc (c : Thread nD τ) ↦{fullShare} T1) ∗ (tblB.view.loc (c : Thread nD τ) ↦{fullShare} T2)) -∗ K ⟨⟩))
      ⊢ wp frame (wpE (defs₀ (F := F)) Variants.none c none) E
          (body i tblA (Memref.isWhole_whole _) tblB (Memref.isWhole_whole _) arg4 harg4 arg5 harg5 arg6 harg6 arg7 harg7) K := by
  unfold step owns body
  rw [cc1__scatter_kernel_T_eq_skeleton]; unfold cc1__scatter_kernel_T_skel
  by_cases hc0 : condFirst i <;> by_cases hw : condIn i T1 T2 <;> by_cases hc2 : condLast i <;>
    try exact absurd (((edge_eq_iff i 0 (by omega)).mp hc0).symm.trans ((edge_eq_iff i 292 (by omega)).mp hc2)) (by omega)
  all_goals
    first | rw [if_pos hc2] | rw [if_neg hc2]
    first | rw [if_pos hw] | rw [if_neg hw]
    first | rw [if_pos hc0] | rw [if_neg hc0]
    iintro ⟨⟨%f0, %hf0, H0⟩, ⟨%f1, %hf1, H1⟩, ⟨%f2, %hf2, H2⟩, ⟨%fs, %hfs, HS⟩, HTA, HTB, Hk⟩
    obtain rfl := harg4.eq_unread hf0; obtain rfl := harg5.eq_unread hf1; obtain rfl := harg6.eq_unread hf2; obtain rfl := harg7.eq_unread hfs
    sl_exec (disch := first | exact hc0 | exact hw | exact hc2)
    sl_step
    iapply Hk
    iframe HTA HTB
    isplitl [H0]
    · iexists _; isplitr; · ipureintro; exact harg4.read_unread _
      iexact H0
    isplitl [H1]
    · iexists _; isplitr; · ipureintro; exact harg5.read_unread _
      iexact H1
    isplitl [H2] <;> (iexists _; isplitr; swap; · iassumption)
    all_goals
      ipureintro
      first
      | with_reducible exact harg6.read_unread _
      | with_reducible exact harg7.read_unread _
      | sl_unfold_run_names
        rw [read_writes_whole_last (S := S64x1024) _ _ hzB]
        try simp only [View.readAt_eq_ld, View.readCov_unit_zero (S := S64x1024) _ hzB, harg4.read_unread, harg5.read_unread, harg7.read_unread, View.ld_unit_zero (S := S4096) hzA, View.ld_unit_zero (S := S64x4096) hzB, View.ld_unit_zero (S := S64x1024) hzB]

end Run

end Cert.KernelIdeal.ScatterBody

end
-- ==== Proof.KiScatterRuns.lean ====
import proofs.«426118_j38259568672975_2_alg».proof.Proof.KiScatterBody

set_option maxRecDepth 16384

noncomputable section

namespace Cert.KernelIdeal.Hand1

open Cert.KernelIdeal.Gen Cert.KernelIdeal.ScatterBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev scM1_0 : Memref sig .tc .vmem S64x1024 .f32 := Memref.whole cc1_scratch0

theorem body_eq : @cc1__scatter_kernel_T F _ = @ScatterBody.body F _ := rfl

theorem hN : grid1.N = 43071 := by decide

theorem coords_node (t : Fin grid1.N) : ((grid1.coords t) 0).val = t.val / 293 := by
  have ht : t.val < 43071 := lt_of_lt_of_eq t.isLt hN
  show t.val / grid1.stride 0 % 147 = _
  rw [show grid1.stride 0 = 293 by decide]; exact Nat.mod_eq_of_lt (by omega)
theorem coords_edge (t : Fin grid1.N) : ((grid1.coords t) 1).val = t.val % 293 := by
  show t.val / grid1.stride 1 % 293 = _
  rw [show grid1.stride 1 = 1 by decide, Nat.div_one]

theorem hcond1_0 (t : Fin grid1.N) : condFirst (grid1.coords t) ↔ t.val % 293 = 0 := by
  rw [← coords_edge]; exact edge_eq_iff _ 0 (by omega)
theorem hcond1_2 (t : Fin grid1.N) : condLast (grid1.coords t) ↔ t.val % 293 = 292 := by
  rw [← coords_edge]; exact edge_eq_iff _ 292 (by omega)

end Cert.KernelIdeal.Hand1

end
-- ==== Proof.KiScatterDat.lean ====
import proofs.«426118_j38259568672975_2_alg».proof.Proof.KiScatterRuns

set_option maxRecDepth 16384

noncomputable section

namespace Cert.KernelIdeal.Hand1

open Cert.KernelIdeal.Gen Cert.KernelIdeal.ScatterBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F)) (a1 : (pcfg1 (F := F)).Adm)

def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (W c (Proc.devRef .tc (Pipeline.arrRef spec1 w)))

abbrev tblFirst : S293.Idx → Elt F .i32 := a1.1 0
abbrev tblLast : S293.Idx → Elt F .i32 := a1.1 1

def outsAt1 (c : Dev nD) : (n : ℕ) → n < (cfg1 a1).N → Vec F S64x1024 .f32 × Vec F S64x1024 .f32
  | 0, hn =>
    (step (grid1.coords ⟨0, hn⟩) (tblFirst a1) (tblLast a1) (iblk1 W a1 c 0 ⟨0, hn⟩) (iblk1 W a1 c 1 ⟨0, hn⟩) k1_pay1,
     step (grid1.coords ⟨0, hn⟩) (tblFirst a1) (tblLast a1) (iblk1 W a1 c 0 ⟨0, hn⟩) (iblk1 W a1 c 1 ⟨0, hn⟩) k1_pay1)
  | n + 1, hn =>
    (step (grid1.coords ⟨n + 1, hn⟩) (tblFirst a1) (tblLast a1) (iblk1 W a1 c 0 ⟨n + 1, hn⟩) (iblk1 W a1 c 1 ⟨n + 1, hn⟩) (outsAt1 c n (Nat.lt_of_succ_lt hn)).2,
     step (grid1.coords ⟨n + 1, hn⟩) (tblFirst a1) (tblLast a1) (iblk1 W a1 c 0 ⟨n + 1, hn⟩) (iblk1 W a1 c 1 ⟨n + 1, hn⟩) (outsAt1 c n (Nat.lt_of_succ_lt hn)).2)

variable (c : Dev nD) (t : Fin (cfg1 a1).N)

theorem outsAt1_fst (n : ℕ) (hn : n < (cfg1 a1).N) : (outsAt1 W a1 c n hn).1 = (outsAt1 W a1 c n hn).2 := by
  cases n with
  | zero => rfl
  | succ n => rfl

/-- The recursion read at point t: the step over what the point before left; the first point zeroes, so there over anything. -/
theorem outsAt1_step (xs : Vec F S64x1024 .f32) (h : ∀ hz : t.val ≠ 0, xs = (outsAt1 W a1 c (t.val - 1) (Nat.lt_of_le_of_lt (Nat.sub_le _ _) t.isLt)).2) :
    outsAt1 W a1 c t.val t.isLt = (step (grid1.coords t) (tblFirst a1) (tblLast a1) (iblk1 W a1 c 0 t) (iblk1 W a1 c 1 t) xs, step (grid1.coords t) (tblFirst a1) (tblLast a1) (iblk1 W a1 c 0 t) (iblk1 W a1 c 1 t) xs) := by
  obtain ⟨n, hn⟩ := t
  cases n with
  | zero => exact congrArg (fun s => (s, s)) (step_first _ _ _ _ _ _ ((hcond1_0 ⟨0, hn⟩).mpr rfl) _)
  | succ n => rw [h (Nat.succ_ne_zero n)]; rfl

theorem idleAt1_2 (h : ¬condLast (grid1.coords t)) : (cfg1 a1).idle 2 ((cfg1 a1).grid.coords t) = true := by
  have hb : (k1_cond3 (grid1.coords t) == 1#1) = false := by rw [beq_eq_false_iff_ne]; exact h
  show (!(k1_cond3 (grid1.coords t) == 1#1)) = true
  rw [hb]; rfl
theorem liveAt1_2 (h : condLast (grid1.coords t)) : (cfg1 a1).idle 2 ((cfg1 a1).grid.coords t) = false := by
  show (!(k1_cond3 (grid1.coords t) == 1#1)) = false
  rw [show k1_cond3 (grid1.coords t) = 1#1 from h]; rfl

theorem index_out_congr (i i' : grid1.Coords) (h : (i 0).val = (i' 0).val) : cc1_transform_2 i = cc1_transform_2 i' := by
  show (![(0#32 : BitVec 32).toNat, (BitVec.ofNat 32 (i 0).val).toNat] : Fin 2 → Nat) = ![(0#32 : BitVec 32).toNat, (BitVec.ofNat 32 (i' 0).val).toNat]
  rw [h]

theorem noFlush1_2 (h : ¬t.val % 293 = 292) : ((cfg1 a1).win 2).flush t = false := by
  have ht : t.val < 43071 := lt_of_lt_of_eq t.isLt (show (cfg1 a1).N = 43071 from hN)
  rw [← Bool.not_eq_true, ((cfg1 a1).win 2).flush_out rfl t]
  rintro (hl | ⟨hlt, hne⟩)
  · have hl' : t.val + 1 = 43071 := hl.trans (show (cfg1 a1).N = 43071 from hN)
    omega
  · apply hne
    show cc1_transform_2 (grid1.coords ⟨t.val + 1, hlt⟩) = cc1_transform_2 (grid1.coords t)
    apply index_out_congr
    rw [coords_node, coords_node]
    show (t.val + 1) / 293 = t.val / 293
    omega

theorem PhiA_eq :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

theorem prefHeld_pair (v : pre1.Contents (Elt F)) :
    (Pipeline.prefHeld (Ix := Unit) (Name := ℕ) (U := UR sig nD τ) (Lvl := ℕ) pre1 c (fun _ => fullShare) v : sProp 𝕄)
      = iprop((tblA.view.loc (c : Thread nD τ) ↦{fullShare} (v 0 : S293.Idx → Elt F .i32)) ∗ (tblB.view.loc (c : Thread nD τ) ↦{fullShare} (v 1 : S293.Idx → Elt F .i32))) := by
  unfold Pipeline.prefHeld
  exact (bigSep_univ_eq_bigSepL [(0 : Fin 2), (1 : Fin 2)] (by decide) (by decide) _).trans rfl

/-- Before position n the scratch holds what the point before left, before the first point anything; the rest rides along. -/
def PhiS1 (n : ℕ) (hn : n ≤ (cfg1 a1).N) : sProp 𝕄 :=
  iprop(iprop(iprop((∃ d, ⌜∀ hz : n ≠ 0, d = (outsAt1 W a1 c (n - 1) (by omega)).2⌝ ∗ owns (c : Thread nD τ) scM1_0 fullShare d)
      ∗ Pipeline.scopedRestBut spec1 c [cc1_scratch0]) ∗ (∃ r, prngReg c r)) ∗ Pipeline.prefHeld pre1 c (fun _ => fullShare) a1.1)

def dat1 : Dat τ (Elt F) Unit ℕ (UR sig nD τ) ℕ (cfg1 a1) c where
  A w := W c (Proc.devRef .tc (Pipeline.arrRef spec1 w))
  after w t := match w with
    | ⟨0, _⟩ => iblk1 W a1 c 0 t
    | ⟨1, _⟩ => iblk1 W a1 c 1 t
    | ⟨2, _⟩ => (outsAt1 W a1 c t.val t.isLt).1
  Φ t := PhiS1 W a1 c t.val (Nat.le_of_lt_succ t.isLt)
  q _ := fullShare
  owed _ := 0

theorem dat1_A (w : Fin (cfg1 a1).W) : (dat1 W a1 c).A w = W c (Proc.devRef .tc (Pipeline.arrRef spec1 w)) := by
  dsimp only [dat1]
theorem dat1_q (w : Fin (cfg1 a1).W) : (dat1 W a1 c).q w = fullShare := rfl
theorem dat1_owed (t : Fin ((cfg1 a1).N + 1)) : (dat1 W a1 c).owed t = 0 := rfl
theorem dat1_recorded (t : Fin ((cfg1 a1).N + 1)) : (dat1 W a1 c).recorded t = Set.univ := rfl

theorem PhiS1_castSucc :
    (dat1 W a1 c).Φ t.castSucc = PhiS1 W a1 c t.val (Nat.le_of_lt t.isLt) := by
  dsimp only [dat1]; simp only [Fin.coe_castSucc]

theorem after1_0 : (dat1 W a1 c).after 0 t = iblk1 W a1 c 0 t := by dsimp only [dat1]; rfl
theorem after1_1 : (dat1 W a1 c).after 1 t = iblk1 W a1 c 1 t := by dsimp only [dat1]; rfl
theorem after1_2 : (dat1 W a1 c).after 2 t = (outsAt1 W a1 c t.val t.isLt).1 := by dsimp only [dat1]; rfl

theorem before1_in (w : Fin (cfg1 a1).W) (hw : w = 0 ∨ w = 1) (d) :
    (dat1 W a1 c).before w t d = iblk1 W a1 c w t := by
  obtain rfl | rfl := hw <;>
  exact ((dat1 W a1 c).before_in_eq_fetched _ rfl (fun _ => rfl) (fun _ _ _ => rfl)
      (fun t => by (first | rw [after1_0] | rw [after1_1]); unfold Dat.blockOf iblk1; rw [dat1_A]; try rfl) t d).trans
    (by unfold Dat.fetched Dat.blockOf iblk1; rw [dat1_A]; try rfl)

abbrev ms1_0 : Memref sig .tc .vmem S4096 .i32 := ((cfg1 a1).win 0).stage ((cfg1 a1).slots t 0)
abbrev hs1_0 : (ms1_0 a1 t).IsWhole := (launch1 (F := F)).stage_whole 0 ((cfg1 a1).slots t 0)
abbrev ms1_1 : Memref sig .tc .vmem S64x4096 .f32 := ((cfg1 a1).win 1).stage ((cfg1 a1).slots t 1)
abbrev hs1_1 : (ms1_1 a1 t).IsWhole := (launch1 (F := F)).stage_whole 1 ((cfg1 a1).slots t 1)
abbrev ms1_2 : Memref sig .tc .vmem S64x1024 .f32 := ((cfg1 a1).win 2).stage ((cfg1 a1).slots t 2)
abbrev hs1_2 : (ms1_2 a1 t).IsWhole := (launch1 (F := F)).stage_whole 2 ((cfg1 a1).slots t 2)

abbrev bodyAt1 : Prog (TpuEff nD τ sig (Elt F) Λ₀ .tc) PUnit :=
  cc1__scatter_kernel_T (grid1.coords t) tblA (Memref.isWhole_whole _) tblB (Memref.isWhole_whole _)
    (ms1_0 a1 t) (hs1_0 a1 t) (ms1_1 a1 t) (hs1_1 a1 t) (ms1_2 a1 t) (hs1_2 a1 t) scM1_0 (Memref.isWhole_whole _)

def bodyPre1 : sProp 𝕄 :=
  iprop((dat1 W a1 c).Φ t.castSucc ∗ (dat1 W a1 c).owesAt () t.castSucc
    ∗ (∃ d, owns (c : Thread nD τ) (ms1_0 a1 t) fullShare ((dat1 W a1 c).before 0 t d))
    ∗ (∃ d, owns (c : Thread nD τ) (ms1_1 a1 t) fullShare ((dat1 W a1 c).before 1 t d))
    ∗ (∃ d, owns (c : Thread nD τ) (ms1_2 a1 t) fullShare ((dat1 W a1 c).before 2 t d)))

def bodyPost1 : sProp 𝕄 :=
  iprop((dat1 W a1 c).Φ t.succ ∗ (dat1 W a1 c).owesAt () t.succ
    ∗ (dat1 W a1 c).leavesExact 0 t
    ∗ (dat1 W a1 c).leavesExact 1 t
    ∗ (dat1 W a1 c).leavesExact 2 t)

/-- At a point of edge block 292 the output window ends at the step's contents, elsewhere at what it began with. -/
theorem after1_leaves (d) (y z : Vec F S64x1024 .f32) (hy : (outsAt1 W a1 c t.val t.isLt).1 = y)
    (hz : (dat1 W a1 c).before 2 t d = z) :
    owns (c : Thread nD τ) (ms1_2 a1 t) fullShare (if condLast (grid1.coords t) then y else z) ⊢ (dat1 W a1 c).leavesExact 2 t := by
  by_cases h : condLast (grid1.coords t)
  · rw [if_pos h, show (dat1 W a1 c).leavesExact 2 t = owns (c : Thread nD τ) (ms1_2 a1 t) fullShare ((dat1 W a1 c).after 2 t) from by
      unfold Dat.leavesExact; rw [liveAt1_2 a1 t h]; rfl, after1_2, hy]
  · rw [if_neg h, ← hz, Dat.leavesExact_idle (dat1 W a1 c) 2 t (idleAt1_2 a1 t h) (noFlush1_2 a1 t (mt (hcond1_2 t).mpr h))]
    iintro H; iexists d; iexact H

/-- One run of the body serves every point: the invariant hands it the scratch, and the recursion of the contents is the run's own step. -/
theorem sound_body1 :
    bodyPre1 W a1 c t ⊢ wp frame (wpE (defs₀ (F := F)) Variants.none c none) Set.univ (bodyAt1 a1 t) (fun _ => bodyPost1 W a1 c t) := by
  unfold bodyPre1 bodyPost1 bodyAt1
  rw [body_eq]
  simp only [before1_in W a1 c t 0 (.inl rfl), before1_in W a1 c t 1 (.inr rfl)]
  rw [show (dat1 W a1 c).owesAt () t.succ = (dat1 W a1 c).owesAt () t.castSucc from rfl,
    show (dat1 W a1 c).Φ t.succ = PhiS1 W a1 c (t.val + 1) t.isLt from rfl,
    PhiS1_castSucc,
    show (dat1 W a1 c).leavesExact 0 t = owns (c : Thread nD τ) (ms1_0 a1 t) fullShare ((dat1 W a1 c).after 0 t) from rfl, after1_0,
    show (dat1 W a1 c).leavesExact 1 t = owns (c : Thread nD τ) (ms1_1 a1 t) fullShare ((dat1 W a1 c).after 1 t) from rfl, after1_1]
  unfold PhiS1; rw [prefHeld_pair]
  iintro ⟨⟨⟨⟨⟨%d, %hd, HS⟩, HR⟩, Hg⟩, HTA, HTB⟩, Ho, ⟨%d0, H0⟩, ⟨%d1, H1⟩, ⟨%d2, H2⟩⟩
  have hst := outsAt1_step W a1 c t d hd
  iapply (run c (grid1.coords t) _ _ _ _ _ _ _ _ (tblFirst a1) (tblLast a1) (iblk1 W a1 c 0 t) (iblk1 W a1 c 1 t) d ((dat1 W a1 c).before 2 t d2) Set.univ _)
  iframe H0 H1 H2 HS HTA HTB
  iintro ⟨H0, H1, H2, HS, HTA, HTB⟩
  iframe HR Hg HTA HTB Ho H0 H1
  isplitl [HS]
  · iexists _; isplitr
    swap; · iexact HS
    ipureintro; exact fun _ => (congrArg Prod.snd hst).symm
  iapply (after1_leaves W a1 c t d2 _ _ (congrArg Prod.fst hst) rfl)
  iexact H2

theorem body_obligation1 : BodyObligation (dat1 W a1 c) (defs₀ (F := F)) Variants.none () Set.univ := fun t => by
  rw [bigSep_W1, bigSep_W1]
  exact sound_body1 W a1 c t

theorem hΦin1 :
    iprop(Pipeline.ΦA spec1 c ∗ Pipeline.prefHeld pre1 c (fun _ => fullShare) a1.1) ⊢ (dat1 W a1 c).Φ 0 := by
  rw [show (dat1 W a1 c).Φ 0 = PhiS1 W a1 c 0 (Nat.zero_le _) from rfl, PhiA_eq]; unfold PhiS1
  iintro ⟨⟨⟨⟨%d, HS⟩, HR⟩, Hg⟩, HT⟩
  iframe HR Hg HT
  iexists d; isplitr; · ipureintro; exact fun hz => absurd rfl hz
  iexact HS

/-- At the end the scratch's named contents are forgotten. -/
theorem hΦout1 :
    (dat1 W a1 c).Φ (Fin.last (cfg1 a1).N) ⊢ iprop(Pipeline.ΦA spec1 c ∗ Pipeline.prefHeld pre1 c (fun _ => fullShare) a1.1) := by
  rw [show (dat1 W a1 c).Φ (Fin.last (cfg1 a1).N) = PhiS1 W a1 c (Fin.last (cfg1 a1).N).val (Nat.le_of_lt_succ (Fin.last (cfg1 a1).N).isLt) from rfl, PhiA_eq]
  unfold PhiS1
  iintro ⟨⟨⟨⟨%d, -, HS⟩, HR⟩, Hg⟩, HT⟩
  iframe HR Hg HT
  iexists d; iexact HS

end Cert.KernelIdeal.Hand1

end
-- ==== Proof.KiFamily.lean ====
import proofs.«426118_j38259568672975_2_alg».proof.Proof.Gen.KernelIdeal.Regions
import proofs.«426118_j38259568672975_2_alg».proof.Proof.LibRegionPf
import proofs.«426118_j38259568672975_2_alg».proof.Proof.KiFrame
import proofs.«426118_j38259568672975_2_alg».proof.Proof.KiRunValues
import proofs.«426118_j38259568672975_2_alg».proof.Proof.KiGatherDat
import proofs.«426118_j38259568672975_2_alg».proof.Proof.KiScatterDat
import proofs.«426118_j38259568672975_2_alg».proof.Proof.KiGatherDat2
import proofs.«426118_j38259568672975_2_alg».proof.Proof.KiScatterDat3
import proofs.«426118_j38259568672975_2_alg».proof.Proof.KiGatherDat4
import proofs.«426118_j38259568672975_2_alg».proof.Proof.KiScatterDat5
import Idealize.ShloMosaic.Lib.Pipeline.FrameSuffix
import Idealize.ShloMosaic.Lib.Pipeline.Cells
set_option maxRecDepth 16384
noncomputable section
namespace Cert.KernelIdeal.Hand
open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
variable {F : FTy → Type} [FloatOps F]
variable (m : (ℓ : Loc nD τ sig) → Buf (Elt F) ℓ)
abbrev theCore : Dev nD := ⟨0, Nat.zero_lt_one⟩
theorem dev_eq (c : Dev nD) : c = theCore := Fin.ext (Nat.lt_one_iff.mp c.isLt)
def tbl0 : pre0.Contents (Elt F) := fun k => V19 m theCore (Proc.devRef .tc (pre0.ref k))
def tbl1 : pre1.Contents (Elt F) := fun k => V19 m theCore (Proc.devRef .tc (pre1.ref k))
def tbl2 : pre2.Contents (Elt F) := fun k => V19 m theCore (Proc.devRef .tc (pre2.ref k))
def tbl3 : pre3.Contents (Elt F) := fun k => V19 m theCore (Proc.devRef .tc (pre3.ref k))
def tbl4 : pre4.Contents (Elt F) := fun k => V19 m theCore (Proc.devRef .tc (pre4.ref k))
def tbl5 : pre5.Contents (Elt F) := fun k => V19 m theCore (Proc.devRef .tc (pre5.ref k))
abbrev adm0 : (pcfg0 (F := F)).Adm := ⟨tbl0 m, Eq.mpr (ok0.eq_1 (F := F) (tbl0 m)) trivial⟩
abbrev adm1 : (pcfg1 (F := F)).Adm := ⟨tbl1 m, Eq.mpr (ok1.eq_1 (F := F) (tbl1 m)) trivial⟩
abbrev adm2 : (pcfg2 (F := F)).Adm := ⟨tbl2 m, Eq.mpr (ok2.eq_1 (F := F) (tbl2 m)) trivial⟩
abbrev adm3 : (pcfg3 (F := F)).Adm := ⟨tbl3 m, Eq.mpr (ok3.eq_1 (F := F) (tbl3 m)) trivial⟩
abbrev adm4 : (pcfg4 (F := F)).Adm := ⟨tbl4 m, Eq.mpr (ok4.eq_1 (F := F) (tbl4 m)) trivial⟩
abbrev adm5 : (pcfg5 (F := F)).Adm := ⟨tbl5 m, Eq.mpr (ok5.eq_1 (F := F) (tbl5 m)) trivial⟩
def adm : (p : Fin 6) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
def entry0 (c : Dev nD) : Valuation τ sig (Elt F) := V19 m c
def rdat0 (c : Dev nD) : Dat τ (Elt F) Unit ℕ (UR sig nD τ) ℕ (cfg0 (adm0 m)) c := Hand0.dat0 (entry0 m) (adm0 m) c
def exit0 (c : Dev nD) : Valuation τ sig (Elt F) :=
  Pipeline.withArrays (cfg0 (adm0 m)).spec c (entry0 m c) fun w => (rdat0 m c).arrAt w (cfg0 (adm0 m)).N
def entry1 (c : Dev nD) : Valuation τ sig (Elt F) :=
  StableHlo.after hostOps1 (Function.update (entry0 m c) main_v60 (exit0 m c main_v60))
def rdat1 (c : Dev nD) : Dat τ (Elt F) Unit ℕ (UR sig nD τ) ℕ (cfg1 (adm1 m)) c := Hand1.dat1 (entry1 m) (adm1 m) c
def exit1 (c : Dev nD) : Valuation τ sig (Elt F) :=
  Pipeline.withArrays (cfg1 (adm1 m)).spec c (entry1 m c) fun w => (rdat1 m c).arrAt w (cfg1 (adm1 m)).N
def entry2 (c : Dev nD) : Valuation τ sig (Elt F) :=
  StableHlo.after hostOps2 (Function.update (entry1 m c) main_v62 (exit1 m c main_v62))
def rdat2 (c : Dev nD) : Dat τ (Elt F) Unit ℕ (UR sig nD τ) ℕ (cfg2 (adm2 m)) c := Hand2.dat2 (entry2 m) (adm2 m) c
def exit2 (c : Dev nD) : Valuation τ sig (Elt F) :=
  Pipeline.withArrays (cfg2 (adm2 m)).spec c (entry2 m c) fun w => (rdat2 m c).arrAt w (cfg2 (adm2 m)).N
def entry3 (c : Dev nD) : Valuation τ sig (Elt F) :=
  StableHlo.after hostOps3 (Function.update (entry2 m c) main_v65 (exit2 m c main_v65))
def rdat3 (c : Dev nD) : Dat τ (Elt F) Unit ℕ (UR sig nD τ) ℕ (cfg3 (adm3 m)) c := Hand3.dat3 (entry3 m) (adm3 m) c
def exit3 (c : Dev nD) : Valuation τ sig (Elt F) :=
  Pipeline.withArrays (cfg3 (adm3 m)).spec c (entry3 m c) fun w => (rdat3 m c).arrAt w (cfg3 (adm3 m)).N
def entry4 (c : Dev nD) : Valuation τ sig (Elt F) :=
  StableHlo.after hostOps4 (Function.update (entry3 m c) main_v67 (exit3 m c main_v67))
def rdat4 (c : Dev nD) : Dat τ (Elt F) Unit ℕ (UR sig nD τ) ℕ (cfg4 (adm4 m)) c := Hand4.dat4 (entry4 m) (adm4 m) c
def exit4 (c : Dev nD) : Valuation τ sig (Elt F) :=
  Pipeline.withArrays (cfg4 (adm4 m)).spec c (entry4 m c) fun w => (rdat4 m c).arrAt w (cfg4 (adm4 m)).N
def entry5 (c : Dev nD) : Valuation τ sig (Elt F) :=
  StableHlo.after hostOps5 (Function.update (entry4 m c) main_v70 (exit4 m c main_v70))
def rdat5 (c : Dev nD) : Dat τ (Elt F) Unit ℕ (UR sig nD τ) ℕ (cfg5 (adm5 m)) c := Hand5.dat5 (entry5 m) (adm5 m) c
def exit5 (c : Dev nD) : Valuation τ sig (Elt F) :=
  Pipeline.withArrays (cfg5 (adm5 m)).spec c (entry5 m c) fun w => (rdat5 m c).arrAt w (cfg5 (adm5 m)).N
def pdats : (p : Fin 6) → (c : Dev nD) → Dat τ (Elt F) Unit ℕ (UR sig nD τ) ℕ (Pipeline.pin (pcfgs (F := F)) (adm m) p) c
  | ⟨0, _⟩ => fun c => rdat0 m c
  | ⟨1, _⟩ => fun c => rdat1 m c
  | ⟨2, _⟩ => fun c => rdat2 m c
  | ⟨3, _⟩ => fun c => rdat3 m c
  | ⟨4, _⟩ => fun c => rdat4 m c
  | ⟨5, _⟩ => fun c => rdat5 m c
def outs : Outs (F := F) := fun J r c =>
  if J ≤ 20 then exit0 m c (Proc.devRef .tc r)
  else if J ≤ 22 then exit1 m c (Proc.devRef .tc r)
  else if J ≤ 24 then exit2 m c (Proc.devRef .tc r)
  else if J ≤ 26 then exit3 m c (Proc.devRef .tc r)
  else if J ≤ 28 then exit4 m c (Proc.devRef .tc r)
  else exit5 m c (Proc.devRef .tc r)
theorem outs_20 (r : Ref sig .tc) (c : Dev nD) : outs m 20 r c = exit0 m c (Proc.devRef .tc r) := rfl
theorem outs_22 (r : Ref sig .tc) (c : Dev nD) : outs m 22 r c = exit1 m c (Proc.devRef .tc r) := rfl
theorem outs_24 (r : Ref sig .tc) (c : Dev nD) : outs m 24 r c = exit2 m c (Proc.devRef .tc r) := rfl
theorem outs_26 (r : Ref sig .tc) (c : Dev nD) : outs m 26 r c = exit3 m c (Proc.devRef .tc r) := rfl
theorem outs_28 (r : Ref sig .tc) (c : Dev nD) : outs m 28 r c = exit4 m c (Proc.devRef .tc r) := rfl
theorem outs_30 (r : Ref sig .tc) (c : Dev nD) : outs m 30 r c = exit5 m c (Proc.devRef .tc r) := rfl
theorem exit0_out (c : Dev nD) : exit0 m c main_v60 = (rdat0 m c).arrAt 3 (cfg0 (adm0 m)).N := by
  unfold exit0
  exact Pipeline.withArrays_arr (cfg0 (adm0 m)).spec (launch0 (F := F)).win.arr_inj c _ _ 3
theorem exit1_out (c : Dev nD) : exit1 m c main_v62 = (rdat1 m c).arrAt 2 (cfg1 (adm1 m)).N := by
  unfold exit1
  exact Pipeline.withArrays_arr (cfg1 (adm1 m)).spec (launch1 (F := F)).win.arr_inj c _ _ 2
theorem exit2_out (c : Dev nD) : exit2 m c main_v65 = (rdat2 m c).arrAt 3 (cfg2 (adm2 m)).N := by
  unfold exit2
  exact Pipeline.withArrays_arr (cfg2 (adm2 m)).spec (launch2 (F := F)).win.arr_inj c _ _ 3
theorem exit3_out (c : Dev nD) : exit3 m c main_v67 = (rdat3 m c).arrAt 2 (cfg3 (adm3 m)).N := by
  unfold exit3
  exact Pipeline.withArrays_arr (cfg3 (adm3 m)).spec (launch3 (F := F)).win.arr_inj c _ _ 2
theorem exit4_out (c : Dev nD) : exit4 m c main_v70 = (rdat4 m c).arrAt 3 (cfg4 (adm4 m)).N := by
  unfold exit4
  exact Pipeline.withArrays_arr (cfg4 (adm4 m)).spec (launch4 (F := F)).win.arr_inj c _ _ 3
theorem exit5_out (c : Dev nD) : exit5 m c main_v72 = (rdat5 m c).arrAt 2 (cfg5 (adm5 m)).N := by
  unfold exit5
  exact Pipeline.withArrays_arr (cfg5 (adm5 m)).spec (launch5 (F := F)).win.arr_inj c _ _ 2
theorem entry0_eq (c : Dev nD) : V19 m c = entry0 m c := rfl
theorem entry1_eq (c : Dev nD) : V21 m (outs m) c = entry1 m c := by
  show StableHlo.after hostOps1 (Function.update (V19 m c) main_v60 (outs m 20 main_v60 c)) = _
  rw [outs_20]
  rfl
theorem entry2_eq (c : Dev nD) : V23 m (outs m) c = entry2 m c := by
  show StableHlo.after hostOps2 (Function.update (V21 m (outs m) c) main_v62 (outs m 22 main_v62 c)) = _
  rw [entry1_eq, outs_22]
  rfl
theorem entry3_eq (c : Dev nD) : V25 m (outs m) c = entry3 m c := by
  show StableHlo.after hostOps3 (Function.update (V23 m (outs m) c) main_v65 (outs m 24 main_v65 c)) = _
  rw [entry2_eq, outs_24]
  rfl
theorem entry4_eq (c : Dev nD) : V27 m (outs m) c = entry4 m c := by
  show StableHlo.after hostOps4 (Function.update (V25 m (outs m) c) main_v67 (outs m 26 main_v67 c)) = _
  rw [entry3_eq, outs_26]
  rfl
theorem entry5_eq (c : Dev nD) : V29 m (outs m) c = entry5 m c := by
  show StableHlo.after hostOps5 (Function.update (V27 m (outs m) c) main_v70 (outs m 28 main_v70 c)) = _
  rw [entry4_eq, outs_28]
  rfl
theorem of_two {r a b : Ref sig .tc} (hr : r = a ∨ r = b) (l : List (Ref sig .tc)) (ha : a ∉ l) (hb : b ∉ l) : r ∉ l := by
  rcases hr with rfl | rfl <;> assumption
/-- Nothing before the last region writes a table, so every valuation on the way reads it as the first does. -/
theorem tblEven (c : Dev nD) {r : Ref sig .tc} (hr : r = main_v21 ∨ r = main_v24) :
    V23 m (outs m) c (Proc.devRef .tc r) = V19 m c (Proc.devRef .tc r) ∧ V27 m (outs m) c (Proc.devRef .tc r) = V19 m c (Proc.devRef .tc r) := by
  have h23 := (V23_of m (outs m) c r (of_two hr _ (by decide) (by decide))).trans <| (V22_of m (outs m) c r (of_two hr _ (by decide) (by decide))).trans <| (V21_of m (outs m) c r (of_two hr _ (by decide) (by decide))).trans (V20_of m (outs m) c r (of_two hr _ (by decide) (by decide)))
  exact ⟨h23, (V27_of m (outs m) c r (of_two hr _ (by decide) (by decide))).trans <| (V26_of m (outs m) c r (of_two hr _ (by decide) (by decide))).trans <| (V25_of m (outs m) c r (of_two hr _ (by decide) (by decide))).trans <| (V24_of m (outs m) c r (of_two hr _ (by decide) (by decide))).trans h23⟩
theorem tblOdd (c : Dev nD) {r : Ref sig .tc} (hr : r = main_v36 ∨ r = main_v39) :
    V21 m (outs m) c (Proc.devRef .tc r) = V19 m c (Proc.devRef .tc r) ∧ V25 m (outs m) c (Proc.devRef .tc r) = V19 m c (Proc.devRef .tc r)
      ∧ V29 m (outs m) c (Proc.devRef .tc r) = V19 m c (Proc.devRef .tc r) := by
  have h21 := (V21_of m (outs m) c r (of_two hr _ (by decide) (by decide))).trans (V20_of m (outs m) c r (of_two hr _ (by decide) (by decide)))
  have h25 := (V25_of m (outs m) c r (of_two hr _ (by decide) (by decide))).trans <| (V24_of m (outs m) c r (of_two hr _ (by decide) (by decide))).trans <| (V23_of m (outs m) c r (of_two hr _ (by decide) (by decide))).trans <| (V22_of m (outs m) c r (of_two hr _ (by decide) (by decide))).trans h21
  exact ⟨h21, h25, (V29_of m (outs m) c r (of_two hr _ (by decide) (by decide))).trans <| (V28_of m (outs m) c r (of_two hr _ (by decide) (by decide))).trans <| (V27_of m (outs m) c r (of_two hr _ (by decide) (by decide))).trans <| (V26_of m (outs m) c r (of_two hr _ (by decide) (by decide))).trans h25⟩
theorem hT0 (c : Dev nD) : ∀ k : Fin 2, tbl0 m k = V19 m c (Proc.devRef .tc (pre0.ref k))
  | 0 | 1 => by rw [dev_eq c]; rfl
  | ⟨_ + 2, h⟩ => absurd h (Nat.not_lt.2 (Nat.le_add_left _ _))
theorem hA0 (c : Dev nD) (w : Fin 4) : (rdat0 m c).A w = V19 m c (Proc.devRef .tc (Pipeline.arrRef spec0 w)) :=
  (Hand0.dat0_A (entry0 m) (adm0 m) c w).trans (congrFun (entry0_eq m c).symm _)
theorem hF0 (c : Dev nD) : ∀ w : Fin 4, (rdat0 m c).arrAt w (cfg0 (adm0 m)).N = V20 m (outs m) c (Proc.devRef .tc (Pipeline.arrRef spec0 w))
  | 0 | 1 | 2 => ((rdat0 m c).arrAt_in _ rfl _).trans <| (hA0 m c _).trans (V20_of m (outs m) c _ (by decide)).symm
  | 3 => by
    show _ = Function.update (V19 m c) main_v60 (outs m 20 main_v60 c) main_v60
    rw [Function.update_self, outs_20]
    exact (exit0_out m c).symm
  | ⟨_ + 4, h⟩ => absurd h (Nat.not_lt.2 (Nat.le_add_left _ _))
theorem hrest0 (c : Dev nD) (b : Ref sig .tc) (hb : b ∉ Finset.univ.image (Pipeline.arrRef spec0)) :
    V20 m (outs m) c (Proc.devRef .tc b) = V19 m c (Proc.devRef .tc b) :=
  V20_of m (outs m) c b fun h => hb (Finset.mem_image.mpr ⟨3, Finset.mem_univ _, (List.mem_singleton.mp h).symm⟩)
theorem hT1 (c : Dev nD) : ∀ k : Fin 2, tbl1 m k = V21 m (outs m) c (Proc.devRef .tc (pre1.ref k))
  | 0 | 1 => by rw [dev_eq c]; exact (tblOdd m theCore (by decide)).1.symm
  | ⟨_ + 2, h⟩ => absurd h (Nat.not_lt.2 (Nat.le_add_left _ _))
theorem hA1 (c : Dev nD) (w : Fin 3) : (rdat1 m c).A w = V21 m (outs m) c (Proc.devRef .tc (Pipeline.arrRef spec1 w)) :=
  (Hand1.dat1_A (entry1 m) (adm1 m) c w).trans (congrFun (entry1_eq m c).symm _)
theorem hF1 (c : Dev nD) : ∀ w : Fin 3, (rdat1 m c).arrAt w (cfg1 (adm1 m)).N = V22 m (outs m) c (Proc.devRef .tc (Pipeline.arrRef spec1 w))
  | 0 | 1 => ((rdat1 m c).arrAt_in _ rfl _).trans <| (hA1 m c _).trans (V22_of m (outs m) c _ (by decide)).symm
  | 2 => by
    show _ = Function.update (V21 m (outs m) c) main_v62 (outs m 22 main_v62 c) main_v62
    rw [Function.update_self, outs_22]
    exact (exit1_out m c).symm
  | ⟨_ + 3, h⟩ => absurd h (Nat.not_lt.2 (Nat.le_add_left _ _))
theorem hrest1 (c : Dev nD) (b : Ref sig .tc) (hb : b ∉ Finset.univ.image (Pipeline.arrRef spec1)) :
    V22 m (outs m) c (Proc.devRef .tc b) = V21 m (outs m) c (Proc.devRef .tc b) :=
  V22_of m (outs m) c b fun h => hb (Finset.mem_image.mpr ⟨2, Finset.mem_univ _, (List.mem_singleton.mp h).symm⟩)
theorem hT2 (c : Dev nD) : ∀ k : Fin 2, tbl2 m k = V23 m (outs m) c (Proc.devRef .tc (pre2.ref k))
  | 0 | 1 => by rw [dev_eq c]; exact (tblEven m theCore (by decide)).1.symm
  | ⟨_ + 2, h⟩ => absurd h (Nat.not_lt.2 (Nat.le_add_left _ _))
theorem hA2 (c : Dev nD) (w : Fin 4) : (rdat2 m c).A w = V23 m (outs m) c (Proc.devRef .tc (Pipeline.arrRef spec2 w)) :=
  (Hand2.dat2_A (entry2 m) (adm2 m) c w).trans (congrFun (entry2_eq m c).symm _)
theorem hF2 (c : Dev nD) : ∀ w : Fin 4, (rdat2 m c).arrAt w (cfg2 (adm2 m)).N = V24 m (outs m) c (Proc.devRef .tc (Pipeline.arrRef spec2 w))
  | 0 | 1 | 2 => ((rdat2 m c).arrAt_in _ rfl _).trans <| (hA2 m c _).trans (V24_of m (outs m) c _ (by decide)).symm
  | 3 => by
    show _ = Function.update (V23 m (outs m) c) main_v65 (outs m 24 main_v65 c) main_v65
    rw [Function.update_self, outs_24]
    exact (exit2_out m c).symm
  | ⟨_ + 4, h⟩ => absurd h (Nat.not_lt.2 (Nat.le_add_left _ _))
theorem hrest2 (c : Dev nD) (b : Ref sig .tc) (hb : b ∉ Finset.univ.image (Pipeline.arrRef spec2)) :
    V24 m (outs m) c (Proc.devRef .tc b) = V23 m (outs m) c (Proc.devRef .tc b) :=
  V24_of m (outs m) c b fun h => hb (Finset.mem_image.mpr ⟨3, Finset.mem_univ _, (List.mem_singleton.mp h).symm⟩)
theorem hT3 (c : Dev nD) : ∀ k : Fin 2, tbl3 m k = V25 m (outs m) c (Proc.devRef .tc (pre3.ref k))
  | 0 | 1 => by rw [dev_eq c]; exact (tblOdd m theCore (by decide)).2.1.symm
  | ⟨_ + 2, h⟩ => absurd h (Nat.not_lt.2 (Nat.le_add_left _ _))
theorem hA3 (c : Dev nD) (w : Fin 3) : (rdat3 m c).A w = V25 m (outs m) c (Proc.devRef .tc (Pipeline.arrRef spec3 w)) :=
  (Hand3.dat3_A (entry3 m) (adm3 m) c w).trans (congrFun (entry3_eq m c).symm _)
theorem hF3 (c : Dev nD) : ∀ w : Fin 3, (rdat3 m c).arrAt w (cfg3 (adm3 m)).N = V26 m (outs m) c (Proc.devRef .tc (Pipeline.arrRef spec3 w))
  | 0 | 1 => ((rdat3 m c).arrAt_in _ rfl _).trans <| (hA3 m c _).trans (V26_of m (outs m) c _ (by decide)).symm
  | 2 => by
    show _ = Function.update (V25 m (outs m) c) main_v67 (outs m 26 main_v67 c) main_v67
    rw [Function.update_self, outs_26]
    exact (exit3_out m c).symm
  | ⟨_ + 3, h⟩ => absurd h (Nat.not_lt.2 (Nat.le_add_left _ _))
theorem hrest3 (c : Dev nD) (b : Ref sig .tc) (hb : b ∉ Finset.univ.image (Pipeline.arrRef spec3)) :
    V26 m (outs m) c (Proc.devRef .tc b) = V25 m (outs m) c (Proc.devRef .tc b) :=
  V26_of m (outs m) c b fun h => hb (Finset.mem_image.mpr ⟨2, Finset.mem_univ _, (List.mem_singleton.mp h).symm⟩)
theorem hT4 (c : Dev nD) : ∀ k : Fin 2, tbl4 m k = V27 m (outs m) c (Proc.devRef .tc (pre4.ref k))
  | 0 | 1 => by rw [dev_eq c]; exact (tblEven m theCore (by decide)).2.symm
  | ⟨_ + 2, h⟩ => absurd h (Nat.not_lt.2 (Nat.le_add_left _ _))
theorem hA4 (c : Dev nD) (w : Fin 4) : (rdat4 m c).A w = V27 m (outs m) c (Proc.devRef .tc (Pipeline.arrRef spec4 w)) :=
  (Hand4.dat4_A (entry4 m) (adm4 m) c w).trans (congrFun (entry4_eq m c).symm _)
theorem hF4 (c : Dev nD) : ∀ w : Fin 4, (rdat4 m c).arrAt w (cfg4 (adm4 m)).N = V28 m (outs m) c (Proc.devRef .tc (Pipeline.arrRef spec4 w))
  | 0 | 1 | 2 => ((rdat4 m c).arrAt_in _ rfl _).trans <| (hA4 m c _).trans (V28_of m (outs m) c _ (by decide)).symm
  | 3 => by
    show _ = Function.update (V27 m (outs m) c) main_v70 (outs m 28 main_v70 c) main_v70
    rw [Function.update_self, outs_28]
    exact (exit4_out m c).symm
  | ⟨_ + 4, h⟩ => absurd h (Nat.not_lt.2 (Nat.le_add_left _ _))
theorem hrest4 (c : Dev nD) (b : Ref sig .tc) (hb : b ∉ Finset.univ.image (Pipeline.arrRef spec4)) :
    V28 m (outs m) c (Proc.devRef .tc b) = V27 m (outs m) c (Proc.devRef .tc b) :=
  V28_of m (outs m) c b fun h => hb (Finset.mem_image.mpr ⟨3, Finset.mem_univ _, (List.mem_singleton.mp h).symm⟩)
theorem hT5 (c : Dev nD) : ∀ k : Fin 2, tbl5 m k = V29 m (outs m) c (Proc.devRef .tc (pre5.ref k))
  | 0 | 1 => by rw [dev_eq c]; exact (tblOdd m theCore (by decide)).2.2.symm
  | ⟨_ + 2, h⟩ => absurd h (Nat.not_lt.2 (Nat.le_add_left _ _))
theorem hA5 (c : Dev nD) (w : Fin 3) : (rdat5 m c).A w = V29 m (outs m) c (Proc.devRef .tc (Pipeline.arrRef spec5 w)) :=
  (Hand5.dat5_A (entry5 m) (adm5 m) c w).trans (congrFun (entry5_eq m c).symm _)
theorem hF5 (c : Dev nD) : ∀ w : Fin 3, (rdat5 m c).arrAt w (cfg5 (adm5 m)).N = V30 m (outs m) c (Proc.devRef .tc (Pipeline.arrRef spec5 w))
  | 0 | 1 => ((rdat5 m c).arrAt_in _ rfl _).trans <| (hA5 m c _).trans (V30_of m (outs m) c _ (by decide)).symm
  | 2 => by
    show _ = Function.update (V29 m (outs m) c) main_v72 (outs m 30 main_v72 c) main_v72
    rw [Function.update_self, outs_30]
    exact (exit5_out m c).symm
  | ⟨_ + 3, h⟩ => absurd h (Nat.not_lt.2 (Nat.le_add_left _ _))
theorem hrest5 (c : Dev nD) (b : Ref sig .tc) (hb : b ∉ Finset.univ.image (Pipeline.arrRef spec5)) :
    V30 m (outs m) c (Proc.devRef .tc b) = V29 m (outs m) c (Proc.devRef .tc b) :=
  V30_of m (outs m) c b fun h => hb (Finset.mem_image.mpr ⟨2, Finset.mem_univ _, (List.mem_singleton.mp h).symm⟩)
set_option backward.isDefEq.respectTransparency.types false in
def reg0 : RegionSeg (pcfgs (F := F)) (adm m) (pdats m) () defs₀ Variants.none (fun _ => ∅) (fun _ _ => 0) 0 :=
  Pipeline.ClassA.regionPf (U' := UR sig nD τ) (pcfgs (F := F)) (adm m) (pdats m) defs₀ Variants.none (fun _ => ∅) (fun _ _ => 0) 0 launch0
    (Hand0.body_obligation0 (entry0 m) (adm0 m))
    (Hand0.dat0_q (entry0 m) (adm0 m))
    (Hand0.dat0_owed (entry0 m) (adm0 m))
    (Hand0.dat0_recorded (entry0 m) (adm0 m))
    (Hand0.hΦin0 (entry0 m) (adm0 m))
    (Hand0.hΦout0 (entry0 m) (adm0 m))
    (V19 m) (V20 m (outs m))
    (hT0 m) (hA0 m) (hF0 m) (hrest0 m)
set_option backward.isDefEq.respectTransparency.types false in
def reg1 : RegionSeg (pcfgs (F := F)) (adm m) (pdats m) () defs₀ Variants.none (fun _ => ∅) (fun _ _ => 0) 1 :=
  Pipeline.ClassA.regionPf (U' := UR sig nD τ) (pcfgs (F := F)) (adm m) (pdats m) defs₀ Variants.none (fun _ => ∅) (fun _ _ => 0) 1 launch1
    (Hand1.body_obligation1 (entry1 m) (adm1 m))
    (Hand1.dat1_q (entry1 m) (adm1 m))
    (Hand1.dat1_owed (entry1 m) (adm1 m))
    (Hand1.dat1_recorded (entry1 m) (adm1 m))
    (Hand1.hΦin1 (entry1 m) (adm1 m))
    (Hand1.hΦout1 (entry1 m) (adm1 m))
    (V21 m (outs m)) (V22 m (outs m))
    (hT1 m) (hA1 m) (hF1 m) (hrest1 m)
set_option backward.isDefEq.respectTransparency.types false in
def reg2 : RegionSeg (pcfgs (F := F)) (adm m) (pdats m) () defs₀ Variants.none (fun _ => ∅) (fun _ _ => 0) 2 :=
  Pipeline.ClassA.regionPf (U' := UR sig nD τ) (pcfgs (F := F)) (adm m) (pdats m) defs₀ Variants.none (fun _ => ∅) (fun _ _ => 0) 2 launch2
    (Hand2.body_obligation2 (entry2 m) (adm2 m))
    (Hand2.dat2_q (entry2 m) (adm2 m))
    (Hand2.dat2_owed (entry2 m) (adm2 m))
    (Hand2.dat2_recorded (entry2 m) (adm2 m))
    (Hand2.hΦin2 (entry2 m) (adm2 m))
    (Hand2.hΦout2 (entry2 m) (adm2 m))
    (V23 m (outs m)) (V24 m (outs m))
    (hT2 m) (hA2 m) (hF2 m) (hrest2 m)
set_option backward.isDefEq.respectTransparency.types false in
def reg3 : RegionSeg (pcfgs (F := F)) (adm m) (pdats m) () defs₀ Variants.none (fun _ => ∅) (fun _ _ => 0) 3 :=
  Pipeline.ClassA.regionPf (U' := UR sig nD τ) (pcfgs (F := F)) (adm m) (pdats m) defs₀ Variants.none (fun _ => ∅) (fun _ _ => 0) 3 launch3
    (Hand3.body_obligation3 (entry3 m) (adm3 m))
    (Hand3.dat3_q (entry3 m) (adm3 m))
    (Hand3.dat3_owed (entry3 m) (adm3 m))
    (Hand3.dat3_recorded (entry3 m) (adm3 m))
    (Hand3.hΦin3 (entry3 m) (adm3 m))
    (Hand3.hΦout3 (entry3 m) (adm3 m))
    (V25 m (outs m)) (V26 m (outs m))
    (hT3 m) (hA3 m) (hF3 m) (hrest3 m)
set_option backward.isDefEq.respectTransparency.types false in
def reg4 : RegionSeg (pcfgs (F := F)) (adm m) (pdats m) () defs₀ Variants.none (fun _ => ∅) (fun _ _ => 0) 4 :=
  Pipeline.ClassA.regionPf (U' := UR sig nD τ) (pcfgs (F := F)) (adm m) (pdats m) defs₀ Variants.none (fun _ => ∅) (fun _ _ => 0) 4 launch4
    (Hand4.body_obligation4 (entry4 m) (adm4 m))
    (Hand4.dat4_q (entry4 m) (adm4 m))
    (Hand4.dat4_owed (entry4 m) (adm4 m))
    (Hand4.dat4_recorded (entry4 m) (adm4 m))
    (Hand4.hΦin4 (entry4 m) (adm4 m))
    (Hand4.hΦout4 (entry4 m) (adm4 m))
    (V27 m (outs m)) (V28 m (outs m))
    (hT4 m) (hA4 m) (hF4 m) (hrest4 m)
set_option backward.isDefEq.respectTransparency.types false in
def reg5 : RegionSeg (pcfgs (F := F)) (adm m) (pdats m) () defs₀ Variants.none (fun _ => ∅) (fun _ _ => 0) 5 :=
  Pipeline.ClassA.regionPf (U' := UR sig nD τ) (pcfgs (F := F)) (adm m) (pdats m) defs₀ Variants.none (fun _ => ∅) (fun _ _ => 0) 5 launch5
    (Hand5.body_obligation5 (entry5 m) (adm5 m))
    (Hand5.dat5_q (entry5 m) (adm5 m))
    (Hand5.dat5_owed (entry5 m) (adm5 m))
    (Hand5.dat5_recorded (entry5 m) (adm5 m))
    (Hand5.hΦin5 (entry5 m) (adm5 m))
    (Hand5.hΦout5 (entry5 m) (adm5 m))
    (V29 m (outs m)) (V30 m (outs m))
    (hT5 m) (hA5 m) (hF5 m) (hrest5 m)
theorem run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v78) = V31 m (outs m) c main_v78
      ∧ r.2.mem ((c.tc : Thread nD τ).loc main_v79) = V31 m (outs m) c main_v79) :=
  run_of_regions m ρ (outs m) Variants.none (fun _ => ∅) (fun _ _ => 0) (fun _ _ => rfl) (adm m) (pdats m)
    (reg0 m) (fun _ => rfl) (fun _ => rfl)
    (reg1 m) (fun _ => rfl) (fun _ => rfl)
    (reg2 m) (fun _ => rfl) (fun _ => rfl)
    (reg3 m) (fun _ => rfl) (fun _ => rfl)
    (reg4 m) (fun _ => rfl) (fun _ => rfl)
    (reg5 m) (fun _ => rfl) (fun _ => rfl)
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1, (h c).2.1, (h c).2.2.1, (h c).2.2.2.1, (h c).2.2.2.2.1⟩) (run m ρ)
end Cert.KernelIdeal.Hand
end
-- ==== Proof.SpmmMath.lean ====
import Idealize.ShloMosaic.PureOps.Ideal
import Mathlib.Data.EReal.Inv
import Mathlib.Algebra.BigOperators.Fin
import Mathlib.Algebra.BigOperators.Group.Finset.Basic
import Mathlib.Data.Fintype.BigOperators
import Mathlib.Data.Fintype.Card
noncomputable section
namespace Cert.Spmm
open scoped BigOperators
abbrev NE : ℕ := 1200128
abbrev NN : ℕ := 150528
theorem blk_lt (e : Fin NE) : e.val / 4096 < 293 := by
  have h : e.val < 1200128 := e.isLt
  omega
theorem node_lt (j : Fin 147) (n : Fin 1024) : 1024 * j.val + n.val < NN := by
  have h1 : j.val < 147 := j.isLt
  have h2 : n.val < 1024 := n.isLt
  show 1024 * j.val + n.val < 150528
  omega
theorem edge_lt (b : Fin 293) (k : Fin 4096) : 4096 * b.val + k.val < NE := by
  have h1 : b.val < 293 := b.isLt
  have h2 : k.val < 4096 := k.isLt
  show 4096 * b.val + k.val < 1200128
  omega
theorem lt_pad (e : Fin 1200000) : e.val < NE := by
  have h : e.val < 1200000 := e.isLt
  show e.val < 1200128
  omega
theorem lt_padN (n : Fin 150000) : n.val < NN := by
  have h : n.val < 150000 := n.isLt
  show n.val < 150528
  omega
def blkOf (e : Fin NE) : Fin 293 := ⟨e.val / 4096, blk_lt e⟩
def nodeAt (j : Fin 147) (n : Fin 1024) : Fin NN := ⟨1024 * j.val + n.val, node_lt j n⟩
def edgeAt (b : Fin 293) (k : Fin 4096) : Fin NE := ⟨4096 * b.val + k.val, edge_lt b k⟩
def gatherRaw (S E : Fin 293 → BitVec 32) (col : Fin NE → BitVec 32) (w : Fin NE → EReal)
    (x : Fin 64 → Fin NN → EReal) (d : Fin 64) (e : Fin NE) : EReal :=
  ∑ j : Fin 147,
    if (S (blkOf e)).toInt ≤ ((j.val : ℕ) : ℤ) ∧ ((j.val : ℕ) : ℤ) ≤ (E (blkOf e)).toInt then
      ∑ n : Fin 1024,
        x d (nodeAt j n) * (if (col e).toNat = 1024 * j.val + n.val then w e else 0)
    else 0
def scatterRaw (S E : Fin 293 → BitVec 32) (row : Fin NE → BitVec 32)
    (v : Fin 64 → Fin NE → EReal) (d : Fin 64) (n : Fin NN) : EReal :=
  ∑ b : Fin 293,
    if (S b).toInt ≤ ((n.val / 1024 : ℕ) : ℤ) ∧ ((n.val / 1024 : ℕ) : ℤ) ≤ (E b).toInt then
      ∑ k : Fin 4096,
        v d (edgeAt b k) * (if (row (edgeAt b k)).toNat = n.val then 1 else 0)
    else 0
def takeCols (v : Fin 64 → Fin NE → EReal) (g : Fin NE → Fin NE) (d : Fin 64) (k : Fin NE) :
    EReal :=
  v d (g k)
def layerK (Sc Ec Sr Er : Fin 293 → BitVec 32) (colS rowS : Fin NE → BitVec 32)
    (wS : Fin NE → EReal) (g : Fin NE → Fin NE) (x : Fin 64 → Fin NN → EReal) :
    Fin 64 → Fin NN → EReal :=
  scatterRaw Sr Er rowS (takeCols (gatherRaw Sc Ec colS wS x) g)
def refLayer (row col : Fin 1200000 → BitVec 32) (w : Fin 1200000 → EReal)
    (x : Fin 150000 → Fin 64 → EReal) (n : Fin 150000) (d : Fin 64) : EReal :=
  ∑ e : Fin 1200000,
    if (row e).toNat = n.val then
      (if h : (col e).toNat < 150000 then x ⟨(col e).toNat, h⟩ d else 0) * w e
    else 0
def padB (f : Fin 1200000 → BitVec 32) (e : Fin NE) : BitVec 32 :=
  if h : e.val < 1200000 then f ⟨e.val, h⟩ else BitVec.ofNat 32 150527
def padW (f : Fin 1200000 → EReal) (e : Fin NE) : EReal :=
  if h : e.val < 1200000 then f ⟨e.val, h⟩ else 0
def restr (x : Fin 64 → Fin NN → EReal) (n : Fin 150000) (d : Fin 64) : EReal :=
  x d ⟨n.val, lt_padN n⟩
def look (x : Fin 64 → Fin NN → EReal) (d : Fin 64) (c : ℕ) : EReal :=
  if h : c < NN then x d ⟨c, h⟩ else 0
def edgeTerm (row col : Fin 1200000 → BitVec 32) (w : Fin 1200000 → EReal)
    (x : Fin 64 → Fin NN → EReal) (d : Fin 64) (n : ℕ) (e : Fin NE) : EReal :=
  if (padB row e).toNat = n then look x d (padB col e).toNat * padW w e else 0
structure LayerHyp (row col : Fin 1200000 → BitVec 32) (w : Fin 1200000 → EReal)
    (σc σr : Fin NE → Fin NE)
    (Sc Ec Sr Er : Fin 293 → BitVec 32) (colS rowS : Fin NE → BitVec 32) (wS : Fin NE → EReal)
    (g : Fin NE → Fin NE) : Prop where
  hσr : Function.Bijective σr
  hg : ∀ k, σc (g k) = σr k
  hcolS : ∀ e, colS e = padB col (σc e)
  hwS : ∀ e, wS e = padW w (σc e)
  hrowS : ∀ e, rowS e = padB row (σr e)
  hcol : ∀ e, (col e).toNat < 150000
  hrow : ∀ e, (row e).toNat < 150000
  hbc : ∀ e : Fin NE, (Sc (blkOf e)).toInt ≤ (((colS e).toNat / 1024 : ℕ) : ℤ) ∧
      (((colS e).toNat / 1024 : ℕ) : ℤ) ≤ (Ec (blkOf e)).toInt
  hbr : ∀ e : Fin NE, (Sr (blkOf e)).toInt ≤ (((rowS e).toNat / 1024 : ℕ) : ℤ) ∧
      (((rowS e).toNat / 1024 : ℕ) : ℤ) ≤ (Er (blkOf e)).toInt
theorem word_eq_iff (c : BitVec 32) (m : ℕ) (hm : m < 2 ^ 32) :
    BitVec.ofNat 32 m = c ↔ c.toNat = m := by
  constructor
  · intro h
    rw [← h, BitVec.toNat_ofNat]
    exact Nat.mod_eq_of_lt hm
  · intro h
    apply BitVec.eq_of_toNat_eq
    rw [BitVec.toNat_ofNat, h]
    exact Nat.mod_eq_of_lt hm
theorem onehot_block (f : Fin NN → EReal) (c : ℕ) (hc : c < NN) (a : EReal) (j : Fin 147) :
    (∑ n : Fin 1024, f (nodeAt j n) * (if c = 1024 * j.val + n.val then a else 0))
      = if c / 1024 = j.val then f ⟨c, hc⟩ * a else 0 := by
  have hn0 : c % 1024 < 1024 := Nat.mod_lt _ (by norm_num)
  by_cases hj : c / 1024 = j.val
  · rw [if_pos hj]
    rw [Finset.sum_eq_single (⟨c % 1024, hn0⟩ : Fin 1024)]
    · have h1 : c = 1024 * j.val + (⟨c % 1024, hn0⟩ : Fin 1024).val := by
        show c = 1024 * j.val + c % 1024
        omega
      have h2 : nodeAt j ⟨c % 1024, hn0⟩ = (⟨c, hc⟩ : Fin NN) := by
        apply Fin.ext
        show 1024 * j.val + c % 1024 = c
        omega
      rw [if_pos h1, h2]
    · intro n _ hne
      have h1 : ¬ (c = 1024 * j.val + n.val) := by
        intro h
        apply hne
        apply Fin.ext
        show n.val = c % 1024
        have h3 : n.val < 1024 := n.isLt
        omega
      rw [if_neg h1, mul_zero]
    · intro h
      exact absurd (Finset.mem_univ _) h
  · rw [if_neg hj]
    apply Finset.sum_eq_zero
    intro n _
    have h1 : ¬ (c = 1024 * j.val + n.val) := by
      intro h
      apply hj
      have h3 : n.val < 1024 := n.isLt
      omega
    rw [if_neg h1, mul_zero]
theorem gatherRaw_eq (S E : Fin 293 → BitVec 32) (col : Fin NE → BitVec 32) (w : Fin NE → EReal)
    (x : Fin 64 → Fin NN → EReal) (d : Fin 64) (e : Fin NE) (hlt : (col e).toNat < NN)
    (hlo : (S (blkOf e)).toInt ≤ (((col e).toNat / 1024 : ℕ) : ℤ))
    (hhi : (((col e).toNat / 1024 : ℕ) : ℤ) ≤ (E (blkOf e)).toInt) :
    gatherRaw S E col w x d e = x d ⟨(col e).toNat, hlt⟩ * w e := by
  have hj0 : (col e).toNat / 1024 < 147 := by
    have h : (col e).toNat < 150528 := hlt
    omega
  unfold gatherRaw
  simp only [onehot_block (x d) (col e).toNat hlt (w e)]
  rw [Finset.sum_eq_single (⟨(col e).toNat / 1024, hj0⟩ : Fin 147)]
  · have hP : (S (blkOf e)).toInt ≤ (((⟨(col e).toNat / 1024, hj0⟩ : Fin 147).val : ℕ) : ℤ) ∧
        (((⟨(col e).toNat / 1024, hj0⟩ : Fin 147).val : ℕ) : ℤ) ≤ (E (blkOf e)).toInt :=
      ⟨hlo, hhi⟩
    have hQ : (col e).toNat / 1024 = (⟨(col e).toNat / 1024, hj0⟩ : Fin 147).val := rfl
    rw [if_pos hP, if_pos hQ]
  · intro j _ hne
    have hnj : ¬ ((col e).toNat / 1024 = j.val) := fun h => hne (Fin.ext h.symm)
    rw [if_neg hnj, ite_self]
  · intro h
    exact absurd (Finset.mem_univ _) h
theorem gatherRaw_look (S E : Fin 293 → BitVec 32) (col : Fin NE → BitVec 32)
    (w : Fin NE → EReal) (x : Fin 64 → Fin NN → EReal) (d : Fin 64) (e : Fin NE)
    (hlt : (col e).toNat < NN)
    (hlo : (S (blkOf e)).toInt ≤ (((col e).toNat / 1024 : ℕ) : ℤ))
    (hhi : (((col e).toNat / 1024 : ℕ) : ℤ) ≤ (E (blkOf e)).toInt) :
    gatherRaw S E col w x d e = look x d (col e).toNat * w e := by
  rw [gatherRaw_eq S E col w x d e hlt hlo hhi]
  unfold look
  rw [dif_pos hlt]
def edgeEquiv : Fin 293 × Fin 4096 ≃ Fin NE where
  toFun p := edgeAt p.1 p.2
  invFun e := (blkOf e, ⟨e.val % 4096, Nat.mod_lt _ (by norm_num)⟩)
  left_inv p := by
    have h1 : p.1.val < 293 := p.1.isLt
    have h2 : p.2.val < 4096 := p.2.isLt
    apply Prod.ext
    · apply Fin.ext
      show (4096 * p.1.val + p.2.val) / 4096 = p.1.val
      omega
    · apply Fin.ext
      show (4096 * p.1.val + p.2.val) % 4096 = p.2.val
      omega
  right_inv e := by
    apply Fin.ext
    show 4096 * (e.val / 4096) + e.val % 4096 = e.val
    omega
theorem sum_blocks (F : Fin NE → EReal) :
    (∑ b : Fin 293, ∑ k : Fin 4096, F (edgeAt b k)) = ∑ e : Fin NE, F e :=
  calc (∑ b : Fin 293, ∑ k : Fin 4096, F (edgeAt b k))
      = ∑ p : Fin 293 × Fin 4096, F (edgeAt p.1 p.2) :=
        (Fintype.sum_prod_type' (fun b k => F (edgeAt b k))).symm
    _ = ∑ e : Fin NE, F e := Fintype.sum_equiv edgeEquiv _ _ (fun p => rfl)
theorem scatterRaw_eq (S E : Fin 293 → BitVec 32) (row : Fin NE → BitVec 32)
    (v : Fin 64 → Fin NE → EReal) (d : Fin 64) (n : Fin NN)
    (hbr : ∀ k : Fin NE, (S (blkOf k)).toInt ≤ (((row k).toNat / 1024 : ℕ) : ℤ) ∧
        (((row k).toNat / 1024 : ℕ) : ℤ) ≤ (E (blkOf k)).toInt) :
    scatterRaw S E row v d n = ∑ k : Fin NE, if (row k).toNat = n.val then v d k else 0 := by
  unfold scatterRaw
  rw [← sum_blocks (fun k => if (row k).toNat = n.val then v d k else 0)]
  apply Finset.sum_congr rfl
  intro b _
  by_cases hQ : (S b).toInt ≤ ((n.val / 1024 : ℕ) : ℤ) ∧ ((n.val / 1024 : ℕ) : ℤ) ≤ (E b).toInt
  · rw [if_pos hQ]
    apply Finset.sum_congr rfl
    intro k _
    by_cases h : (row (edgeAt b k)).toNat = n.val
    · rw [if_pos h, if_pos h, mul_one]
    · rw [if_neg h, if_neg h, mul_zero]
  · rw [if_neg hQ]
    symm
    apply Finset.sum_eq_zero
    intro k _
    have hb : blkOf (edgeAt b k) = b := by
      apply Fin.ext
      show (4096 * b.val + k.val) / 4096 = b.val
      have h2 : k.val < 4096 := k.isLt
      omega
    have h : ¬ ((row (edgeAt b k)).toNat = n.val) := by
      intro h
      apply hQ
      have h3 := hbr (edgeAt b k)
      rw [hb, h] at h3
      exact h3
    rw [if_neg h]
theorem padB_lt (f : Fin 1200000 → BitVec 32) (hf : ∀ e, (f e).toNat < 150000) (e : Fin NE) :
    (padB f e).toNat < NN := by
  unfold padB
  by_cases h : e.val < 1200000
  · rw [dif_pos h]
    have h1 := hf ⟨e.val, h⟩
    show (f ⟨e.val, h⟩).toNat < 150528
    omega
  · rw [dif_neg h, BitVec.toNat_ofNat]
    show 150527 % 2 ^ 32 < 150528
    norm_num
theorem padB_lo (f : Fin 1200000 → BitVec 32) (e : Fin 1200000) (h : e.val < NE) :
    padB f ⟨e.val, h⟩ = f e := by
  have h' : (⟨e.val, h⟩ : Fin NE).val < 1200000 := e.isLt
  unfold padB
  exact dif_pos h'
theorem padW_lo (f : Fin 1200000 → EReal) (e : Fin 1200000) (h : e.val < NE) :
    padW f ⟨e.val, h⟩ = f e := by
  have h' : (⟨e.val, h⟩ : Fin NE).val < 1200000 := e.isLt
  unfold padW
  exact dif_pos h'
theorem padW_hi (f : Fin 1200000 → EReal) (e : Fin NE) (h : ¬ e.val < 1200000) :
    padW f e = 0 := by
  unfold padW
  exact dif_neg h
theorem edgeTerm_lo (row col : Fin 1200000 → BitVec 32) (w : Fin 1200000 → EReal)
    (x : Fin 64 → Fin NN → EReal) (d : Fin 64) (n : ℕ) (e : Fin 1200000) (h : e.val < NE) :
    edgeTerm row col w x d n ⟨e.val, h⟩
      = if (row e).toNat = n then look x d (col e).toNat * w e else 0 := by
  unfold edgeTerm
  rw [padB_lo row e h, padB_lo col e h, padW_lo w e h]
theorem edgeTerm_hi (row col : Fin 1200000 → BitVec 32) (w : Fin 1200000 → EReal)
    (x : Fin 64 → Fin NN → EReal) (d : Fin 64) (n : ℕ) (e : Fin NE) (h : ¬ e.val < 1200000) :
    edgeTerm row col w x d n e = 0 := by
  unfold edgeTerm
  rw [padW_hi w e h, mul_zero, ite_self]
theorem sum_pad_zero (T : Fin NE → EReal) (hT : ∀ e : Fin NE, ¬ e.val < 1200000 → T e = 0) :
    (∑ e : Fin NE, T e) = ∑ e : Fin 1200000, T ⟨e.val, lt_pad e⟩ := by
  have h := Fin.sum_univ_add (a := 1200000) (b := 128) T
  have hz : (∑ p : Fin 128, T (Fin.natAdd 1200000 p)) = 0 :=
    Finset.sum_eq_zero (fun p _ => hT _ (by
      show ¬ (1200000 + p.val < 1200000)
      omega))
  rw [hz, add_zero] at h
  exact h
section Layer
variable {row col : Fin 1200000 → BitVec 32} {w : Fin 1200000 → EReal}
  {σc σr : Fin NE → Fin NE}
  {Sc Ec Sr Er : Fin 293 → BitVec 32} {colS rowS : Fin NE → BitVec 32} {wS : Fin NE → EReal}
  {g : Fin NE → Fin NE}
theorem layerK_eq_sum (H : LayerHyp row col w σc σr Sc Ec Sr Er colS rowS wS g)
    (x : Fin 64 → Fin NN → EReal) (d : Fin 64) (n : Fin NN) :
    layerK Sc Ec Sr Er colS rowS wS g x d n = ∑ e : Fin NE, edgeTerm row col w x d n.val e := by
  unfold layerK
  rw [scatterRaw_eq Sr Er rowS _ d n H.hbr]
  have hterm : ∀ k : Fin NE,
      (if (rowS k).toNat = n.val then takeCols (gatherRaw Sc Ec colS wS x) g d k else 0)
        = edgeTerm row col w x d n.val (σr k) := by
    intro k
    have hlt : (colS (g k)).toNat < NN := by
      rw [H.hcolS (g k)]
      exact padB_lt col H.hcol _
    unfold takeCols edgeTerm
    rw [gatherRaw_look Sc Ec colS wS x d (g k) hlt (H.hbc (g k)).1 (H.hbc (g k)).2]
    rw [H.hrowS k, H.hcolS (g k), H.hwS (g k), H.hg k]
  calc (∑ k : Fin NE,
          if (rowS k).toNat = n.val then takeCols (gatherRaw Sc Ec colS wS x) g d k else 0)
      = ∑ k : Fin NE, edgeTerm row col w x d n.val (σr k) :=
        Finset.sum_congr rfl (fun k _ => hterm k)
    _ = ∑ e : Fin NE, edgeTerm row col w x d n.val e :=
        H.hσr.sum_comp (fun e => edgeTerm row col w x d n.val e)
theorem layer_eq (H : LayerHyp row col w σc σr Sc Ec Sr Er colS rowS wS g)
    (x : Fin 64 → Fin NN → EReal) (n : Fin 150000) (d : Fin 64) :
    layerK Sc Ec Sr Er colS rowS wS g x d ⟨n.val, lt_padN n⟩
      = refLayer row col w (restr x) n d := by
  rw [layerK_eq_sum H x d ⟨n.val, lt_padN n⟩]
  show (∑ e : Fin NE, edgeTerm row col w x d n.val e) = _
  rw [sum_pad_zero (edgeTerm row col w x d n.val)
    (fun e he => edgeTerm_hi row col w x d n.val e he)]
  unfold refLayer
  apply Finset.sum_congr rfl
  intro e _
  have hc : (col e).toNat < 150000 := H.hcol e
  have hcN : (col e).toNat < NN := by
    show (col e).toNat < 150528
    omega
  have hL : look x d (col e).toNat = restr x ⟨(col e).toNat, hc⟩ d := by
    unfold look restr
    exact dif_pos hcN
  rw [edgeTerm_lo row col w x d n.val e (lt_pad e), dif_pos hc, hL]
theorem restr_layerK (H : LayerHyp row col w σc σr Sc Ec Sr Er colS rowS wS g)
    (x : Fin 64 → Fin NN → EReal) :
    restr (layerK Sc Ec Sr Er colS rowS wS g x) = refLayer row col w (restr x) := by
  funext n d
  exact layer_eq H x n d
end Layer
def sum3K (L : (Fin 64 → Fin NN → EReal) → (Fin 64 → Fin NN → EReal))
    (x0 : Fin 64 → Fin NN → EReal) (d : Fin 64) (n : Fin NN) : EReal :=
  x0 d n + L x0 d n + L (L x0) d n + L (L (L x0)) d n
def sum3R (R : (Fin 150000 → Fin 64 → EReal) → (Fin 150000 → Fin 64 → EReal))
    (x0 : Fin 150000 → Fin 64 → EReal) (n : Fin 150000) (d : Fin 64) : EReal :=
  x0 n d + R x0 n d + R (R x0) n d + R (R (R x0)) n d
theorem three_layers {row col : Fin 1200000 → BitVec 32} {w : Fin 1200000 → EReal}
    {σc σr : Fin NE → Fin NE}
    {Sc Ec Sr Er : Fin 293 → BitVec 32} {colS rowS : Fin NE → BitVec 32} {wS : Fin NE → EReal}
    {g : Fin NE → Fin NE}
    (H : LayerHyp row col w σc σr Sc Ec Sr Er colS rowS wS g)
    (x0 : Fin 64 → Fin NN → EReal) (n : Fin 150000) (d : Fin 64) :
    sum3K (layerK Sc Ec Sr Er colS rowS wS g) x0 d ⟨n.val, lt_padN n⟩
      = sum3R (refLayer row col w) (restr x0) n d := by
  have h1 := restr_layerK H x0
  have h2 := restr_layerK H (layerK Sc Ec Sr Er colS rowS wS g x0)
  have h3 := restr_layerK H
    (layerK Sc Ec Sr Er colS rowS wS g (layerK Sc Ec Sr Er colS rowS wS g x0))
  unfold sum3R
  rw [← h1, ← h2, ← h3]
  rfl
end Cert.Spmm
-- ==== Proof.HostOpsMath.lean ====
import Idealize.ShloMosaic.Lib.StableHlo.Predicate
import Idealize.ShloMosaic.Lib.Affine
import Idealize.ShloMosaic.Lib.KernelVsHost
import Idealize.ShloMosaic.Lib.ValueLayout
noncomputable section
namespace Cert.HostMath
open Idealize.ShloMosaic Idealize.ShloMosaic.ValueIdx Idealize.ShloMosaic.StableHlo.Predicate
theorem not_slt_zero (v : ℕ) (hv : v < 2 ^ 31) : ¬ IntOp.cmpi .slt (BitVec.ofNat 32 v) 0#32 = 1#1 := by
  intro h
  have h1 := IntOp.cmpi_slt.1 h
  rw [toInt_ofNat_small v hv] at h1
  have z : (0#32 : BitVec 32).toInt = 0 := by decide
  omega
def wrapIdx {s : Shape} (hb : (⟨0, ![]⟩ : Shape).BroadcastsInDim s ![]) (cN : BitVec 32) (p : IVec s 32) : IVec s 32 :=
  select (cmpi .slt p (broadcastInDim s ![] hb (constantI ⟨0, ![]⟩ 32 0#32)))
    (addi p (broadcastInDim s ![] hb (constantI ⟨0, ![]⟩ 32 cN))) p
theorem wrapIdx_apply {s : Shape} (hb : (⟨0, ![]⟩ : Shape).BroadcastsInDim s ![]) (cN : BitVec 32)
    (p : IVec s 32) (i : s.Idx) (v : ℕ) (hv : v < 2 ^ 31) (hp : p i = BitVec.ofNat 32 v) :
    wrapIdx hb cN p i = BitVec.ofNat 32 v := by
  show Scalar.select (IntOp.cmpi .slt (p i) 0#32) (IntOp.addi (p i) cN) (p i) = _
  rw [hp]
  unfold Scalar.select
  have hc : ¬ IntOp.cmpi .slt (BitVec.ofNat 32 v) 0#32 = 1 := not_slt_zero v hv
  rw [if_neg hc]
def takeT {α : Type} {n : ℕ} (d : GatherDims ⟨1, ![n]⟩ ⟨2, ![n, 1]⟩ ⟨1, ![n]⟩)
    (hb0 : (⟨0, ![]⟩ : Shape).BroadcastsInDim ⟨1, ![n]⟩ ![])
    (hb1 : (⟨1, ![n]⟩ : Shape).BroadcastsInDim ⟨2, ![n, 1]⟩ ![0]) (cN : BitVec 32)
    (x : (⟨1, ![n]⟩ : Shape).Idx → α) (p : IVec ⟨1, ![n]⟩ 32) : (⟨1, ![n]⟩ : Shape).Idx → α :=
  Host.gather d x (broadcastInDim ⟨2, ![n, 1]⟩ ![0] hb1 (wrapIdx hb0 cN p))
theorem takeT_apply {α : Type} {n : ℕ} (d : GatherDims ⟨1, ![n]⟩ ⟨2, ![n, 1]⟩ ⟨1, ![n]⟩)
    (hcoll : d.collapsedSliceDims = [0]) (hob : d.operandBatchingDims = [])
    (hsim : d.startIndexMap = [0]) (hivd : d.indexVectorDim = 1)
    (hb0 : (⟨0, ![]⟩ : Shape).BroadcastsInDim ⟨1, ![n]⟩ ![])
    (hb1 : (⟨1, ![n]⟩ : Shape).BroadcastsInDim ⟨2, ![n, 1]⟩ ![0]) (cN : BitVec 32)
    (x : (⟨1, ![n]⟩ : Shape).Idx → α) (p : IVec ⟨1, ![n]⟩ 32) (k v : Fin n) (hn : n < 2 ^ 31)
    (hp : p (Shape.Idx.ofFin k) = BitVec.ofNat 32 v.val) :
    takeT d hb0 hb1 cN x p (Shape.Idx.ofFin k) = x (Shape.Idx.ofFin v) := by
  have hN : 0 < n := Fin.pos k
  have hvl : v.val < 2 ^ 31 := by have := v.isLt; omega
  unfold takeT
  rw [gather_take d hcoll hob hsim hivd x _ k hN]
  refine congrArg x (congrArg Shape.Idx.ofFin (Fin.ext ?_))
  show min (broadcastInDim ⟨2, ![n, 1]⟩ ![0] hb1 (wrapIdx hb0 cN p) (ixP k)).toInt.toNat (n - 1) = v.val
  rw [bcast_col1 hb1 _ k, wrapIdx_apply hb0 cN p _ v.val hvl hp, toInt_ofNat_small v.val hvl]
  have := v.isLt
  omega
def cmpKey : BitVec 32 × BitVec 32 → BitVec 32 × BitVec 32 → BitVec 1 := fun l r => IntOp.cmpi .slt l.1 r.1
def keyBefore {n : ℕ} (key : IVec ⟨1, ![n]⟩ 32) (k k' : Fin n) : Bool :=
  cmpKey (key (Shape.Idx.ofFin k), iotaInDim ⟨1, ![n]⟩ 32 0 (Shape.Idx.ofFin k))
    (key (Shape.Idx.ofFin k'), iotaInDim ⟨1, ![n]⟩ 32 0 (Shape.Idx.ofFin k')) == 1#1
def sortPerm {n : ℕ} (key : IVec ⟨1, ![n]⟩ 32) : Fin n → Fin n := sortedFrom (keyBefore key)
theorem sortPerm_bijective {n : ℕ} (key : IVec ⟨1, ![n]⟩ 32) : Function.Bijective (sortPerm key) :=
  ⟨sortedFrom_injective _, sortedFrom_surjective _⟩
theorem keyBefore_iff {n : ℕ} (key : IVec ⟨1, ![n]⟩ 32) (a b : Fin n) :
    keyBefore key a b = true ↔ (key (Shape.Idx.ofFin a)).toInt < (key (Shape.Idx.ofFin b)).toInt := by
  unfold keyBefore cmpKey
  rw [beq_iff_eq]
  exact IntOp.cmpi_slt
theorem keyBefore_false_iff {n : ℕ} (key : IVec ⟨1, ![n]⟩ 32) (a b : Fin n) :
    keyBefore key a b = false ↔ (key (Shape.Idx.ofFin b)).toInt ≤ (key (Shape.Idx.ofFin a)).toInt := by
  rw [← Bool.not_eq_true, keyBefore_iff]; omega
theorem sortPerm_sorted {n : ℕ} (key : IVec ⟨1, ![n]⟩ 32) (i j : Fin n) (hij : i ≤ j) :
    (key (Shape.Idx.ofFin (sortPerm key i))).toInt ≤ (key (Shape.Idx.ofFin (sortPerm key j))).toInt := by
  rcases Fin.lt_or_eq_of_le hij with hlt | heq
  · have h := sortedFrom_noInversion (keyBefore key) (keyBefore key)
      (fun a b hab => by rw [keyBefore_iff] at hab; rw [keyBefore_false_iff]; omega)
      (fun _ _ hab => hab)
      (fun a b c hab hbc => by rw [keyBefore_false_iff] at hab hbc ⊢; omega) i j hlt
    exact (keyBefore_false_iff key _ _).1 h
  · rw [heq]
def argsortT {n : ℕ} (key : IVec ⟨1, ![n]⟩ 32) : IVec ⟨1, ![n]⟩ 32 :=
  (Host.sort2 ⟨1, ![n]⟩ 0 cmpKey key (iotaInDim ⟨1, ![n]⟩ 32 0)).2
theorem argsortT_apply {n : ℕ} (key : IVec ⟨1, ![n]⟩ 32) (k : Fin n) :
    argsortT key (Shape.Idx.ofFin k) = BitVec.ofNat 32 (sortPerm key k).val := by
  unfold argsortT Host.sort2 sortPerm keyBefore
  simp [iotaInDim]
theorem foldl_miss {ι κ α : Type} (step : (κ → α) → ι → (κ → α)) (i : κ) (hit : ι → Prop)
    (hmiss : ∀ r a, ¬ hit a → step r a i = r i) :
    ∀ (l : List ι) (x : κ → α), (∀ a ∈ l, ¬ hit a) → (l.foldl step x) i = x i
  | [], _, _ => rfl
  | a :: l, x, h => by
    rw [List.foldl_cons, foldl_miss step i hit hmiss l _ fun b hb => h b (List.mem_cons_of_mem _ hb),
      hmiss x a (h a List.mem_cons_self)]
theorem foldl_point {ι κ α : Type} (step : (κ → α) → ι → (κ → α)) (i : κ) (c : α) (hit : ι → Prop)
    (hmiss : ∀ r a, ¬ hit a → step r a i = r i) (hhit : ∀ r a, hit a → step r a i = c) :
    ∀ (l : List ι) (x : κ → α), (∃ a ∈ l, hit a) → (l.foldl step x) i = c
  | [], _, h => by obtain ⟨a, ha, _⟩ := h; exact absurd ha List.not_mem_nil
  | a :: l, x, h => by
    rw [List.foldl_cons]
    by_cases hl : ∃ b ∈ l, hit b
    · exact foldl_point step i c hit hmiss hhit l _ hl
    · rw [foldl_miss step i hit hmiss l _ fun b hb hbh => hl ⟨b, hb, hbh⟩]
      obtain ⟨b, hb, hbh⟩ := h
      rcases List.mem_cons.1 hb with rfl | hb'
      · exact hhit x _ hbh
      · exact absurd ⟨b, hb', hbh⟩ hl
abbrev setDims (n : ℕ) (wf : ScatterDims.WF ⟨1, ![n]⟩ ⟨2, ![n, 1]⟩ ⟨1, ![n]⟩ [] [0] [0] 1) :
    ScatterDims ⟨1, ![n]⟩ ⟨2, ![n, 1]⟩ ⟨1, ![n]⟩ where
  updateWindowDims := []
  insertedWindowDims := [0]
  scatterDimsToOperandDims := [0]
  indexVectorDim := 1
  wf := wf
theorem resultIdx_set {n w : ℕ} (wf : ScatterDims.WF ⟨1, ![n]⟩ ⟨2, ![n, 1]⟩ ⟨1, ![n]⟩ [] [0] [0] 1)
    (idx : IVec ⟨2, ![n, 1]⟩ w) (k v : Fin n) (hv : (idx (ixP k)).toInt = (v.val : ℤ)) :
    (setDims n wf).resultIdx? (Shape.Idx.ofFin k) idx = some (Shape.Idx.ofFin v) := by
  have hw : (setDims n wf).window (Shape.Idx.ofFin k) (0 : Fin 1) = 0 := by
    unfold ScatterDims.window
    rw [dif_neg]
    intro hmem
    have hk : (setDims n wf).sKept = [] := rfl
    rw [hk] at hmem
    exact absurd hmem List.not_mem_nil
  have hs : (setDims n wf).start (Shape.Idx.ofFin k) idx (0 : Fin 1) = (idx (ixP k)).toInt := by
    unfold ScatterDims.start
    rw [dif_pos (show (0 : Fin 1) ∈ (setDims n wf).scatterDimsToOperandDims from List.mem_singleton.mpr rfl)]
    have hsi : (setDims n wf).siIdx (Shape.Idx.ofFin k)
        ⟨List.idxOf (0 : Fin 1) (setDims n wf).scatterDimsToOperandDims,
          List.idxOf_lt_length_iff.2 (List.mem_singleton.mpr rfl)⟩ = ixP k := by
      funext b; refine Fin.ext ?_
      match b with
      | ⟨0, _⟩ => rfl
      | ⟨1, _⟩ => rfl
    rw [hsi]
  have hsum : ∀ a : Fin 1, (setDims n wf).start (Shape.Idx.ofFin k) idx a
      + (((setDims n wf).window (Shape.Idx.ofFin k) a : ℕ) : ℤ) = (v.val : ℤ) := by
    intro a
    obtain rfl : a = 0 := Subsingleton.elim _ _
    rw [hs, hw, hv]; simp
  have hsize : ∀ a : Fin 1, (⟨1, ![n]⟩ : Shape).size a = n := by
    intro a; obtain rfl : a = 0 := Subsingleton.elim _ _; rfl
  unfold ScatterDims.resultIdx?
  rw [dif_pos (fun a => by rw [hsum a, hsize a]; have := v.isLt; omega)]
  refine congrArg some (funext fun a => Fin.ext ?_)
  show ((setDims n wf).start (Shape.Idx.ofFin k) idx a + (((setDims n wf).window (Shape.Idx.ofFin k) a : ℕ) : ℤ)).toNat = v.val
  rw [hsum a]; simp
theorem scatter_set_apply {n : ℕ} (wf : ScatterDims.WF ⟨1, ![n]⟩ ⟨2, ![n, 1]⟩ ⟨1, ![n]⟩ [] [0] [0] 1)
    (x upd : IVec ⟨1, ![n]⟩ 32) (idx : IVec ⟨2, ![n, 1]⟩ 32) (f : Fin n → Fin n) (hf : Function.Injective f)
    (hidx : ∀ k, (idx (ixP k)).toInt = ((f k).val : ℤ)) (k : Fin n) :
    Host.scatter (setDims n wf) (fun _ b => b) x idx upd (Shape.Idx.ofFin (f k)) = upd (Shape.Idx.ofFin k) := by
  unfold Host.scatter
  have hres : ∀ j : (⟨1, ![n]⟩ : Shape).Idx, (setDims n wf).resultIdx? j idx = some (Shape.Idx.ofFin (f (j 0))) := by
    intro j
    have hj : j = Shape.Idx.ofFin (j 0) := Shape.Idx.eq_ofFin j
    have e := resultIdx_set wf idx (j 0) (f (j 0)) (hidx (j 0))
    exact (congrArg (fun t => (setDims n wf).resultIdx? t idx) hj).trans e
  have hofFin_inj : ∀ a b : Fin n, (Shape.Idx.ofFin a : (⟨1, ![n]⟩ : Shape).Idx) = Shape.Idx.ofFin b → a = b := by
    intro a b hab
    have := congrFun hab 0
    rwa [Shape.Idx.ofFin_zero, Shape.Idx.ofFin_zero] at this
  refine foldl_point _ (Shape.Idx.ofFin (f k)) (upd (Shape.Idx.ofFin k))
    (fun a => (⟨1, ![n]⟩ : Shape).rowMajor.symm a = Shape.Idx.ofFin k) ?_ ?_ _ _
    ⟨(⟨1, ![n]⟩ : Shape).rowMajor (Shape.Idx.ofFin k), List.mem_finRange _, Equiv.symm_apply_apply _ _⟩
  · intro r a hna
    dsimp only
    rw [hres]
    dsimp only
    rw [if_neg]
    intro hEq
    apply hna
    have hk : ((⟨1, ![n]⟩ : Shape).rowMajor.symm a) 0 = k := (hf (hofFin_inj _ _ hEq)).symm
    exact (Shape.Idx.eq_ofFin ((⟨1, ![n]⟩ : Shape).rowMajor.symm a)).trans (congrArg Shape.Idx.ofFin hk)
  · intro r a ha
    dsimp only
    rw [hres, ha]
    dsimp only
    rw [Shape.Idx.ofFin_zero, if_pos rfl]
def invT {n : ℕ} (wf : ScatterDims.WF ⟨1, ![n]⟩ ⟨2, ![n, 1]⟩ ⟨1, ![n]⟩ [] [0] [0] 1)
    (hb0 : (⟨0, ![]⟩ : Shape).BroadcastsInDim ⟨1, ![n]⟩ ![])
    (hb1 : (⟨1, ![n]⟩ : Shape).BroadcastsInDim ⟨2, ![n, 1]⟩ ![0]) (cN : BitVec 32)
    (p : IVec ⟨1, ![n]⟩ 32) : IVec ⟨1, ![n]⟩ 32 :=
  Host.scatter (setDims n wf) (fun _ b => b) (broadcastInDim ⟨1, ![n]⟩ ![] hb0 (constantI ⟨0, ![]⟩ 32 0#32))
    (broadcastInDim ⟨2, ![n, 1]⟩ ![0] hb1 (wrapIdx hb0 cN p)) (iotaInDim ⟨1, ![n]⟩ 32 0)
theorem invT_apply {n : ℕ} (wf : ScatterDims.WF ⟨1, ![n]⟩ ⟨2, ![n, 1]⟩ ⟨1, ![n]⟩ [] [0] [0] 1)
    (hb0 : (⟨0, ![]⟩ : Shape).BroadcastsInDim ⟨1, ![n]⟩ ![])
    (hb1 : (⟨1, ![n]⟩ : Shape).BroadcastsInDim ⟨2, ![n, 1]⟩ ![0]) (cN : BitVec 32)
    (p : IVec ⟨1, ![n]⟩ 32) (f : Fin n → Fin n) (hf : Function.Injective f) (hn : n < 2 ^ 31)
    (hp : ∀ k, p (Shape.Idx.ofFin k) = BitVec.ofNat 32 (f k).val) (k : Fin n) :
    invT wf hb0 hb1 cN p (Shape.Idx.ofFin (f k)) = BitVec.ofNat 32 k.val := by
  unfold invT
  rw [scatter_set_apply wf _ _ _ f hf (fun k' => by
    have hvl : (f k').val < 2 ^ 31 := by have := (f k').isLt; omega
    rw [bcast_col1 hb1 _ k', wrapIdx_apply hb0 cN p _ (f k').val hvl (hp k'), toInt_ofNat_small _ hvl]) k]
  rfl
def sgn (x : BitVec 32) : BitVec 32 := if x = 0 then 0 else if x.msb then -1 else 1
theorem divsi_1024_toNat (x : BitVec 32) (hx : x.toNat < 2 ^ 31) :
    (IntOp.divsi .host x 1024#32).toNat = x.toNat / 1024 := by
  have hcorner : ¬ IntOp.SDivCorner x 1024#32 := by
    intro hc; rcases hc with hc | ⟨_, hc⟩ <;> exact absurd hc (by decide)
  have hm : x.msb = false := BitVec.msb_eq_false_iff_two_mul_lt.mpr (by omega)
  simp only [IntOp.divsi, if_neg hcorner, BitVec.sdiv_eq, hm, show (1024#32 : BitVec 32).msb = false from by decide,
    BitVec.udiv_eq, BitVec.toNat_udiv, BitVec.toNat_ofNat]
theorem floordiv_1024 (x : BitVec 32) (hx : x.toNat < 2 ^ 31) :
    (Scalar.select (IntOp.andi (IntOp.cmpi .ne (sgn x) (sgn 1024#32)) (IntOp.cmpi .ne (IntOp.remsi .host x 1024#32) 0#32))
      (IntOp.subi (IntOp.divsi .host x 1024#32) 1#32) (IntOp.divsi .host x 1024#32)).toInt
      = ((x.toNat / 1024 : ℕ) : ℤ) := by
  have hm : x.msb = false := BitVec.msb_eq_false_iff_two_mul_lt.mpr (by omega)
  have hc : ¬ IntOp.andi (IntOp.cmpi .ne (sgn x) (sgn 1024#32)) (IntOp.cmpi .ne (IntOp.remsi .host x 1024#32) 0#32) = 1 := by
    intro h0
    have h0' : IntOp.andi (IntOp.cmpi .ne (sgn x) (sgn 1024#32)) (IntOp.cmpi .ne (IntOp.remsi .host x 1024#32) 0#32) = 1#1 := h0
    rw [IntOp.andi_eq_one] at h0'
    obtain ⟨h1, h2⟩ := h0'
    by_cases hx0 : x = 0
    · subst hx0; revert h2; decide
    · have : sgn x = 1 := by unfold sgn; rw [if_neg hx0, hm]; rfl
      rw [this] at h1; revert h1; decide
  unfold Scalar.select
  rw [if_neg hc]
  have hd := divsi_1024_toNat x hx
  rw [toInt_eq_toNat_of_lt (by rw [hd]; omega), hd]
def floordivT {s : Shape} (hb : (⟨0, ![]⟩ : Shape).BroadcastsInDim s ![]) (x : IVec s 32) (c : IVec ⟨0, ![]⟩ 32) : IVec s 32 :=
  select
    (andi (cmpi .ne (signi x) (broadcastInDim s ![] hb (signi c)))
      (cmpi .ne (Host.remsi x (broadcastInDim s ![] hb c)) (broadcastInDim s ![] hb (constantI ⟨0, ![]⟩ 32 0#32))))
    (subi (Host.divsi x (broadcastInDim s ![] hb c)) (broadcastInDim s ![] hb (constantI ⟨0, ![]⟩ 32 1#32)))
    (Host.divsi x (broadcastInDim s ![] hb c))
theorem floordivT_apply {s : Shape} (hb : (⟨0, ![]⟩ : Shape).BroadcastsInDim s ![]) (x : IVec s 32) (i : s.Idx)
    (hx : (x i).toNat < 2 ^ 31) :
    (floordivT hb x (constantI ⟨0, ![]⟩ 32 1024#32) i).toInt = (((x i).toNat / 1024 : ℕ) : ℤ) :=
  floordiv_1024 (x i) hx
theorem pad1_apply {α : Type} {n N : ℕ} (hi : Fin 1 → ℕ) (x : (⟨1, ![n]⟩ : Shape).Idx → α) {u : Shape} (v : u.Idx → α)
    (h : (⟨1, ![n]⟩ : Shape).Pads ![0] hi ![0] ⟨1, ![N]⟩) (hu : 0 < u.numel) (k : Fin N) :
    pad ⟨1, ![N]⟩ ![0] hi ![0] x v h hu (Shape.Idx.ofFin k)
      = if hk : k.val < n then x (Shape.Idx.ofFin ⟨k.val, hk⟩) else v (Shape.Idx.first hu) := by
  by_cases hk : k.val < n
  · rw [dif_pos hk]
    refine pad_apply_of_inside ![0] hi ![0] x v h hu _ _ fun a => ?_
    obtain rfl : a = 0 := Subsingleton.elim _ _
    show k.val = 0 + k.val * (0 + 1)
    omega
  · rw [dif_neg hk]
    refine pad_apply_of_not_inside ![0] hi ![0] x v h hu _ 0 ?_
    rintro ⟨_, _, h3⟩
    apply hk
    have h3' : (k.val - 0) / (0 + 1) < n := h3
    simpa using h3'
theorem blockEntry {α : Type} (x : (⟨1, ![1200128]⟩ : Shape).Idx → α) (o : ℕ) (ho : o < 4096)
    (hc1 : (⟨1, ![1200128]⟩ : Shape).ShapeCasts ⟨2, ![293, 4096]⟩)
    (hs : (⟨2, ![293, 4096]⟩ : Shape).Slices ![0, o] ⟨2, ![293, 1]⟩)
    (hc2 : (⟨2, ![293, 1]⟩ : Shape).ShapeCasts ⟨1, ![293]⟩) (b : Fin 293) :
    shapeCast ⟨1, ![293]⟩ (extractStridedSlice ⟨2, ![293, 1]⟩ ![0, o] (shapeCast ⟨2, ![293, 4096]⟩ x hc1) hs) hc2
        (Shape.Idx.ofFin b)
      = x (Shape.Idx.ofFin ⟨4096 * b.val + o, by have := b.isLt; omega⟩) := by
  rw [shapeCast_apply _ hc2 (Shape.Idx.ofFin b) (ix2 b (0 : Fin 1)) (by
    rw [Shape.rowMajor_val_two, Shape.rowMajor_val_one]
    show b.val * 1 + 0 = b.val
    omega)]
  rw [extractStridedSlice_apply ![0, o] _ hs (ix2 b (0 : Fin 1)) (ix2 b (⟨o, ho⟩ : Fin 4096)) (fun a => by
    match a with
    | ⟨0, _⟩ => show b.val = 0 + b.val; omega
    | ⟨1, _⟩ => show o = o + 0; omega)]
  exact shapeCast_apply x hc1 _ _ (by
    rw [Shape.rowMajor_val_one, Shape.rowMajor_val_two]
    show 4096 * b.val + o = b.val * 4096 + o
    omega)
end Cert.HostMath
end
-- ==== Proof.KiHostStretch.lean ====
import proofs.«426118_j38259568672975_2_alg».proof.Proof.Gen.KernelIdeal.Regions
import proofs.«426118_j38259568672975_2_alg».proof.Proof.HostOpsMath
set_option maxRecDepth 1676
noncomputable section
namespace Cert.KernelIdeal.HostVal
open Idealize.ShloMosaic Idealize.ShloMosaic.TcCoe Idealize.SL.Sem
open Cert.KernelIdeal Cert.KernelIdeal.Gen
open Cert.HostMath (takeT argsortT invT floordivT sortPerm)
variable (m : (ℓ : Loc nD τ sig) → Buf (Elt Ideal) ℓ) (c : Dev nD)
theorem tref_ofBuf_toBuf {Val : EltTy → Type} {T : BufTy} (x : StableHlo.TRef sig T) (v : T.Contents Val) :
    x.ofBuf (x.toBuf v) = v := by
  obtain ⟨r, h, h1, h2⟩ := x
  subst h
  rfl
theorem fd8A (W : Valuation τ sig (Elt Ideal)) :
    ((StableHlo.after ((hostOps0_8 (F := Ideal)).take 3) W (Proc.devRef .tc main_call4_v0) : S_.Idx → BitVec 32) = (W main_c_5 : S_.Idx → BitVec 32))
    ∧ ((StableHlo.after ((hostOps0_8 (F := Ideal)).take 3) W (Proc.devRef .tc main_call4_v2) : S293.Idx → BitVec 32)
        = Host.divsi (W main_v20 : S293.Idx → BitVec 32) (broadcastInDim S293 ![] bcast_S_S293 (W main_c_5 : S_.Idx → BitVec 32)))
    ∧ (StableHlo.after ((hostOps0_8 (F := Ideal)).take 3) W (Proc.devRef .tc main_v20) = W main_v20) := by
  simp only [List.take_succ_cons, List.take_zero, List.drop_succ_cons, List.drop_zero]
  refine ⟨?_, ?_, ?_⟩
  all_goals (after_results <;> (try simp only [tref_ofBuf_toBuf]) <;> first | with_reducible rfl | congr 1 | rfl)
theorem fd8B (V : Valuation τ sig (Elt Ideal)) :
    ((StableHlo.after (((hostOps0_8 (F := Ideal)).drop 3).take 4) V (Proc.devRef .tc main_call4_v6) : S293.Idx → BitVec 1)
        = cmpi .ne (signi (V main_v20 : S293.Idx → BitVec 32))
        (broadcastInDim S293 ![] bcast_S_S293 (signi (V main_call4_v0 : S_.Idx → BitVec 32))))
    ∧ (StableHlo.after (((hostOps0_8 (F := Ideal)).drop 3).take 4) V (Proc.devRef .tc main_call4_v0) = V main_call4_v0)
    ∧ (StableHlo.after (((hostOps0_8 (F := Ideal)).drop 3).take 4) V (Proc.devRef .tc main_call4_v2) = V main_call4_v2)
    ∧ (StableHlo.after (((hostOps0_8 (F := Ideal)).drop 3).take 4) V (Proc.devRef .tc main_v20) = V main_v20) := by
  simp only [List.take_succ_cons, List.take_zero, List.drop_succ_cons, List.drop_zero]
  refine ⟨?_, ?_, ?_, ?_⟩
  all_goals (after_results <;> (try simp only [tref_ofBuf_toBuf]) <;> first | with_reducible rfl | congr 1 | rfl)
theorem fd8C (V : Valuation τ sig (Elt Ideal)) :
    ((StableHlo.after (((hostOps0_8 (F := Ideal)).drop 7).take 5) V (Proc.devRef .tc main_call4_v10) : S293.Idx → BitVec 1)
        = cmpi .ne (Host.remsi (V main_v20 : S293.Idx → BitVec 32) (broadcastInDim S293 ![] bcast_S_S293 (V main_call4_v0 : S_.Idx → BitVec 32)))
        (broadcastInDim S293 ![] bcast_S_S293 (constantI S_ 32 0#32)))
    ∧ (StableHlo.after (((hostOps0_8 (F := Ideal)).drop 7).take 5) V (Proc.devRef .tc main_call4_v2) = V main_call4_v2)
    ∧ (StableHlo.after (((hostOps0_8 (F := Ideal)).drop 7).take 5) V (Proc.devRef .tc main_call4_v6) = V main_call4_v6) := by
  simp only [List.take_succ_cons, List.take_zero, List.drop_succ_cons, List.drop_zero]
  refine ⟨?_, ?_, ?_⟩
  all_goals (after_results <;> (try simp only [tref_ofBuf_toBuf]) <;> first | with_reducible rfl | congr 1 | rfl)
theorem fd8D_out (V : Valuation τ sig (Elt Ideal)) :
    (StableHlo.after ((hostOps0_8 (F := Ideal)).drop 12) V (Proc.devRef .tc main_v21) : S293.Idx → BitVec 32)
      = select (andi (V main_call4_v6 : S293.Idx → BitVec 1) (V main_call4_v10 : S293.Idx → BitVec 1))
          (subi (V main_call4_v2 : S293.Idx → BitVec 32) (broadcastInDim S293 ![] bcast_S_S293 (constantI S_ 32 1#32)))
          (V main_call4_v2 : S293.Idx → BitVec 32) := by
  simp only [List.take_succ_cons, List.take_zero, List.drop_succ_cons, List.drop_zero]
  after_results
  try simp only [tref_ofBuf_toBuf]
  first | with_reducible rfl | congr 1 | rfl
theorem fd8_all (W : Valuation τ sig (Elt Ideal)) :
    (StableHlo.after (hostOps0_8 (F := Ideal)) W (Proc.devRef .tc main_v21) : S293.Idx → BitVec 32)
      = floordivT bcast_S_S293 (W main_v20 : S293.Idx → BitVec 32) (W main_c_5 : S_.Idx → BitVec 32) := by
  have hsplit : ((hostOps0_8 (F := Ideal)) : List (HloOp τ sig (Elt Ideal)))
      = ((((hostOps0_8 (F := Ideal)).take 3) ++ (((hostOps0_8 (F := Ideal)).drop 3).take 4)) ++ (((hostOps0_8 (F := Ideal)).drop 7).take 5)) ++ ((hostOps0_8 (F := Ideal)).drop 12) := by rfl
  rw [hsplit, StableHlo.after_append, StableHlo.after_append, StableHlo.after_append,
    fd8D_out, (fd8C _).1, (fd8C _).2.2, (fd8C _).2.1, (fd8B _).1, (fd8B _).2.1, (fd8B _).2.2.1, (fd8B _).2.2.2,
    (fd8A _).1, (fd8A _).2.1, (fd8A _).2.2]
  rfl
theorem fd10A (W : Valuation τ sig (Elt Ideal)) :
    ((StableHlo.after ((hostOps0_10 (F := Ideal)).take 3) W (Proc.devRef .tc main_call5_v0) : S_.Idx → BitVec 32) = (W main_c_6 : S_.Idx → BitVec 32))
    ∧ ((StableHlo.after ((hostOps0_10 (F := Ideal)).take 3) W (Proc.devRef .tc main_call5_v2) : S293.Idx → BitVec 32)
        = Host.divsi (W main_v23 : S293.Idx → BitVec 32) (broadcastInDim S293 ![] bcast_S_S293 (W main_c_6 : S_.Idx → BitVec 32)))
    ∧ (StableHlo.after ((hostOps0_10 (F := Ideal)).take 3) W (Proc.devRef .tc main_v23) = W main_v23) := by
  simp only [List.take_succ_cons, List.take_zero, List.drop_succ_cons, List.drop_zero]
  refine ⟨?_, ?_, ?_⟩
  all_goals (after_results <;> (try simp only [tref_ofBuf_toBuf]) <;> first | with_reducible rfl | congr 1 | rfl)
theorem fd10B (V : Valuation τ sig (Elt Ideal)) :
    ((StableHlo.after (((hostOps0_10 (F := Ideal)).drop 3).take 4) V (Proc.devRef .tc main_call5_v6) : S293.Idx → BitVec 1)
        = cmpi .ne (signi (V main_v23 : S293.Idx → BitVec 32))
        (broadcastInDim S293 ![] bcast_S_S293 (signi (V main_call5_v0 : S_.Idx → BitVec 32))))
    ∧ (StableHlo.after (((hostOps0_10 (F := Ideal)).drop 3).take 4) V (Proc.devRef .tc main_call5_v0) = V main_call5_v0)
    ∧ (StableHlo.after (((hostOps0_10 (F := Ideal)).drop 3).take 4) V (Proc.devRef .tc main_call5_v2) = V main_call5_v2)
    ∧ (StableHlo.after (((hostOps0_10 (F := Ideal)).drop 3).take 4) V (Proc.devRef .tc main_v23) = V main_v23) := by
  simp only [List.take_succ_cons, List.take_zero, List.drop_succ_cons, List.drop_zero]
  refine ⟨?_, ?_, ?_, ?_⟩
  all_goals (after_results <;> (try simp only [tref_ofBuf_toBuf]) <;> first | with_reducible rfl | congr 1 | rfl)
theorem fd10C (V : Valuation τ sig (Elt Ideal)) :
    ((StableHlo.after (((hostOps0_10 (F := Ideal)).drop 7).take 5) V (Proc.devRef .tc main_call5_v10) : S293.Idx → BitVec 1)
        = cmpi .ne (Host.remsi (V main_v23 : S293.Idx → BitVec 32) (broadcastInDim S293 ![] bcast_S_S293 (V main_call5_v0 : S_.Idx → BitVec 32)))
        (broadcastInDim S293 ![] bcast_S_S293 (constantI S_ 32 0#32)))
    ∧ (StableHlo.after (((hostOps0_10 (F := Ideal)).drop 7).take 5) V (Proc.devRef .tc main_call5_v2) = V main_call5_v2)
    ∧ (StableHlo.after (((hostOps0_10 (F := Ideal)).drop 7).take 5) V (Proc.devRef .tc main_call5_v6) = V main_call5_v6) := by
  simp only [List.take_succ_cons, List.take_zero, List.drop_succ_cons, List.drop_zero]
  refine ⟨?_, ?_, ?_⟩
  all_goals (after_results <;> (try simp only [tref_ofBuf_toBuf]) <;> first | with_reducible rfl | congr 1 | rfl)
theorem fd10D_out (V : Valuation τ sig (Elt Ideal)) :
    (StableHlo.after ((hostOps0_10 (F := Ideal)).drop 12) V (Proc.devRef .tc main_v24) : S293.Idx → BitVec 32)
      = select (andi (V main_call5_v6 : S293.Idx → BitVec 1) (V main_call5_v10 : S293.Idx → BitVec 1))
          (subi (V main_call5_v2 : S293.Idx → BitVec 32) (broadcastInDim S293 ![] bcast_S_S293 (constantI S_ 32 1#32)))
          (V main_call5_v2 : S293.Idx → BitVec 32) := by
  simp only [List.take_succ_cons, List.take_zero, List.drop_succ_cons, List.drop_zero]
  after_results
  try simp only [tref_ofBuf_toBuf]
  first | with_reducible rfl | congr 1 | rfl
theorem fd10_all (W : Valuation τ sig (Elt Ideal)) :
    (StableHlo.after (hostOps0_10 (F := Ideal)) W (Proc.devRef .tc main_v24) : S293.Idx → BitVec 32)
      = floordivT bcast_S_S293 (W main_v23 : S293.Idx → BitVec 32) (W main_c_6 : S_.Idx → BitVec 32) := by
  have hsplit : ((hostOps0_10 (F := Ideal)) : List (HloOp τ sig (Elt Ideal)))
      = ((((hostOps0_10 (F := Ideal)).take 3) ++ (((hostOps0_10 (F := Ideal)).drop 3).take 4)) ++ (((hostOps0_10 (F := Ideal)).drop 7).take 5)) ++ ((hostOps0_10 (F := Ideal)).drop 12) := by rfl
  rw [hsplit, StableHlo.after_append, StableHlo.after_append, StableHlo.after_append,
    fd10D_out, (fd10C _).1, (fd10C _).2.2, (fd10C _).2.1, (fd10B _).1, (fd10B _).2.1, (fd10B _).2.2.1, (fd10B _).2.2.2,
    (fd10A _).1, (fd10A _).2.1, (fd10A _).2.2]
  rfl
theorem V1_c : (V1 m c main_c : S_.Idx → BitVec 32) = constantI S_ 32 150527#32 := by
  show StableHlo.after hostOps0 (V0 m c) (Proc.devRef .tc main_c) = _
  generalize V0 m c = W
  after_results
theorem V2_v0 : (V2 m c main_v0 : S1200128.Idx → BitVec 32)
    = pad S1200128 ![0] ![128] ![0] (V1 m c main_arg1 : S1200000.Idx → BitVec 32) (V1 m c main_c : S_.Idx → BitVec 32)
        pads_S1200000_S1200128_01280 h_S_ := by
  show StableHlo.after hostOps0_1 (V1 m c) (Proc.devRef .tc main_v0) = _
  generalize V1 m c = W
  after_results
  rfl
theorem V3_c0 : (V3 m c main_c_0 : S_.Idx → BitVec 32) = constantI S_ 32 150527#32 := by
  show StableHlo.after hostOps0_2 (V2 m c) (Proc.devRef .tc main_c_0) = _
  generalize V2 m c = W
  after_results
theorem V4_v1 : (V4 m c main_v1 : S1200128.Idx → BitVec 32)
    = pad S1200128 ![0] ![128] ![0] (V3 m c main_arg0 : S1200000.Idx → BitVec 32) (V3 m c main_c_0 : S_.Idx → BitVec 32)
        pads_S1200000_S1200128_01280 h_S_ := by
  show StableHlo.after hostOps0_3 (V3 m c) (Proc.devRef .tc main_v1) = _
  generalize V3 m c = W
  after_results
  rfl
theorem V5_cst : (V5 m c main_cst : S_.Idx → EReal) = constant (F := Ideal) S_ .f32 0x00000000#32 := by
  show StableHlo.after hostOps0_4 (V4 m c) (Proc.devRef .tc main_cst) = _
  generalize V4 m c = W
  after_results
theorem V6_v2 : (V6 m c main_v2 : S1200128.Idx → EReal)
    = pad S1200128 ![0] ![128] ![0] (V5 m c main_arg2 : S1200000.Idx → EReal) (V5 m c main_cst : S_.Idx → EReal)
        pads_S1200000_S1200128_01280 h_S_ := by
  show StableHlo.after hostOps0_5 (V5 m c) (Proc.devRef .tc main_v2) = _
  generalize V5 m c = W
  after_results
  rfl
theorem V7_v3 : (V7 m c main_v3 : S1200128.Idx → BitVec 32) = argsortT (V6 m c main_v0 : S1200128.Idx → BitVec 32) := by
  show StableHlo.after hostOps0_6 (V6 m c) (Proc.devRef .tc main_v3) = _
  generalize V6 m c = W
  after_results
  rfl
theorem V8_v10 : (V8 m c main_v10 : S1200128.Idx → BitVec 32)
    = takeT gather_S1200128_S1200128x1_S1200128_n_0_n_n_0_1_1 bcast_S_S1200128 bcast_S1200128_S1200128x1_0 1200128#32
        (V7 m c main_v0 : S1200128.Idx → BitVec 32) (V7 m c main_v3 : S1200128.Idx → BitVec 32) := by
  show StableHlo.after hostOps0_7 (V7 m c) (Proc.devRef .tc main_v10) = _
  generalize V7 m c = W
  after_results
  rfl
theorem V8_c5 : (V8 m c main_c_5 : S_.Idx → BitVec 32) = constantI S_ 32 1024#32 := by
  show StableHlo.after hostOps0_7 (V7 m c) (Proc.devRef .tc main_c_5) = _
  generalize V7 m c = W
  after_results
theorem V9_v21 : (V9 m c main_v21 : S293.Idx → BitVec 32)
    = floordivT bcast_S_S293 (V8 m c main_v20 : S293.Idx → BitVec 32) (V8 m c main_c_5 : S_.Idx → BitVec 32) := by
  show StableHlo.after hostOps0_8 (V8 m c) (Proc.devRef .tc main_v21) = _
  generalize V8 m c = W
  exact fd8_all W
theorem V10_v23 : (V10 m c main_v23 : S293.Idx → BitVec 32)
    = shapeCast S293 (extractStridedSlice S293x1 ![0, 4095] (V9 m c main_v18 : S293x4096.Idx → BitVec 32)
        slices_S293x4096_S293x1_0_4095) shapeCasts_S293x1_S293 := by
  show StableHlo.after hostOps0_9 (V9 m c) (Proc.devRef .tc main_v23) = _
  generalize V9 m c = W
  after_results
  rfl
theorem V10_c6 : (V10 m c main_c_6 : S_.Idx → BitVec 32) = constantI S_ 32 1024#32 := by
  show StableHlo.after hostOps0_9 (V9 m c) (Proc.devRef .tc main_c_6) = _
  generalize V9 m c = W
  after_results
theorem V11_v24 : (V11 m c main_v24 : S293.Idx → BitVec 32)
    = floordivT bcast_S_S293 (V10 m c main_v23 : S293.Idx → BitVec 32) (V10 m c main_c_6 : S_.Idx → BitVec 32) := by
  show StableHlo.after hostOps0_10 (V10 m c) (Proc.devRef .tc main_v24) = _
  generalize V10 m c = W
  exact fd10_all W
theorem V12_v25 : (V12 m c main_v25 : S1200128.Idx → BitVec 32) = argsortT (V11 m c main_v1 : S1200128.Idx → BitVec 32) := by
  show StableHlo.after hostOps0_11 (V11 m c) (Proc.devRef .tc main_v25) = _
  generalize V11 m c = W
  after_results
  rfl
theorem V13_v32 : (V13 m c main_v32 : S1200128.Idx → BitVec 32)
    = takeT gather_S1200128_S1200128x1_S1200128_n_0_n_n_0_1_1 bcast_S_S1200128 bcast_S1200128_S1200128x1_0 1200128#32
        (V12 m c main_v1 : S1200128.Idx → BitVec 32) (V12 m c main_v25 : S1200128.Idx → BitVec 32) := by
  show StableHlo.after hostOps0_12 (V12 m c) (Proc.devRef .tc main_v32) = _
  generalize V12 m c = W
  after_results
  rfl
theorem V13_v33 : (V13 m c main_v33 : S293x4096.Idx → BitVec 32)
    = shapeCast S293x4096 (takeT gather_S1200128_S1200128x1_S1200128_n_0_n_n_0_1_1 bcast_S_S1200128 bcast_S1200128_S1200128x1_0 1200128#32
        (V12 m c main_v1 : S1200128.Idx → BitVec 32) (V12 m c main_v25 : S1200128.Idx → BitVec 32)) shapeCasts_S1200128_S293x4096 := by
  show StableHlo.after hostOps0_12 (V12 m c) (Proc.devRef .tc main_v33) = _
  generalize V12 m c = W
  after_results
  rfl
theorem V13_v35 : (V13 m c main_v35 : S293.Idx → BitVec 32)
    = shapeCast S293 (extractStridedSlice S293x1 ![0, 0] (shapeCast S293x4096
        (takeT gather_S1200128_S1200128x1_S1200128_n_0_n_n_0_1_1 bcast_S_S1200128 bcast_S1200128_S1200128x1_0 1200128#32
          (V12 m c main_v1 : S1200128.Idx → BitVec 32) (V12 m c main_v25 : S1200128.Idx → BitVec 32))
        shapeCasts_S1200128_S293x4096) slices_S293x4096_S293x1_0_0) shapeCasts_S293x1_S293 := by
  show StableHlo.after hostOps0_12 (V12 m c) (Proc.devRef .tc main_v35) = _
  generalize V12 m c = W
  after_results
  rfl
theorem V13_c9 : (V13 m c main_c_9 : S_.Idx → BitVec 32) = constantI S_ 32 1024#32 := by
  show StableHlo.after hostOps0_12 (V12 m c) (Proc.devRef .tc main_c_9) = _
  generalize V12 m c = W
  after_results
theorem V15_v38 : (V15 m c main_v38 : S293.Idx → BitVec 32)
    = shapeCast S293 (extractStridedSlice S293x1 ![0, 4095] (V14 m c main_v33 : S293x4096.Idx → BitVec 32)
        slices_S293x4096_S293x1_0_4095) shapeCasts_S293x1_S293 := by
  show StableHlo.after hostOps0_14 (V14 m c) (Proc.devRef .tc main_v38) = _
  generalize V14 m c = W
  after_results
  rfl
theorem V15_c10 : (V15 m c main_c_10 : S_.Idx → BitVec 32) = constantI S_ 32 1024#32 := by
  show StableHlo.after hostOps0_14 (V14 m c) (Proc.devRef .tc main_c_10) = _
  generalize V14 m c = W
  after_results
end Cert.KernelIdeal.HostVal
end
-- ==== Proof.HostTakeMath.lean ====
import Idealize.ShloMosaic.Lib.StableHlo.Predicate
import Idealize.ShloMosaic.Lib.ValueIdx
noncomputable section
namespace Cert.HostMath
open Idealize.ShloMosaic Idealize.ShloMosaic.ValueIdx Idealize.ShloMosaic.StableHlo.Predicate
theorem gather_cols_apply {α : Type} {R n : ℕ} (d : GatherDims ⟨2, ![R, n]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1) (hss : d.sliceSizes = ![R, 1])
    (X : (⟨2, ![R, n]⟩ : Shape).Idx → α) (idx : IVec ⟨2, ![n, 1]⟩ 32) (r : Fin R) (k v : Fin n)
    (hv : (idx (ixP k)).toInt = (v.val : ℤ)) :
    Host.gather d X idx (ix2 r k) = X (ix2 r v) := by
  unfold Host.gather
  congr 1
  funext a
  apply Fin.ext
  have hb : ∀ a : Fin 2, a ∉ d.operandBatchingDims := by
    intro a; rw [hob]; exact List.not_mem_nil
  have hoffAll : ∀ x ∈ d.offsetDims, x = (0 : Fin 2) := by
    rw [hoff]; intro x hx; exact List.mem_singleton.mp hx
  have hbatchAll : ∀ x ∈ d.batchDims, x = (1 : Fin 2) := by
    unfold GatherDims.batchDims
    rw [hoff]
    intro x hx
    have hx' : x ∉ [(0 : Fin 2)] := by simpa [Shape.kept, List.mem_filter] using hx
    have h2 : x.val < 2 := x.isLt
    have h0 : x.val ≠ 0 := fun h => hx' (List.mem_singleton.mpr (Fin.ext h))
    exact Fin.ext (by show x.val = 1; omega)
  have ha : a = (0 : Fin 2) ∨ a = (1 : Fin 2) := by
    have h2 : a.val < 2 := a.isLt
    rcases Nat.lt_or_ge a.val 1 with h | h
    · left; exact Fin.ext (by show a.val = 0; omega)
    · right; exact Fin.ext (by show a.val = 1; omega)
  rcases ha with rfl | rfl
  · have hm : (0 : Fin 2) ∉ d.startIndexMap := by rw [hsim]; simp
    have hk : (0 : Fin 2) ∈ d.sKept := by rw [GatherDims.mem_sKept, hcoll, hob]; simp
    simp only [GatherDims.operandIdx, GatherDims.batchCoord_eq_zero _ _ _ (hb _), GatherDims.start, dif_neg hm,
      Nat.add_zero, Nat.zero_add]
    unfold GatherDims.offCoord
    rw [dif_pos hk]
    rw [hoffAll _ (List.getElem_mem _)]
  · have hm : (1 : Fin 2) ∈ d.startIndexMap := by rw [hsim]; exact List.mem_singleton.mpr rfl
    have hk : (1 : Fin 2) ∉ d.sKept := by rw [GatherDims.mem_sKept, hcoll]; simp
    have hsl : d.sliceSizes 1 = 1 := d.slice_collapsed 1 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (n - d.sliceSizes 1) = v.val
    rw [hsl]
    have hsi : d.siIdx (ix2 r k) ⟨List.idxOf (1 : Fin 2) d.startIndexMap, List.idxOf_lt_length_iff.2 hm⟩ = ixP k := by
      funext b
      match b with
      | ⟨0, _⟩ =>
        unfold GatherDims.siIdx
        rw [dif_neg (by rw [hivd]; simp)]
        unfold GatherDims.siCoord
        apply Fin.ext
        simp only [Fin.val_cast]
        rw [hbatchAll _ (List.getElem_mem _)]
      | ⟨1, _⟩ =>
        unfold GatherDims.siIdx
        rw [dif_pos (by rw [hivd])]
        apply Fin.ext
        show List.idxOf (1 : Fin 2) d.startIndexMap = 0
        rw [hsim]; simp
    rw [hsi, hv]
    have := v.isLt
    simp only [Int.toNat_natCast]
    omega
theorem reduce_andi_unit {n : ℕ} (x : IVec ⟨2, ![n, 1]⟩ 1) (init : IVec ⟨0, ![]⟩ 1)
    (hi : init = constantI ⟨0, ![]⟩ 1 1#1)
    (h : (⟨2, ![n, 1]⟩ : Shape).ReducesTo [1] ⟨1, ![n]⟩) (hu : 0 < (⟨0, ![]⟩ : Shape).numel) (k : Fin n)
    (hx : x (ixP k) = 1#1) :
    Host.reduce IntOp.andi x init h hu (Shape.Idx.ofFin k) = 1#1 := by
  rw [Host.reduce_eq_fold]
  have hset : (Finset.univ.filter fun i : (⟨2, ![n, 1]⟩ : Shape).Idx => h.drop i = Shape.Idx.ofFin k) = {ixP k} := by
    ext i
    rw [Finset.mem_filter, Finset.mem_singleton]
    constructor
    · rintro ⟨_, hd⟩
      have h0 : ((h.drop i (0 : Fin 1) : Fin n) : ℕ) = (i (0 : Fin 2) : ℕ) :=
        Shape.ReducesTo.drop_apply_val_of_eq h i (0 : Fin 1) (0 : Fin 2) (by simp [Shape.kept]) (by first | rfl | (simp [Shape.kept]; decide))
      rw [hd] at h0
      funext b
      have hb : b = (0 : Fin 2) ∨ b = (1 : Fin 2) := by
        have h2 : b.val < 2 := b.isLt
        rcases Nat.lt_or_ge b.val 1 with hlt | hge
        · left; exact Fin.ext (by show b.val = 0; omega)
        · right; exact Fin.ext (by show b.val = 1; omega)
      rcases hb with rfl | rfl
      · apply Fin.ext
        show (i (0 : Fin 2)).val = k.val
        rw [← h0]
        rfl
      · exact Subsingleton.elim (α := Fin 1) _ _
    · intro hik
      refine ⟨Finset.mem_univ _, ?_⟩
      subst hik
      funext b
      obtain rfl : b = (0 : Fin 1) := Subsingleton.elim _ _
      apply Fin.ext
      exact Shape.ReducesTo.drop_apply_val_of_eq h (ixP k) (0 : Fin 1) (0 : Fin 2) (by simp [Shape.kept]) (by first | rfl | (simp [Shape.kept]; decide))
  rw [hset, Finset.fold_singleton, hx, hi]
  show IntOp.andi 1#1 1#1 = 1#1
  decide
theorem bcast_row_apply {α : Type} {R n : ℕ} (h : (⟨1, ![n]⟩ : Shape).BroadcastsInDim ⟨2, ![R, n]⟩ ![1])
    (v : (⟨1, ![n]⟩ : Shape).Idx → α) (r : Fin R) (k : Fin n) :
    broadcastInDim ⟨2, ![R, n]⟩ ![1] h v (ix2 r k) = v (Shape.Idx.ofFin k) := by
  simp only [broadcastInDim]
  congr 1
  funext a
  have ha : a = 0 := Subsingleton.elim _ _
  subst ha
  apply Fin.ext
  have hk := k.isLt
  split
  · next h1 => change n = 1 at h1; show (0 : Nat) = k.val; omega
  · rfl
end Cert.HostMath
end
-- ==== Proof.KiReindex.lean ====
import proofs.«426118_j38259568672975_2_alg».proof.Proof.Gen.KernelIdeal.Regions
import proofs.«426118_j38259568672975_2_alg».proof.Proof.SpmmMath
import proofs.«426118_j38259568672975_2_alg».proof.Proof.HostOpsMath
import proofs.«426118_j38259568672975_2_alg».proof.Proof.HostTakeMath
set_option maxRecDepth 1676
noncomputable section
namespace Cert.KernelIdeal.Hand
open Idealize.ShloMosaic Idealize.ShloMosaic.TcCoe Idealize.SL.Sem
open Idealize.ShloMosaic.ValueIdx Idealize.ShloMosaic.StableHlo.Predicate
open Cert.KernelIdeal Cert.KernelIdeal.Gen
open Cert.Spmm (NE NN)
open Cert.HostMath
abbrev pairIx2 {a b : Nat} (i : Fin a) (j : Fin b) : (⟨2, ![a, b]⟩ : Shape).Idx := Idealize.ShloMosaic.ValueIdx.ix2 i j
def take2P (X : S64x1200128.Idx → EReal) (p : IVec S1200128 32) : S64x1200128.Idx → EReal :=
  select
    (broadcastInDim S64x1200128 ![1] bcast_S1200128_S64x1200128_1
      (Host.reduce IntOp.andi
        (andi
          (cmpi .sge (broadcastInDim S1200128x1 ![0] bcast_S1200128_S1200128x1_0 (wrapIdx bcast_S_S1200128 1200128#32 p))
            (broadcastInDim S1200128x1 ![] bcast_S_S1200128x1 (constantI S_ 32 0#32)))
          (cmpi .sle (broadcastInDim S1200128x1 ![0] bcast_S1200128_S1200128x1_0 (wrapIdx bcast_S_S1200128 1200128#32 p))
            (broadcastInDim S1200128x1 ![0, 1] bcast_S1x1_S1200128x1_0_1
              (broadcastInDim S1x1 ![1] bcast_S1_S1x1_1 (constantI S1 32 1200127#32)))))
        (constantI S_ 1 1#1) reducesTo_S1200128x1_S1200128_d1 h_S_))
    (Host.gather gather_S64x1200128_S1200128x1_S64x1200128_0_1_n_n_1_1_641 X
      (broadcastInDim S1200128x1 ![0] bcast_S1200128_S1200128x1_0 (wrapIdx bcast_S_S1200128 1200128#32 p)))
    (broadcastInDim S64x1200128 ![] bcast_S_S64x1200128 (constant (F := Ideal) S_ .f32 0x7FC00000#32))
theorem take2P_apply (X : S64x1200128.Idx → EReal) (p : IVec S1200128 32) (g : Fin NE → Fin NE)
    (hp : ∀ k, p (Shape.Idx.ofFin k) = BitVec.ofNat 32 (g k).val) (d : Fin 64) (k : Fin NE) :
    take2P X p (pairIx2 d k) = X (pairIx2 d (g k)) := by
  have hgk : (g k).val < 1200128 := (g k).isLt
  have hvl : (g k).val < 2 ^ 31 := by omega
  have hidx : (broadcastInDim S1200128x1 ![0] bcast_S1200128_S1200128x1_0 (wrapIdx bcast_S_S1200128 1200128#32 p)) (ixP k)
      = BitVec.ofNat 32 (g k).val := by
    rw [bcast_col1 bcast_S1200128_S1200128x1_0 _ k, wrapIdx_apply bcast_S_S1200128 1200128#32 p _ (g k).val hvl (hp k)]
  have hint : ((broadcastInDim S1200128x1 ![0] bcast_S1200128_S1200128x1_0 (wrapIdx bcast_S_S1200128 1200128#32 p)) (ixP k)).toInt
      = ((g k).val : ℤ) := by rw [hidx, toInt_ofNat_small _ hvl]
  unfold take2P
  show Scalar.select _ _ _ = _
  rw [bcast_row_apply, reduce_andi_unit _ _ rfl _ _ k (by
    show IntOp.andi (IntOp.cmpi .sge _ _) (IntOp.cmpi .sle _ _) = 1#1
    rw [IntOp.andi_eq_one, IntOp.cmpi_sge, IntOp.cmpi_sle, hint]
    have z0 : (0#32 : BitVec 32).toInt = 0 := by decide
    have zM : (1200127#32 : BitVec 32).toInt = 1200127 := by decide
    constructor
    · show (0#32 : BitVec 32).toInt ≤ _; omega
    · show _ ≤ (1200127#32 : BitVec 32).toInt; omega)]
  rw [select_one]
  exact gather_cols_apply _ rfl rfl rfl rfl rfl rfl X _ d k (g k) hint
theorem ofBuf_toBuf {Val : EltTy → Type} {T : BufTy} (x : StableHlo.TRef sig T) (v : T.Contents Val) :
    x.ofBuf (x.toBuf v) = v := by
  obtain ⟨r, h, h1, h2⟩ := x
  subst h
  rfl
theorem chunkA1 (W : Valuation τ sig (Elt Ideal)) :
    ((StableHlo.after ((hostOps1 (F := Ideal)).take 8) W (Proc.devRef .tc main_call10_v5) : S1200128x1.Idx → BitVec 32)
        = broadcastInDim S1200128x1 ![0] bcast_S1200128_S1200128x1_0 (wrapIdx bcast_S_S1200128 1200128#32 (W main_v55 : S1200128.Idx → BitVec 32)))
    ∧ (StableHlo.after ((hostOps1 (F := Ideal)).take 8) W (Proc.devRef .tc main_v60) = W main_v60) := by
  simp only [List.take_succ_cons, List.take_zero]
  refine ⟨?_, ?_⟩
  all_goals (after_results <;> first | with_reducible rfl | (simp only [ofBuf_toBuf]; congr 1) | rfl)
theorem chunkB1 (V : Valuation τ sig (Elt Ideal)) :
    ((StableHlo.after (((hostOps1 (F := Ideal)).drop 8).take 10) V (Proc.devRef .tc main_call10_v12) : S1200128.Idx → BitVec 1)
        = Host.reduce IntOp.andi
        (andi
        (cmpi .sge (V main_call10_v5 : S1200128x1.Idx → BitVec 32)
        (broadcastInDim S1200128x1 ![] bcast_S_S1200128x1 (constantI S_ 32 0#32)))
        (cmpi .sle (V main_call10_v5 : S1200128x1.Idx → BitVec 32)
        (broadcastInDim S1200128x1 ![0, 1] bcast_S1x1_S1200128x1_0_1
        (broadcastInDim S1x1 ![1] bcast_S1_S1x1_1 (constantI S1 32 1200127#32)))))
        (constantI S_ 1 1#1) reducesTo_S1200128x1_S1200128_d1 h_S_)
    ∧ (StableHlo.after (((hostOps1 (F := Ideal)).drop 8).take 10) V (Proc.devRef .tc main_call10_v5) = V main_call10_v5)
    ∧ (StableHlo.after (((hostOps1 (F := Ideal)).drop 8).take 10) V (Proc.devRef .tc main_v60) = V main_v60) := by
  simp only [List.drop_succ_cons, List.drop_zero, List.take_succ_cons, List.take_zero]
  refine ⟨?_, ?_, ?_⟩
  all_goals (after_results <;> first | with_reducible rfl | (simp only [ofBuf_toBuf]; congr 1) | rfl)
theorem chunkC1_v61 (V : Valuation τ sig (Elt Ideal)) :
    (StableHlo.after ((hostOps1 (F := Ideal)).drop 18) V (Proc.devRef .tc main_v61) : S64x1200128.Idx → EReal)
      = select
          (broadcastInDim S64x1200128 ![1] bcast_S1200128_S64x1200128_1 (V main_call10_v12 : S1200128.Idx → BitVec 1))
          (Host.gather gather_S64x1200128_S1200128x1_S64x1200128_0_1_n_n_1_1_641 (V main_v60 : S64x1200128.Idx → EReal)
            (V main_call10_v5 : S1200128x1.Idx → BitVec 32))
          (broadcastInDim S64x1200128 ![] bcast_S_S64x1200128 (constant (F := Ideal) S_ .f32 0x7FC00000#32)) := by
  simp only [List.drop_succ_cons, List.drop_zero]
  after_results
  rfl
theorem stretch1_v61 (W : Valuation τ sig (Elt Ideal)) :
    (StableHlo.after hostOps1 W (Proc.devRef .tc main_v61) : S64x1200128.Idx → EReal)
      = take2P (W main_v60 : S64x1200128.Idx → EReal) (W main_v55 : S1200128.Idx → BitVec 32) := by
  have hsplit : (hostOps1 (F := Ideal) : List (HloOp τ sig (Elt Ideal)))
      = ((hostOps1 (F := Ideal)).take 8 ++ ((hostOps1 (F := Ideal)).drop 8).take 10) ++ (hostOps1 (F := Ideal)).drop 18 := by
    rfl
  rw [hsplit, StableHlo.after_append, StableHlo.after_append, chunkC1_v61, (chunkB1 _).1, (chunkB1 _).2.2, (chunkB1 _).2.1,
    (chunkA1 _).1, (chunkA1 _).2]
  rfl
theorem chunkA3 (W : Valuation τ sig (Elt Ideal)) :
    ((StableHlo.after ((hostOps3 (F := Ideal)).take 8) W (Proc.devRef .tc main_call11_v5) : S1200128x1.Idx → BitVec 32)
        = broadcastInDim S1200128x1 ![0] bcast_S1200128_S1200128x1_0 (wrapIdx bcast_S_S1200128 1200128#32 (W main_v55 : S1200128.Idx → BitVec 32)))
    ∧ (StableHlo.after ((hostOps3 (F := Ideal)).take 8) W (Proc.devRef .tc main_v65) = W main_v65) := by
  simp only [List.take_succ_cons, List.take_zero]
  refine ⟨?_, ?_⟩
  all_goals (after_results <;> first | with_reducible rfl | (simp only [ofBuf_toBuf]; congr 1) | rfl)
theorem chunkB3 (V : Valuation τ sig (Elt Ideal)) :
    ((StableHlo.after (((hostOps3 (F := Ideal)).drop 8).take 10) V (Proc.devRef .tc main_call11_v12) : S1200128.Idx → BitVec 1)
        = Host.reduce IntOp.andi
        (andi
        (cmpi .sge (V main_call11_v5 : S1200128x1.Idx → BitVec 32)
        (broadcastInDim S1200128x1 ![] bcast_S_S1200128x1 (constantI S_ 32 0#32)))
        (cmpi .sle (V main_call11_v5 : S1200128x1.Idx → BitVec 32)
        (broadcastInDim S1200128x1 ![0, 1] bcast_S1x1_S1200128x1_0_1
        (broadcastInDim S1x1 ![1] bcast_S1_S1x1_1 (constantI S1 32 1200127#32)))))
        (constantI S_ 1 1#1) reducesTo_S1200128x1_S1200128_d1 h_S_)
    ∧ (StableHlo.after (((hostOps3 (F := Ideal)).drop 8).take 10) V (Proc.devRef .tc main_call11_v5) = V main_call11_v5)
    ∧ (StableHlo.after (((hostOps3 (F := Ideal)).drop 8).take 10) V (Proc.devRef .tc main_v65) = V main_v65) := by
  simp only [List.drop_succ_cons, List.drop_zero, List.take_succ_cons, List.take_zero]
  refine ⟨?_, ?_, ?_⟩
  all_goals (after_results <;> first | with_reducible rfl | (simp only [ofBuf_toBuf]; congr 1) | rfl)
theorem chunkC3_v61 (V : Valuation τ sig (Elt Ideal)) :
    (StableHlo.after ((hostOps3 (F := Ideal)).drop 18) V (Proc.devRef .tc main_v66) : S64x1200128.Idx → EReal)
      = select
          (broadcastInDim S64x1200128 ![1] bcast_S1200128_S64x1200128_1 (V main_call11_v12 : S1200128.Idx → BitVec 1))
          (Host.gather gather_S64x1200128_S1200128x1_S64x1200128_0_1_n_n_1_1_641 (V main_v65 : S64x1200128.Idx → EReal)
            (V main_call11_v5 : S1200128x1.Idx → BitVec 32))
          (broadcastInDim S64x1200128 ![] bcast_S_S64x1200128 (constant (F := Ideal) S_ .f32 0x7FC00000#32)) := by
  simp only [List.drop_succ_cons, List.drop_zero]
  after_results
  rfl
theorem stretch3_v66 (W : Valuation τ sig (Elt Ideal)) :
    (StableHlo.after hostOps3 W (Proc.devRef .tc main_v66) : S64x1200128.Idx → EReal)
      = take2P (W main_v65 : S64x1200128.Idx → EReal) (W main_v55 : S1200128.Idx → BitVec 32) := by
  have hsplit : (hostOps3 (F := Ideal) : List (HloOp τ sig (Elt Ideal)))
      = ((hostOps3 (F := Ideal)).take 8 ++ ((hostOps3 (F := Ideal)).drop 8).take 10) ++ (hostOps3 (F := Ideal)).drop 18 := by
    rfl
  rw [hsplit, StableHlo.after_append, StableHlo.after_append, chunkC3_v61, (chunkB3 _).1, (chunkB3 _).2.2, (chunkB3 _).2.1,
    (chunkA3 _).1, (chunkA3 _).2]
  rfl
theorem chunkA5 (W : Valuation τ sig (Elt Ideal)) :
    ((StableHlo.after ((hostOps5 (F := Ideal)).take 8) W (Proc.devRef .tc main_call12_v5) : S1200128x1.Idx → BitVec 32)
        = broadcastInDim S1200128x1 ![0] bcast_S1200128_S1200128x1_0 (wrapIdx bcast_S_S1200128 1200128#32 (W main_v55 : S1200128.Idx → BitVec 32)))
    ∧ (StableHlo.after ((hostOps5 (F := Ideal)).take 8) W (Proc.devRef .tc main_v70) = W main_v70) := by
  simp only [List.take_succ_cons, List.take_zero]
  refine ⟨?_, ?_⟩
  all_goals (after_results <;> first | with_reducible rfl | (simp only [ofBuf_toBuf]; congr 1) | rfl)
theorem chunkB5 (V : Valuation τ sig (Elt Ideal)) :
    ((StableHlo.after (((hostOps5 (F := Ideal)).drop 8).take 10) V (Proc.devRef .tc main_call12_v12) : S1200128.Idx → BitVec 1)
        = Host.reduce IntOp.andi
        (andi
        (cmpi .sge (V main_call12_v5 : S1200128x1.Idx → BitVec 32)
        (broadcastInDim S1200128x1 ![] bcast_S_S1200128x1 (constantI S_ 32 0#32)))
        (cmpi .sle (V main_call12_v5 : S1200128x1.Idx → BitVec 32)
        (broadcastInDim S1200128x1 ![0, 1] bcast_S1x1_S1200128x1_0_1
        (broadcastInDim S1x1 ![1] bcast_S1_S1x1_1 (constantI S1 32 1200127#32)))))
        (constantI S_ 1 1#1) reducesTo_S1200128x1_S1200128_d1 h_S_)
    ∧ (StableHlo.after (((hostOps5 (F := Ideal)).drop 8).take 10) V (Proc.devRef .tc main_call12_v5) = V main_call12_v5)
    ∧ (StableHlo.after (((hostOps5 (F := Ideal)).drop 8).take 10) V (Proc.devRef .tc main_v70) = V main_v70) := by
  simp only [List.drop_succ_cons, List.drop_zero, List.take_succ_cons, List.take_zero]
  refine ⟨?_, ?_, ?_⟩
  all_goals (after_results <;> first | with_reducible rfl | (simp only [ofBuf_toBuf]; congr 1) | rfl)
theorem chunkC5_v61 (V : Valuation τ sig (Elt Ideal)) :
    (StableHlo.after ((hostOps5 (F := Ideal)).drop 18) V (Proc.devRef .tc main_v71) : S64x1200128.Idx → EReal)
      = select
          (broadcastInDim S64x1200128 ![1] bcast_S1200128_S64x1200128_1 (V main_call12_v12 : S1200128.Idx → BitVec 1))
          (Host.gather gather_S64x1200128_S1200128x1_S64x1200128_0_1_n_n_1_1_641 (V main_v70 : S64x1200128.Idx → EReal)
            (V main_call12_v5 : S1200128x1.Idx → BitVec 32))
          (broadcastInDim S64x1200128 ![] bcast_S_S64x1200128 (constant (F := Ideal) S_ .f32 0x7FC00000#32)) := by
  simp only [List.drop_succ_cons, List.drop_zero]
  after_results
  rfl
theorem stretch5_v71 (W : Valuation τ sig (Elt Ideal)) :
    (StableHlo.after hostOps5 W (Proc.devRef .tc main_v71) : S64x1200128.Idx → EReal)
      = take2P (W main_v70 : S64x1200128.Idx → EReal) (W main_v55 : S1200128.Idx → BitVec 32) := by
  have hsplit : (hostOps5 (F := Ideal) : List (HloOp τ sig (Elt Ideal)))
      = ((hostOps5 (F := Ideal)).take 8 ++ ((hostOps5 (F := Ideal)).drop 8).take 10) ++ (hostOps5 (F := Ideal)).drop 18 := by
    rfl
  rw [hsplit, StableHlo.after_append, StableHlo.after_append, chunkC5_v61, (chunkB5 _).1, (chunkB5 _).2.2, (chunkB5 _).2.1,
    (chunkA5 _).1, (chunkA5 _).2]
  rfl
theorem take1_apply (E : Valuation τ sig (Elt Ideal)) (X : S64x1200128.Idx → EReal) (g : Fin NE → Fin NE)
    (hg : ∀ k, (E (Proc.devRef .tc main_v55) : S1200128.Idx → BitVec 32) (Shape.Idx.ofFin k) = BitVec.ofNat 32 (g k).val)
    (d : Fin 64) (k : Fin NE) :
    (StableHlo.after hostOps1 (Function.update E main_v60 X) (Proc.devRef .tc main_v61) : S64x1200128.Idx → EReal) (pairIx2 d k)
      = X (pairIx2 d (g k)) := by
  rw [stretch1_v61, Function.update_self,
    Function.update_of_ne (StableHlo.devRef_ne_of_ne (by decide) : (Proc.devRef .tc main_v55 : DevRef τ sig) ≠ Proc.devRef .tc main_v60)]
  exact take2P_apply X _ g hg d k
theorem take3_apply (E : Valuation τ sig (Elt Ideal)) (X : S64x1200128.Idx → EReal) (g : Fin NE → Fin NE)
    (hg : ∀ k, (E (Proc.devRef .tc main_v55) : S1200128.Idx → BitVec 32) (Shape.Idx.ofFin k) = BitVec.ofNat 32 (g k).val)
    (d : Fin 64) (k : Fin NE) :
    (StableHlo.after hostOps3 (Function.update E main_v65 X) (Proc.devRef .tc main_v66) : S64x1200128.Idx → EReal) (pairIx2 d k)
      = X (pairIx2 d (g k)) := by
  rw [stretch3_v66, Function.update_self,
    Function.update_of_ne (StableHlo.devRef_ne_of_ne (by decide) : (Proc.devRef .tc main_v55 : DevRef τ sig) ≠ Proc.devRef .tc main_v65)]
  exact take2P_apply X _ g hg d k
theorem take5_apply (E : Valuation τ sig (Elt Ideal)) (X : S64x1200128.Idx → EReal) (g : Fin NE → Fin NE)
    (hg : ∀ k, (E (Proc.devRef .tc main_v55) : S1200128.Idx → BitVec 32) (Shape.Idx.ofFin k) = BitVec.ofNat 32 (g k).val)
    (d : Fin 64) (k : Fin NE) :
    (StableHlo.after hostOps5 (Function.update E main_v70 X) (Proc.devRef .tc main_v71) : S64x1200128.Idx → EReal) (pairIx2 d k)
      = X (pairIx2 d (g k)) := by
  rw [stretch5_v71, Function.update_self,
    Function.update_of_ne (StableHlo.devRef_ne_of_ne (by decide) : (Proc.devRef .tc main_v55 : DevRef τ sig) ≠ Proc.devRef .tc main_v70)]
  exact take2P_apply X _ g hg d k
end Cert.KernelIdeal.Hand
end
-- ==== Proof.KiHostStretchB.lean ====
import proofs.«426118_j38259568672975_2_alg».proof.Proof.Gen.KernelIdeal.Regions
import proofs.«426118_j38259568672975_2_alg».proof.Proof.HostOpsMath
import proofs.«426118_j38259568672975_2_alg».proof.Proof.KiReindex
set_option maxRecDepth 1676
noncomputable section
namespace Cert.KernelIdeal.HostVal
open Idealize.ShloMosaic Idealize.ShloMosaic.TcCoe Idealize.SL.Sem
open Cert.KernelIdeal Cert.KernelIdeal.Gen
open Cert.HostMath (floordivT)
open Cert.KernelIdeal.Hand (ofBuf_toBuf)
theorem fdA13 (W : Valuation τ sig (Elt Ideal)) :
    ((StableHlo.after ((hostOps0_13 (F := Ideal)).take 9) W (Proc.devRef .tc main_call7_v2) : S293.Idx → BitVec 32)
        = Host.divsi (W main_v35 : S293.Idx → BitVec 32) (broadcastInDim S293 ![] bcast_S_S293 (W main_c_9 : S_.Idx → BitVec 32)))
    ∧ ((StableHlo.after ((hostOps0_13 (F := Ideal)).take 9) W (Proc.devRef .tc main_call7_v6) : S293.Idx → BitVec 1)
        = cmpi .ne (signi (W main_v35 : S293.Idx → BitVec 32))
        (broadcastInDim S293 ![] bcast_S_S293 (signi (W main_c_9 : S_.Idx → BitVec 32))))
    ∧ ((StableHlo.after ((hostOps0_13 (F := Ideal)).take 9) W (Proc.devRef .tc main_call7_v8) : S293.Idx → BitVec 32)
        = Host.remsi (W main_v35 : S293.Idx → BitVec 32) (broadcastInDim S293 ![] bcast_S_S293 (W main_c_9 : S_.Idx → BitVec 32))) := by
  simp only [List.take_succ_cons, List.take_zero]
  refine ⟨?_, ?_, ?_⟩
  all_goals (after_results <;> first | rfl | (simp only [ofBuf_toBuf]; rfl))
theorem fdB13 (V : Valuation τ sig (Elt Ideal)) :
    ((StableHlo.after (((hostOps0_13 (F := Ideal)).drop 9).take 4) V (Proc.devRef .tc main_call7_v11) : S293.Idx → BitVec 1)
        = andi (V main_call7_v6 : S293.Idx → BitVec 1)
        (cmpi .ne (V main_call7_v8 : S293.Idx → BitVec 32)
        (broadcastInDim S293 ![] bcast_S_S293 (constantI S_ 32 0#32))))
    ∧ (StableHlo.after (((hostOps0_13 (F := Ideal)).drop 9).take 4) V (Proc.devRef .tc main_call7_v2) = V main_call7_v2) := by
  simp only [List.drop_succ_cons, List.drop_zero, List.take_succ_cons, List.take_zero]
  refine ⟨?_, ?_⟩
  all_goals (after_results <;> first | rfl | (simp only [ofBuf_toBuf]; rfl))
theorem fdC13_out (V : Valuation τ sig (Elt Ideal)) :
    (StableHlo.after ((hostOps0_13 (F := Ideal)).drop 13) V (Proc.devRef .tc main_v36) : S293.Idx → BitVec 32)
      = select (V main_call7_v11 : S293.Idx → BitVec 1)
          (subi (V main_call7_v2 : S293.Idx → BitVec 32) (broadcastInDim S293 ![] bcast_S_S293 (constantI S_ 32 1#32)))
          (V main_call7_v2 : S293.Idx → BitVec 32) := by
  simp only [List.drop_succ_cons, List.drop_zero]
  after_results
  first | rfl | (simp only [ofBuf_toBuf]; rfl)
theorem stretch13_out (W : Valuation τ sig (Elt Ideal)) :
    (StableHlo.after hostOps0_13 W (Proc.devRef .tc main_v36) : S293.Idx → BitVec 32)
      = floordivT bcast_S_S293 (W main_v35 : S293.Idx → BitVec 32) (W main_c_9 : S_.Idx → BitVec 32) := by
  have hsplit : (hostOps0_13 (F := Ideal) : List (HloOp τ sig (Elt Ideal)))
      = ((hostOps0_13 (F := Ideal)).take 9 ++ ((hostOps0_13 (F := Ideal)).drop 9).take 4) ++ (hostOps0_13 (F := Ideal)).drop 13 := by
    rfl
  rw [hsplit, StableHlo.after_append, StableHlo.after_append, fdC13_out, (fdB13 _).1, (fdB13 _).2, (fdA13 _).1,
    (fdA13 _).2.1, (fdA13 _).2.2]
  rfl
theorem fdA15 (W : Valuation τ sig (Elt Ideal)) :
    ((StableHlo.after ((hostOps0_15 (F := Ideal)).take 9) W (Proc.devRef .tc main_call8_v2) : S293.Idx → BitVec 32)
        = Host.divsi (W main_v38 : S293.Idx → BitVec 32) (broadcastInDim S293 ![] bcast_S_S293 (W main_c_10 : S_.Idx → BitVec 32)))
    ∧ ((StableHlo.after ((hostOps0_15 (F := Ideal)).take 9) W (Proc.devRef .tc main_call8_v6) : S293.Idx → BitVec 1)
        = cmpi .ne (signi (W main_v38 : S293.Idx → BitVec 32))
        (broadcastInDim S293 ![] bcast_S_S293 (signi (W main_c_10 : S_.Idx → BitVec 32))))
    ∧ ((StableHlo.after ((hostOps0_15 (F := Ideal)).take 9) W (Proc.devRef .tc main_call8_v8) : S293.Idx → BitVec 32)
        = Host.remsi (W main_v38 : S293.Idx → BitVec 32) (broadcastInDim S293 ![] bcast_S_S293 (W main_c_10 : S_.Idx → BitVec 32))) := by
  simp only [List.take_succ_cons, List.take_zero]
  refine ⟨?_, ?_, ?_⟩
  all_goals (after_results <;> first | rfl | (simp only [ofBuf_toBuf]; rfl))
theorem fdB15 (V : Valuation τ sig (Elt Ideal)) :
    ((StableHlo.after (((hostOps0_15 (F := Ideal)).drop 9).take 4) V (Proc.devRef .tc main_call8_v11) : S293.Idx → BitVec 1)
        = andi (V main_call8_v6 : S293.Idx → BitVec 1)
        (cmpi .ne (V main_call8_v8 : S293.Idx → BitVec 32)
        (broadcastInDim S293 ![] bcast_S_S293 (constantI S_ 32 0#32))))
    ∧ (StableHlo.after (((hostOps0_15 (F := Ideal)).drop 9).take 4) V (Proc.devRef .tc main_call8_v2) = V main_call8_v2) := by
  simp only [List.drop_succ_cons, List.drop_zero, List.take_succ_cons, List.take_zero]
  refine ⟨?_, ?_⟩
  all_goals (after_results <;> first | rfl | (simp only [ofBuf_toBuf]; rfl))
theorem fdC15_out (V : Valuation τ sig (Elt Ideal)) :
    (StableHlo.after ((hostOps0_15 (F := Ideal)).drop 13) V (Proc.devRef .tc main_v39) : S293.Idx → BitVec 32)
      = select (V main_call8_v11 : S293.Idx → BitVec 1)
          (subi (V main_call8_v2 : S293.Idx → BitVec 32) (broadcastInDim S293 ![] bcast_S_S293 (constantI S_ 32 1#32)))
          (V main_call8_v2 : S293.Idx → BitVec 32) := by
  simp only [List.drop_succ_cons, List.drop_zero]
  after_results
  first | rfl | (simp only [ofBuf_toBuf]; rfl)
theorem stretch15_out (W : Valuation τ sig (Elt Ideal)) :
    (StableHlo.after hostOps0_15 W (Proc.devRef .tc main_v39) : S293.Idx → BitVec 32)
      = floordivT bcast_S_S293 (W main_v38 : S293.Idx → BitVec 32) (W main_c_10 : S_.Idx → BitVec 32) := by
  have hsplit : (hostOps0_15 (F := Ideal) : List (HloOp τ sig (Elt Ideal)))
      = ((hostOps0_15 (F := Ideal)).take 9 ++ ((hostOps0_15 (F := Ideal)).drop 9).take 4) ++ (hostOps0_15 (F := Ideal)).drop 13 := by
    rfl
  rw [hsplit, StableHlo.after_append, StableHlo.after_append, fdC15_out, (fdB15 _).1, (fdB15 _).2, (fdA15 _).1,
    (fdA15 _).2.1, (fdA15 _).2.2]
  rfl
variable (m : (ℓ : Loc nD τ sig) → Buf (Elt Ideal) ℓ) (c : Dev nD)
theorem V14_v36 : (V14 m c main_v36 : S293.Idx → BitVec 32)
    = floordivT bcast_S_S293 (V13 m c main_v35 : S293.Idx → BitVec 32) (V13 m c main_c_9 : S_.Idx → BitVec 32) := by
  show StableHlo.after hostOps0_13 (V13 m c) (Proc.devRef .tc main_v36) = _
  exact stretch13_out (V13 m c)
theorem V16_v39 : (V16 m c main_v39 : S293.Idx → BitVec 32)
    = floordivT bcast_S_S293 (V15 m c main_v38 : S293.Idx → BitVec 32) (V15 m c main_c_10 : S_.Idx → BitVec 32) := by
  show StableHlo.after hostOps0_15 (V15 m c) (Proc.devRef .tc main_v39) = _
  exact stretch15_out (V15 m c)
end Cert.KernelIdeal.HostVal
end
-- ==== Proof.KiHostStretchC.lean ====
import proofs.«426118_j38259568672975_2_alg».proof.Proof.Gen.KernelIdeal.Regions
import proofs.«426118_j38259568672975_2_alg».proof.Proof.HostOpsMath
set_option maxRecDepth 1676
noncomputable section
namespace Cert.KernelIdeal.HostVal
open Idealize.ShloMosaic Idealize.ShloMosaic.TcCoe Idealize.SL.Sem
open Cert.KernelIdeal Cert.KernelIdeal.Gen
open Cert.HostMath (takeT argsortT invT floordivT)
variable (m : (ℓ : Loc nD τ sig) → Buf (Elt Ideal) ℓ) (c : Dev nD)
theorem c7_split : (hostOps0_7 (F := Ideal) : List (HloOp τ sig (Elt Ideal)))
    = ((hostOps0_7 (F := Ideal)).take 9 ++ ((hostOps0_7 (F := Ideal)).drop 9).take 9) ++ (hostOps0_7 (F := Ideal)).drop 18 := by
  rfl
theorem c7A (W : Valuation τ sig (Elt Ideal)) :
    ((StableHlo.after ((hostOps0_7 (F := Ideal)).take 9) W (Proc.devRef .tc main_v10) : S1200128.Idx → BitVec 32)
        = takeT gather_S1200128_S1200128x1_S1200128_n_0_n_n_0_1_1 bcast_S_S1200128 bcast_S1200128_S1200128x1_0 1200128#32
        (W main_v0 : S1200128.Idx → BitVec 32) (W main_v3 : S1200128.Idx → BitVec 32))
    ∧ (StableHlo.after ((hostOps0_7 (F := Ideal)).take 9) W (Proc.devRef .tc main_v2) = W main_v2)
    ∧ (StableHlo.after ((hostOps0_7 (F := Ideal)).take 9) W (Proc.devRef .tc main_v3) = W main_v3) := by
  simp only [List.take_succ_cons, List.take_zero]
  refine ⟨?_, ?_, ?_⟩
  all_goals (after_results <;> rfl)
theorem c7B (V : Valuation τ sig (Elt Ideal)) :
    ((StableHlo.after (((hostOps0_7 (F := Ideal)).drop 9).take 9) V (Proc.devRef .tc main_v17) : S1200128.Idx → EReal)
        = takeT gather_S1200128_S1200128x1_S1200128_n_0_n_n_0_1_1 bcast_S_S1200128 bcast_S1200128_S1200128x1_0 1200128#32
        (V main_v2 : S1200128.Idx → EReal) (V main_v3 : S1200128.Idx → BitVec 32))
    ∧ (StableHlo.after (((hostOps0_7 (F := Ideal)).drop 9).take 9) V (Proc.devRef .tc main_v10) = V main_v10) := by
  simp only [List.drop_succ_cons, List.drop_zero, List.take_succ_cons, List.take_zero]
  refine ⟨?_, ?_⟩
  all_goals (after_results <;> rfl)
theorem c7C (U : Valuation τ sig (Elt Ideal)) :
    ((StableHlo.after ((hostOps0_7 (F := Ideal)).drop 18) U (Proc.devRef .tc main_v18) : S293x4096.Idx → BitVec 32)
        = shapeCast S293x4096 (U main_v10 : S1200128.Idx → BitVec 32) shapeCasts_S1200128_S293x4096)
    ∧ ((StableHlo.after ((hostOps0_7 (F := Ideal)).drop 18) U (Proc.devRef .tc main_v20) : S293.Idx → BitVec 32)
        = shapeCast S293 (extractStridedSlice S293x1 ![0, 0] (shapeCast S293x4096 (U main_v10 : S1200128.Idx → BitVec 32)
        shapeCasts_S1200128_S293x4096) slices_S293x4096_S293x1_0_0) shapeCasts_S293x1_S293)
    ∧ (StableHlo.after ((hostOps0_7 (F := Ideal)).drop 18) U (Proc.devRef .tc main_v17) = U main_v17) := by
  simp only [List.drop_succ_cons, List.drop_zero]
  refine ⟨?_, ?_, ?_⟩
  all_goals (after_results <;> rfl)
theorem V8_v17 : (V8 m c main_v17 : S1200128.Idx → EReal)
    = takeT gather_S1200128_S1200128x1_S1200128_n_0_n_n_0_1_1 bcast_S_S1200128 bcast_S1200128_S1200128x1_0 1200128#32
        (V7 m c main_v2 : S1200128.Idx → EReal) (V7 m c main_v3 : S1200128.Idx → BitVec 32) := by
  show StableHlo.after hostOps0_7 (V7 m c) (Proc.devRef .tc main_v17) = _
  generalize V7 m c = W
  rw [c7_split, StableHlo.after_append, StableHlo.after_append, (c7C _).2.2, (c7B _).1, (c7A _).2.1, (c7A _).2.2]
theorem V8_v18 : (V8 m c main_v18 : S293x4096.Idx → BitVec 32)
    = shapeCast S293x4096 (takeT gather_S1200128_S1200128x1_S1200128_n_0_n_n_0_1_1 bcast_S_S1200128 bcast_S1200128_S1200128x1_0 1200128#32
        (V7 m c main_v0 : S1200128.Idx → BitVec 32) (V7 m c main_v3 : S1200128.Idx → BitVec 32)) shapeCasts_S1200128_S293x4096 := by
  show StableHlo.after hostOps0_7 (V7 m c) (Proc.devRef .tc main_v18) = _
  generalize V7 m c = W
  rw [c7_split, StableHlo.after_append, StableHlo.after_append, (c7C _).1, (c7B _).2, (c7A _).1]
theorem V8_v20 : (V8 m c main_v20 : S293.Idx → BitVec 32)
    = shapeCast S293 (extractStridedSlice S293x1 ![0, 0] (shapeCast S293x4096
        (takeT gather_S1200128_S1200128x1_S1200128_n_0_n_n_0_1_1 bcast_S_S1200128 bcast_S1200128_S1200128x1_0 1200128#32
          (V7 m c main_v0 : S1200128.Idx → BitVec 32) (V7 m c main_v3 : S1200128.Idx → BitVec 32))
        shapeCasts_S1200128_S293x4096) slices_S293x4096_S293x1_0_0) shapeCasts_S293x1_S293 := by
  show StableHlo.after hostOps0_7 (V7 m c) (Proc.devRef .tc main_v20) = _
  generalize V7 m c = W
  rw [c7_split, StableHlo.after_append, StableHlo.after_append, (c7C _).2.1, (c7B _).2, (c7A _).1]
theorem c16A (W : Valuation τ sig (Elt Ideal)) :
    ((StableHlo.after ((hostOps0_16 (F := Ideal)).take 12) W (Proc.devRef .tc main_v48) : S1200128.Idx → BitVec 32)
        = invT scatter_S1200128_S1200128x1_S1200128_n_0_0_1_wf bcast_S_S1200128 bcast_S1200128_S1200128x1_0 1200128#32
        (W main_v3 : S1200128.Idx → BitVec 32))
    ∧ (StableHlo.after ((hostOps0_16 (F := Ideal)).take 12) W (Proc.devRef .tc main_v25) = W main_v25) := by
  simp only [List.take_succ_cons, List.take_zero]
  refine ⟨?_, ?_⟩
  all_goals (after_results <;> rfl)
theorem c16B_v55 (V : Valuation τ sig (Elt Ideal)) :
    (StableHlo.after ((hostOps0_16 (F := Ideal)).drop 12) V (Proc.devRef .tc main_v55) : S1200128.Idx → BitVec 32)
      = takeT gather_S1200128_S1200128x1_S1200128_n_0_n_n_0_1_1 bcast_S_S1200128 bcast_S1200128_S1200128x1_0 1200128#32
          (V main_v48 : S1200128.Idx → BitVec 32) (V main_v25 : S1200128.Idx → BitVec 32) := by
  simp only [List.drop_succ_cons, List.drop_zero]
  after_results
  rfl
theorem V17_v55 : (V17 m c main_v55 : S1200128.Idx → BitVec 32)
    = takeT gather_S1200128_S1200128x1_S1200128_n_0_n_n_0_1_1 bcast_S_S1200128 bcast_S1200128_S1200128x1_0 1200128#32
        (invT scatter_S1200128_S1200128x1_S1200128_n_0_0_1_wf bcast_S_S1200128 bcast_S1200128_S1200128x1_0 1200128#32
          (V16 m c main_v3 : S1200128.Idx → BitVec 32))
        (V16 m c main_v25 : S1200128.Idx → BitVec 32) := by
  show StableHlo.after hostOps0_16 (V16 m c) (Proc.devRef .tc main_v55) = _
  generalize V16 m c = W
  have hsplit : (hostOps0_16 (F := Ideal) : List (HloOp τ sig (Elt Ideal)))
      = (hostOps0_16 (F := Ideal)).take 12 ++ (hostOps0_16 (F := Ideal)).drop 12 := by
    rfl
  rw [hsplit, StableHlo.after_append, c16B_v55, (c16A _).1, (c16A _).2]
end Cert.KernelIdeal.HostVal
end
-- ==== Proof.KiHost.lean ====
import proofs.«426118_j38259568672975_2_alg».proof.Proof.Gen.KernelIdeal.Regions
import proofs.«426118_j38259568672975_2_alg».proof.Proof.SpmmMath
import proofs.«426118_j38259568672975_2_alg».proof.Proof.HostOpsMath
import proofs.«426118_j38259568672975_2_alg».proof.Proof.KiHostStretch
import proofs.«426118_j38259568672975_2_alg».proof.Proof.KiHostStretchB
import proofs.«426118_j38259568672975_2_alg».proof.Proof.KiHostStretchC
set_option maxRecDepth 1676
noncomputable section
namespace Cert.KernelIdeal.HostVal
open Idealize.ShloMosaic Idealize.ShloMosaic.TcCoe Idealize.SL.Sem
open Cert.KernelIdeal Cert.KernelIdeal.Gen
open Cert.Spmm (NE NN padB padW edgeAt blkOf)
open Cert.HostMath (takeT argsortT invT floordivT sortPerm)
variable (m : (ℓ : Loc nD τ sig) → Buf (Elt Ideal) ℓ) (c : Dev nD)
local macro "hop" : tactic => `(tactic| first
  | (rw [V19_of]; rotate_left; decide) | (rw [V18_of]; rotate_left; decide) | (rw [V17_of]; rotate_left; decide)
  | (rw [V16_of]; rotate_left; decide) | (rw [V15_of]; rotate_left; decide) | (rw [V14_of]; rotate_left; decide)
  | (rw [V13_of]; rotate_left; decide) | (rw [V12_of]; rotate_left; decide) | (rw [V11_of]; rotate_left; decide)
  | (rw [V10_of]; rotate_left; decide) | (rw [V9_of]; rotate_left; decide) | (rw [V8_of]; rotate_left; decide)
  | (rw [V7_of]; rotate_left; decide) | (rw [V6_of]; rotate_left; decide) | (rw [V5_of]; rotate_left; decide)
  | (rw [V4_of]; rotate_left; decide) | (rw [V3_of]; rotate_left; decide) | (rw [V2_of]; rotate_left; decide)
  | (rw [V1_of]; rotate_left; decide))
local macro "hops" : tactic => `(tactic| repeat hop)
def rowA (e : Fin 1200000) : BitVec 32 :=
  (m ((c : Thread nD τ).loc main_arg0) : S1200000.Idx → BitVec 32) (Shape.Idx.ofFin e)
def colA (e : Fin 1200000) : BitVec 32 :=
  (m ((c : Thread nD τ).loc main_arg1) : S1200000.Idx → BitVec 32) (Shape.Idx.ofFin e)
def wA (e : Fin 1200000) : EReal :=
  (m ((c : Thread nD τ).loc main_arg2) : S1200000.Idx → EReal) (Shape.Idx.ofFin e)
def colPadV : IVec S1200128 32 :=
  pad S1200128 ![0] ![128] ![0] (m ((c : Thread nD τ).loc main_arg1) : S1200000.Idx → BitVec 32)
    (constantI S_ 32 150527#32) pads_S1200000_S1200128_01280 h_S_
def rowPadV : IVec S1200128 32 :=
  pad S1200128 ![0] ![128] ![0] (m ((c : Thread nD τ).loc main_arg0) : S1200000.Idx → BitVec 32)
    (constantI S_ 32 150527#32) pads_S1200000_S1200128_01280 h_S_
def wPadV : S1200128.Idx → EReal :=
  pad S1200128 ![0] ![128] ![0] (m ((c : Thread nD τ).loc main_arg2) : S1200000.Idx → EReal)
    (constant (F := Ideal) S_ .f32 0x00000000#32) pads_S1200000_S1200128_01280 h_S_
def σc : Fin NE → Fin NE := sortPerm (colPadV m c)
def σr : Fin NE → Fin NE := sortPerm (rowPadV m c)
theorem σc_bij : Function.Bijective (σc m c) := Cert.HostMath.sortPerm_bijective _
theorem σr_bij : Function.Bijective (σr m c) := Cert.HostMath.sortPerm_bijective _
theorem σc_def : σc m c = sortPerm (colPadV m c) := rfl
theorem σr_def : σr m c = sortPerm (rowPadV m c) := rfl
attribute [irreducible] σc σr
def gI (k : Fin NE) : Fin NE := (Equiv.ofBijective (σc m c) (σc_bij m c)).symm (σr m c k)
theorem σc_gI (k : Fin NE) : σc m c (gI m c k) = σr m c k := by
  have h := Equiv.apply_symm_apply (Equiv.ofBijective (σc m c) (σc_bij m c)) (σr m c k)
  rw [Equiv.ofBijective_apply] at h
  exact h
def colS (e : Fin NE) : BitVec 32 := (V19 m c main_v10 : S1200128.Idx → BitVec 32) (Shape.Idx.ofFin e)
def wS (e : Fin NE) : EReal := (V19 m c main_v17 : S1200128.Idx → EReal) (Shape.Idx.ofFin e)
def rowS (e : Fin NE) : BitVec 32 := (V19 m c main_v32 : S1200128.Idx → BitVec 32) (Shape.Idx.ofFin e)
def Sc (b : Fin 293) : BitVec 32 := (V19 m c main_v21 : S293.Idx → BitVec 32) (Shape.Idx.ofFin b)
def Ec (b : Fin 293) : BitVec 32 := (V19 m c main_v24 : S293.Idx → BitVec 32) (Shape.Idx.ofFin b)
def Sr (b : Fin 293) : BitVec 32 := (V19 m c main_v36 : S293.Idx → BitVec 32) (Shape.Idx.ofFin b)
def Er (b : Fin 293) : BitVec 32 := (V19 m c main_v39 : S293.Idx → BitVec 32) (Shape.Idx.ofFin b)
def gW (k : Fin NE) : BitVec 32 := (V19 m c main_v55 : S1200128.Idx → BitVec 32) (Shape.Idx.ofFin k)
theorem v0_at7 : (V7 m c main_v0 : S1200128.Idx → BitVec 32) = colPadV m c := by
  hops; rw [V2_v0, V1_c]; hops; rfl
theorem v0_at6 : (V6 m c main_v0 : S1200128.Idx → BitVec 32) = colPadV m c := by
  hops; rw [V2_v0, V1_c]; hops; rfl
theorem v1_at12 : (V12 m c main_v1 : S1200128.Idx → BitVec 32) = rowPadV m c := by
  hops; rw [V4_v1, V3_c0]; hops; rfl
theorem v1_at11 : (V11 m c main_v1 : S1200128.Idx → BitVec 32) = rowPadV m c := by
  hops; rw [V4_v1, V3_c0]; hops; rfl
theorem v2_at7 : (V7 m c main_v2 : S1200128.Idx → EReal) = wPadV m c := by
  hops; rw [V6_v2, V5_cst]; hops; rfl
theorem v3_at7 : (V7 m c main_v3 : S1200128.Idx → BitVec 32) = argsortT (colPadV m c) := by
  rw [V7_v3, v0_at6]
theorem v3_at16 : (V16 m c main_v3 : S1200128.Idx → BitVec 32) = argsortT (colPadV m c) := by
  hops; rw [V7_v3, v0_at6]
theorem v25_at12 : (V12 m c main_v25 : S1200128.Idx → BitVec 32) = argsortT (rowPadV m c) := by
  rw [V12_v25, v1_at11]
theorem v25_at16 : (V16 m c main_v25 : S1200128.Idx → BitVec 32) = argsortT (rowPadV m c) := by
  hops; rw [V12_v25, v1_at11]
theorem NE_lt : NE < 2 ^ 31 := by decide
theorem colPadV_apply (k : Fin NE) : colPadV m c (Shape.Idx.ofFin k) = padB (colA m c) k := by
  unfold colPadV
  rw [Cert.HostMath.pad1_apply]
  rfl
theorem rowPadV_apply (k : Fin NE) : rowPadV m c (Shape.Idx.ofFin k) = padB (rowA m c) k := by
  unfold rowPadV
  rw [Cert.HostMath.pad1_apply]
  rfl
theorem wPadV_apply (k : Fin NE) : wPadV m c (Shape.Idx.ofFin k) = padW (wA m c) k := by
  unfold wPadV
  rw [Cert.HostMath.pad1_apply]
  unfold padW wA
  by_cases hk : k.val < 1200000
  · rw [dif_pos hk, dif_pos hk]
  · rw [dif_neg hk, dif_neg hk]
    show Ideal.ofBits .f32 0x00000000#32 = 0
    exact Ideal.ofBits_zero_f32
theorem take_sorted {α : Type} (x : S1200128.Idx → α) (key : IVec S1200128 32) (k : Fin NE) :
    takeT gather_S1200128_S1200128x1_S1200128_n_0_n_n_0_1_1 bcast_S_S1200128 bcast_S1200128_S1200128x1_0 1200128#32
        x (argsortT key) (Shape.Idx.ofFin k) = x (Shape.Idx.ofFin (sortPerm key k)) :=
  Cert.HostMath.takeT_apply _ rfl rfl rfl rfl _ _ _ x _ k _ NE_lt (Cert.HostMath.argsortT_apply key k)
theorem colS_key (e : Fin NE) : colS m c e = colPadV m c (Shape.Idx.ofFin (σc m c e)) := by
  unfold colS
  hops
  rw [V8_v10, v0_at7, v3_at7, take_sorted, σc_def]
theorem colS_eq (e : Fin NE) : colS m c e = padB (colA m c) (σc m c e) := by
  rw [colS_key, colPadV_apply]
theorem wS_eq (e : Fin NE) : wS m c e = padW (wA m c) (σc m c e) := by
  unfold wS
  hops
  rw [V8_v17, v2_at7, v3_at7, take_sorted, wPadV_apply, σc_def]
theorem rowS_key (e : Fin NE) : rowS m c e = rowPadV m c (Shape.Idx.ofFin (σr m c e)) := by
  unfold rowS
  hops
  rw [V13_v32, v1_at12, v25_at12, take_sorted, σr_def]
theorem rowS_eq (e : Fin NE) : rowS m c e = padB (rowA m c) (σr m c e) := by
  rw [rowS_key, rowPadV_apply]
theorem gW_eq (k : Fin NE) : gW m c k = BitVec.ofNat 32 (gI m c k).val := by
  unfold gW
  hops
  rw [V17_v55, v3_at16, v25_at16, take_sorted]
  have h := Cert.HostMath.invT_apply scatter_S1200128_S1200128x1_S1200128_n_0_0_1_wf bcast_S_S1200128
    bcast_S1200128_S1200128x1_0 1200128#32 (argsortT (colPadV m c)) (σc m c) (σc_bij m c).1 NE_lt
    (fun k' => by rw [σc_def]; exact Cert.HostMath.argsortT_apply (colPadV m c) k') (gI m c k)
  rw [σc_gI, σr_def] at h
  exact h
theorem padB_lt (f : Fin 1200000 → BitVec 32) (hf : ∀ e, (f e).toNat < 150000) (k : Fin NE) : (padB f k).toNat < 150528 := by
  unfold padB
  split
  · exact lt_trans (hf _) (by decide)
  · decide
theorem colS_lt (hcol : ∀ e, (colA m c e).toNat < 150000) (e : Fin NE) : (colS m c e).toNat < 150528 := by
  rw [colS_eq]; exact padB_lt _ hcol _
theorem rowS_lt (hrow : ∀ e, (rowA m c e).toNat < 150000) (e : Fin NE) : (rowS m c e).toNat < 150528 := by
  rw [rowS_eq]; exact padB_lt _ hrow _
theorem takeCol_apply (e : Fin NE) :
    takeT gather_S1200128_S1200128x1_S1200128_n_0_n_n_0_1_1 bcast_S_S1200128 bcast_S1200128_S1200128x1_0 1200128#32
      (V7 m c main_v0 : S1200128.Idx → BitVec 32) (V7 m c main_v3 : S1200128.Idx → BitVec 32) (Shape.Idx.ofFin e) = colS m c e := by
  rw [colS_key, v0_at7, v3_at7, take_sorted, σc_def]
theorem takeRow_apply (e : Fin NE) :
    takeT gather_S1200128_S1200128x1_S1200128_n_0_n_n_0_1_1 bcast_S_S1200128 bcast_S1200128_S1200128x1_0 1200128#32
      (V12 m c main_v1 : S1200128.Idx → BitVec 32) (V12 m c main_v25 : S1200128.Idx → BitVec 32) (Shape.Idx.ofFin e) = rowS m c e := by
  rw [rowS_key, v1_at12, v25_at12, take_sorted, σr_def]
theorem Sc_eq (hcol : ∀ e, (colA m c e).toNat < 150000) (b : Fin 293) :
    (Sc m c b).toInt = (((colS m c (edgeAt b ⟨0, by decide⟩)).toNat / 1024 : ℕ) : ℤ) := by
  have hv : (V8 m c main_v20 : S293.Idx → BitVec 32) (Shape.Idx.ofFin b) = colS m c (edgeAt b ⟨0, by decide⟩) := by
    rw [V8_v20, Cert.HostMath.blockEntry _ 0 (by decide), takeCol_apply]
    rfl
  unfold Sc
  hops
  rw [V9_v21, V8_c5, Cert.HostMath.floordivT_apply _ _ _ (by rw [hv]; exact lt_trans (colS_lt m c hcol _) (by decide)), hv]
theorem Ec_eq (hcol : ∀ e, (colA m c e).toNat < 150000) (b : Fin 293) :
    (Ec m c b).toInt = (((colS m c (edgeAt b ⟨4095, by decide⟩)).toNat / 1024 : ℕ) : ℤ) := by
  have hv : (V10 m c main_v23 : S293.Idx → BitVec 32) (Shape.Idx.ofFin b) = colS m c (edgeAt b ⟨4095, by decide⟩) := by
    rw [V10_v23]
    hops
    rw [V8_v18, Cert.HostMath.blockEntry _ 4095 (by decide), takeCol_apply]
    rfl
  unfold Ec
  hops
  rw [V11_v24, V10_c6, Cert.HostMath.floordivT_apply _ _ _ (by rw [hv]; exact lt_trans (colS_lt m c hcol _) (by decide)), hv]
theorem Sr_eq (hrow : ∀ e, (rowA m c e).toNat < 150000) (b : Fin 293) :
    (Sr m c b).toInt = (((rowS m c (edgeAt b ⟨0, by decide⟩)).toNat / 1024 : ℕ) : ℤ) := by
  have hv : (V13 m c main_v35 : S293.Idx → BitVec 32) (Shape.Idx.ofFin b) = rowS m c (edgeAt b ⟨0, by decide⟩) := by
    rw [V13_v35, Cert.HostMath.blockEntry _ 0 (by decide), takeRow_apply]
    rfl
  unfold Sr
  hops
  rw [V14_v36, V13_c9, Cert.HostMath.floordivT_apply _ _ _ (by rw [hv]; exact lt_trans (rowS_lt m c hrow _) (by decide)), hv]
theorem Er_eq (hrow : ∀ e, (rowA m c e).toNat < 150000) (b : Fin 293) :
    (Er m c b).toInt = (((rowS m c (edgeAt b ⟨4095, by decide⟩)).toNat / 1024 : ℕ) : ℤ) := by
  have hv : (V15 m c main_v38 : S293.Idx → BitVec 32) (Shape.Idx.ofFin b) = rowS m c (edgeAt b ⟨4095, by decide⟩) := by
    rw [V15_v38]
    hops
    rw [V13_v33, Cert.HostMath.blockEntry _ 4095 (by decide), takeRow_apply]
    rfl
  unfold Er
  hops
  rw [V16_v39, V15_c10, Cert.HostMath.floordivT_apply _ _ _ (by rw [hv]; exact lt_trans (rowS_lt m c hrow _) (by decide)), hv]
theorem colS_mono (hcol : ∀ e, (colA m c e).toNat < 150000) (i j : Fin NE) (hij : i ≤ j) :
    (colS m c i).toNat ≤ (colS m c j).toNat := by
  have h := Cert.HostMath.sortPerm_sorted (colPadV m c) i j hij
  rw [← σc_def, ← colS_key m c i, ← colS_key m c j] at h
  have hi := colS_lt m c hcol i
  have hj := colS_lt m c hcol j
  rw [StableHlo.Predicate.toInt_eq_toNat_of_lt (by omega), StableHlo.Predicate.toInt_eq_toNat_of_lt (by omega)] at h
  exact_mod_cast h
theorem rowS_mono (hrow : ∀ e, (rowA m c e).toNat < 150000) (i j : Fin NE) (hij : i ≤ j) :
    (rowS m c i).toNat ≤ (rowS m c j).toNat := by
  have h := Cert.HostMath.sortPerm_sorted (rowPadV m c) i j hij
  rw [← σr_def, ← rowS_key m c i, ← rowS_key m c j] at h
  have hi := rowS_lt m c hrow i
  have hj := rowS_lt m c hrow j
  rw [StableHlo.Predicate.toInt_eq_toNat_of_lt (by omega), StableHlo.Predicate.toInt_eq_toNat_of_lt (by omega)] at h
  exact_mod_cast h
theorem edgeAt_first_le (e : Fin NE) : edgeAt (blkOf e) ⟨0, by decide⟩ ≤ e := by
  rw [Fin.le_def]; show 4096 * (e.val / 4096) + 0 ≤ e.val; omega
theorem le_edgeAt_last (e : Fin NE) : e ≤ edgeAt (blkOf e) ⟨4095, by decide⟩ := by
  rw [Fin.le_def]; show e.val ≤ 4096 * (e.val / 4096) + 4095; omega
theorem layerHyp (hcol : ∀ e, (colA m c e).toNat < 150000) (hrow : ∀ e, (rowA m c e).toNat < 150000) :
    Cert.Spmm.LayerHyp (rowA m c) (colA m c) (wA m c) (σc m c) (σr m c) (Sc m c) (Ec m c) (Sr m c) (Er m c)
      (colS m c) (rowS m c) (wS m c) (gI m c) where
  hσr := σr_bij m c
  hg := σc_gI m c
  hcolS := colS_eq m c
  hwS := wS_eq m c
  hrowS := rowS_eq m c
  hcol := hcol
  hrow := hrow
  hbc := fun e => by
    rw [Sc_eq m c hcol, Ec_eq m c hcol]
    have h1 := colS_mono m c hcol _ _ (edgeAt_first_le e)
    have h2 := colS_mono m c hcol _ _ (le_edgeAt_last e)
    constructor
    · exact_mod_cast Nat.div_le_div_right h1
    · exact_mod_cast Nat.div_le_div_right h2
  hbr := fun e => by
    rw [Sr_eq m c hrow, Er_eq m c hrow]
    have h1 := rowS_mono m c hrow _ _ (edgeAt_first_le e)
    have h2 := rowS_mono m c hrow _ _ (le_edgeAt_last e)
    constructor
    · exact_mod_cast Nat.div_le_div_right h1
    · exact_mod_cast Nat.div_le_div_right h2
end Cert.KernelIdeal.HostVal
end
-- ==== Proof.KiHostX.lean ====
import proofs.«426118_j38259568672975_2_alg».proof.Proof.Gen.KernelIdeal.Regions
import proofs.«426118_j38259568672975_2_alg».proof.Proof.SpmmMath
import Idealize.ShloMosaic.Lib.KernelVsHost
import Idealize.ShloMosaic.Lib.ValueLayout
import Idealize.ShloMosaic.Lib.Pipeline.Value
set_option maxRecDepth 1676
noncomputable section
namespace Cert.KernelIdeal.HostVal
open Idealize.ShloMosaic Idealize.ShloMosaic.TcCoe Idealize.SL.Sem
open Cert.KernelIdeal Cert.KernelIdeal.Gen
open Cert.Spmm (NN)
variable (m : (ℓ : Loc nD τ sig) → Buf (Elt Ideal) ℓ) (c : Dev nD)
local macro "hopX" : tactic => `(tactic| first
  | (rw [V19_of]; rotate_left; decide) | (rw [V18_of]; rotate_left; decide) | (rw [V17_of]; rotate_left; decide)
  | (rw [V16_of]; rotate_left; decide) | (rw [V15_of]; rotate_left; decide) | (rw [V14_of]; rotate_left; decide)
  | (rw [V13_of]; rotate_left; decide) | (rw [V12_of]; rotate_left; decide) | (rw [V11_of]; rotate_left; decide)
  | (rw [V10_of]; rotate_left; decide) | (rw [V9_of]; rotate_left; decide) | (rw [V8_of]; rotate_left; decide)
  | (rw [V7_of]; rotate_left; decide) | (rw [V6_of]; rotate_left; decide) | (rw [V5_of]; rotate_left; decide)
  | (rw [V4_of]; rotate_left; decide) | (rw [V3_of]; rotate_left; decide) | (rw [V2_of]; rotate_left; decide)
  | (rw [V1_of]; rotate_left; decide))
local macro "hopsX" : tactic => `(tactic| repeat hopX)
def x0 (n : Fin 150000) (d : Fin 64) : EReal :=
  if h : n.val < 100000 then (m ((c : Thread nD τ).loc main_arg3) : S100000x64.Idx → EReal) (ValueIdx.ix2 ⟨n.val, h⟩ d)
  else (m ((c : Thread nD τ).loc main_arg4) : S50000x64.Idx → EReal) (ValueIdx.ix2 ⟨n.val - 100000, by have := n.isLt; omega⟩ d)
def x0T (d : Fin 64) (n : Fin NN) : EReal := (V19 m c main_v58 : S64x150528.Idx → EReal) (ValueIdx.ix2 d n)
section Stretches
theorem V17_v56 : (V17 m c main_v56 : S150000x64.Idx → EReal)
    = concatenate S150000x64 0 [⟨S100000x64, (V16 m c main_arg3 : S100000x64.Idx → EReal)⟩,
        ⟨S50000x64, (V16 m c main_arg4 : S50000x64.Idx → EReal)⟩] concatenates_S100000x64_S50000x64_S150000x64_d0 := by
  show StableHlo.after hostOps0_16 (V16 m c) (Proc.devRef .tc main_v56) = _
  generalize V16 m c = W
  after_results
theorem V17_c16 : (V17 m c main_c_16 : S_.Idx → BitVec 32) = constantI S_ 32 0#32 := by
  show StableHlo.after hostOps0_16 (V16 m c) (Proc.devRef .tc main_c_16) = _
  generalize V16 m c = W
  after_results
theorem V18_v57 : (V18 m c main_v57 : S150528x64.Idx → EReal)
    = pad S150528x64 ![0, 0] ![528, 0] ![0, 0] (V17 m c main_v56 : S150000x64.Idx → EReal)
        (sitofp (F := Ideal) .f32 (V17 m c main_c_16 : S_.Idx → BitVec 32)) pads_S150000x64_S150528x64_05280_000 h_S_ := by
  show StableHlo.after hostOps0_17 (V17 m c) (Proc.devRef .tc main_v57) = _
  generalize V17 m c = W
  after_results
  rfl
theorem V19_v58 : (V19 m c main_v58 : S64x150528.Idx → EReal)
    = transpose S64x150528 [1, 0] (V18 m c main_v57 : S150528x64.Idx → EReal) transposes_S150528x64_S64x150528_1_0 := by
  show StableHlo.after hostOps0_18 (V18 m c) (Proc.devRef .tc main_v58) = _
  generalize V18 m c = W
  after_results
theorem V19_v59 : (V19 m c main_v59 : S64x150528.Idx → EReal)
    = truncf (F := Ideal) .bf16 (transpose S64x150528 [1, 0] (V18 m c main_v57 : S150528x64.Idx → EReal)
        transposes_S150528x64_S64x150528_1_0) bitsLt_bf16_f32 := by
  show StableHlo.after hostOps0_18 (V18 m c) (Proc.devRef .tc main_v59) = _
  generalize V18 m c = W
  after_results
end Stretches
theorem arg3_at16 : (V16 m c main_arg3 : S100000x64.Idx → EReal) = (m ((c : Thread nD τ).loc main_arg3) : S100000x64.Idx → EReal) := by
  hopsX
theorem arg4_at16 : (V16 m c main_arg4 : S50000x64.Idx → EReal) = (m ((c : Thread nD τ).loc main_arg4) : S50000x64.Idx → EReal) := by
  hopsX
theorem padValue_eq : (sitofp (F := Ideal) .f32 (constantI S_ 32 0#32) : S_.Idx → EReal) (Shape.Idx.first h_S_) = 0 := by
  show (((0#32 : BitVec 32).toInt : ℝ) : EReal) = 0
  simp
theorem x0T_eq (d : Fin 64) (n : Fin NN) :
    x0T m c d n = if h : n.val < 150000 then x0 m c ⟨n.val, h⟩ d else 0 := by
  unfold x0T
  rw [V19_v58, ValueIdx.transpose_ix2_apply, V18_v57]
  by_cases hn : n.val < 150000
  · rw [dif_pos hn]
    refine (pad_apply_of_inside (s := S150000x64) (t := S150528x64) ![0, 0] ![528, 0] ![0, 0] _ _
      pads_S150000x64_S150528x64_05280_000 h_S_ (ValueIdx.ix2 n d)
      (ValueIdx.ix2 (⟨n.val, hn⟩ : Fin 150000) d) (fun a => by
        match a with
        | ⟨0, _⟩ => show n.val = 0 + n.val * (0 + 1); omega
        | ⟨1, _⟩ => show d.val = 0 + d.val * (0 + 1); omega)).trans ?_
    rw [V17_v56, arg3_at16, arg4_at16]
    unfold x0
    by_cases h1 : n.val < 100000
    · rw [dif_pos h1]
      exact concatenate_pair_apply_left (t := S150000x64) (s₁ := S100000x64) (s₂ := S50000x64) (0 : Fin 2) _ _
        concatenates_S100000x64_S50000x64_S150000x64_d0
        (ValueIdx.ix2 (⟨n.val, hn⟩ : Fin 150000) d) rfl (ValueIdx.ix2 (⟨n.val, h1⟩ : Fin 100000) d) (fun b => by
          match b with
          | ⟨0, _⟩ => rfl
          | ⟨1, _⟩ => rfl)
    · rw [dif_neg h1]
      exact concatenate_pair_apply_right (t := S150000x64) (s₁ := S100000x64) (s₂ := S50000x64) (0 : Fin 2) _ _
        concatenates_S100000x64_S50000x64_S150000x64_d0
        (ValueIdx.ix2 (⟨n.val, hn⟩ : Fin 150000) d) rfl rfl
        (ValueIdx.ix2 (⟨n.val - 100000, by have := n.isLt; omega⟩ : Fin 50000) d) (fun b hb => by
          match b with
          | ⟨0, _⟩ => exact absurd rfl hb
          | ⟨1, _⟩ => rfl) (by show n.val - 100000 + 100000 = n.val; omega)
  · rw [dif_neg hn]
    refine (pad_apply_of_not_inside (s := S150000x64) (t := S150528x64) ![0, 0] ![528, 0] ![0, 0] _ _
      pads_S150000x64_S150528x64_05280_000 h_S_ (ValueIdx.ix2 n d) (0 : Fin 2)
      (by
        rintro ⟨_, _, h3⟩
        apply hn
        have h3' : (n.val - 0) / (0 + 1) < 150000 := h3
        simpa using h3')).trans ?_
    rw [V17_c16]
    exact padValue_eq
theorem v59_eq (d : Fin 64) (n : Fin NN) :
    (V19 m c main_v59 : S64x150528.Idx → EReal) (ValueIdx.ix2 d n) = x0T m c d n := by
  unfold x0T
  rw [V19_v59, V19_v58]
  rfl
end Cert.KernelIdeal.HostVal
end
-- ==== Proof.KiGatherPay.lean ====
import proofs.«426118_j38259568672975_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«426118_j38259568672975_2_alg».proof.Proof.SpmmMath
set_option synthInstance.maxSize 4096
set_option maxRecDepth 16384
noncomputable section
namespace Cert.KernelIdeal.GatherPay
open Idealize.ShloMosaic Idealize.SL.Sem
open Idealize.ShloMosaic.ValueIdx
open scoped BigOperators
local notation "vx1" => Idealize.ShloMosaic.ValueIdx.ix1
local notation "vx2" => Idealize.ShloMosaic.ValueIdx.ix2
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (vx2 p c) = v (vx2 p (0 : Fin 1)) := by
  refine broadcastTo_apply v h (vx2 p c) (vx2 p (0 : Fin 1)) fun ax => ?_
  match ax with
  | ⟨0, _⟩ =>
    show p.val = if a = 1 then 0 else p.val
    split
    · have := p.isLt; omega
    · rfl
  | ⟨1, _⟩ => rfl
theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = x i + y i := rfl
theorem select_cmpi_eq {α : Type} {w : Nat} (x y : BitVec w) (A B : α) :
    Scalar.select (IntOp.cmpi .eq x y) A B = if x = y then A else B := by
  have hb : IntOp.cmpi .eq x y = if x = y then 1#1 else 0#1 := by
    unfold IntOp.cmpi
    by_cases h : x = y
    · subst h; simp
    · have hne : (x == y) = false := by simpa using h
      simp [hne, h]
  unfold Scalar.select
  rw [hb]
  by_cases h : x = y
  · simp [h]
  · simp [h]
theorem word_toNat (j : Nat) (hj : j < 147) (n : Nat) (hn : n < 1024) :
    (BitVec.ofNat 32 j * 1024#32 + BitVec.ofNat 32 n).toNat = 1024 * j + n := by
  rw [BitVec.toNat_add, BitVec.toNat_mul, BitVec.toNat_ofNat, BitVec.toNat_ofNat]
  show ((j % 2 ^ 32) * 1024 % 2 ^ 32 + n % 2 ^ 32) % 2 ^ 32 = 1024 * j + n
  omega
theorem word_eq_iff (j : Nat) (hj : j < 147) (n : Fin 1024) (c : BitVec 32) :
    BitVec.ofNat 32 j * 1024#32 + BitVec.ofNat 32 n.val = c ↔ c.toNat = 1024 * j + n.val := by
  constructor
  · intro h; rw [← h]; exact word_toNat j hj n.val n.isLt
  · intro h; exact BitVec.eq_of_toNat_eq ((word_toNat j hj n.val n.isLt).trans h.symm)
theorem toInt_ofNat_small (j : Nat) (hj : j < 147) : (BitVec.ofNat 32 j).toInt = (j : ℤ) := by
  rw [BitVec.toInt_eq_toNat_cond, BitVec.toNat_ofNat]
  have : j % 2 ^ 32 = j := Nat.mod_eq_of_lt (by omega)
  rw [this, if_pos (by omega)]
theorem valid_iff (j : Nat) (hj : j < 147) (s e : BitVec 32) :
    Scalar.cmpi .ne (Scalar.extui (Scalar.andi (Scalar.cmpi .sge (BitVec.ofNat 32 j) s) (Scalar.cmpi .sle (BitVec.ofNat 32 j) e))) 0#32 = 1#1
      ↔ s.toInt ≤ (j : ℤ) ∧ (j : ℤ) ≤ e.toInt := by
  have hj' := toInt_ofNat_small j hj
  have hs : Scalar.cmpi .sge (BitVec.ofNat 32 j) s = 1#1 ↔ s.toInt ≤ (j : ℤ) := by
    unfold Scalar.cmpi IntOp.cmpi
    rw [← hj']
    by_cases hp : s.toInt ≤ (BitVec.ofNat 32 j).toInt <;> simp [BitVec.sle, BitVec.ofBool, hp]
  have he : Scalar.cmpi .sle (BitVec.ofNat 32 j) e = 1#1 ↔ (j : ℤ) ≤ e.toInt := by
    unfold Scalar.cmpi IntOp.cmpi
    rw [← hj']
    by_cases hp : (BitVec.ofNat 32 j).toInt ≤ e.toInt <;> simp [BitVec.sle, BitVec.ofBool, hp]
  rw [← hs, ← he]
  rcases BitVec.eq_zero_or_eq_one (Scalar.cmpi .sge (BitVec.ofNat 32 j) s) with h1 | h1 <;>
    rcases BitVec.eq_zero_or_eq_one (Scalar.cmpi .sle (BitVec.ofNat 32 j) e) with h2 | h2 <;>
    rw [h1, h2] <;> decide
theorem lhs_gather_0 (i : S64x4096.Idx) (q : dot_S64x1024_S1024x4096_S64x4096_1_0_0_1_n_n.contr.Idx) :
    (dot_S64x1024_S1024x4096_S64x4096_1_0_0_1_n_n.lhsIdx i q 0).val = (i 0).val := by
  unfold DotDims.lhsIdx
  rw [dif_neg (show ¬(0 : Fin S64x1024.rank) ∈ dot_S64x1024_S1024x4096_S64x4096_1_0_0_1_n_n.lhsBatch by decide),
    dif_pos (show (0 : Fin S64x1024.rank) ∈ dot_S64x1024_S1024x4096_S64x4096_1_0_0_1_n_n.lhsNonContracting by decide)]
  rfl
theorem lhs_gather_1 (i : S64x4096.Idx) (q : dot_S64x1024_S1024x4096_S64x4096_1_0_0_1_n_n.contr.Idx) :
    (dot_S64x1024_S1024x4096_S64x4096_1_0_0_1_n_n.lhsIdx i q 1).val = (q ⟨0, by decide⟩).val :=
  dot_S64x1024_S1024x4096_S64x4096_1_0_0_1_n_n.lhsIdx_val_of_single rfl i q
theorem rhs_gather_0 (i : S64x4096.Idx) (q : dot_S64x1024_S1024x4096_S64x4096_1_0_0_1_n_n.contr.Idx) :
    (dot_S64x1024_S1024x4096_S64x4096_1_0_0_1_n_n.rhsIdx i q 0).val = (q ⟨0, by decide⟩).val :=
  dot_S64x1024_S1024x4096_S64x4096_1_0_0_1_n_n.rhsIdx_val_of_single rfl i q
theorem rhs_gather_1 (i : S64x4096.Idx) (q : dot_S64x1024_S1024x4096_S64x4096_1_0_0_1_n_n.contr.Idx) :
    (dot_S64x1024_S1024x4096_S64x4096_1_0_0_1_n_n.rhsIdx i q 1).val = (i 1).val := by
  unfold DotDims.rhsIdx
  rw [dif_neg (show ¬(1 : Fin S1024x4096.rank) ∈ dot_S64x1024_S1024x4096_S64x4096_1_0_0_1_n_n.rhsBatch by decide),
    dif_pos (show (1 : Fin S1024x4096.rank) ∈ dot_S64x1024_S1024x4096_S64x4096_1_0_0_1_n_n.rhsNonContracting by decide)]
  rfl
/-- A matrix product into a zero accumulator, read at one entry, is the sum over the contracted axis. -/
theorem matmul_gather_apply (A : FVec Ideal S64x1024 .bf16) (B : FVec Ideal S1024x4096 .bf16) (d : Fin 64) (k : Fin 4096) :
    FloatOps.matmul dot_S64x1024_S1024x4096_S64x4096_1_0_0_1_n_n none A B (constant (F := Ideal) S64x4096 .f32 0x00000000#32) (vx2 d k)
      = ∑ n : Fin 1024, A (vx2 d n) * B (vx2 n k) := by
  rw [Ideal.matmul_constant_zero_apply,
    ← Equiv.sum_comp (contrEquiv1 dot_S64x1024_S1024x4096_S64x4096_1_0_0_1_n_n 1024 rfl rfl).symm]
  refine Finset.sum_congr rfl fun n _ => ?_
  have hk := contrEquiv1_symm_val dot_S64x1024_S1024x4096_S64x4096_1_0_0_1_n_n 1024 rfl rfl n
  have el : dot_S64x1024_S1024x4096_S64x4096_1_0_0_1_n_n.lhsIdx (vx2 d k)
      ((contrEquiv1 dot_S64x1024_S1024x4096_S64x4096_1_0_0_1_n_n 1024 rfl rfl).symm n) = vx2 d n :=
    funext fun a => Fin.ext (by
      match a with
      | ⟨0, _⟩ => exact lhs_gather_0 _ _
      | ⟨1, _⟩ => exact (lhs_gather_1 _ _).trans hk)
  have er : dot_S64x1024_S1024x4096_S64x4096_1_0_0_1_n_n.rhsIdx (vx2 d k)
      ((contrEquiv1 dot_S64x1024_S1024x4096_S64x4096_1_0_0_1_n_n 1024 rfl rfl).symm n) = vx2 n k :=
    funext fun a => Fin.ext (by
      match a with
      | ⟨0, _⟩ => exact (rhs_gather_0 _ _).trans hk
      | ⟨1, _⟩ => exact rhs_gather_1 _ _)
  rw [el, er]
theorem payZero_apply (idx : S64x4096.Idx) : (Gen.k0_pay1 (F := Ideal)) idx = 0 := by
  unfold Gen.k0_pay1
  simp only [shapeCast_self]
  show Ideal.ofBits .f32 0x00000000#32 = 0
  exact Ideal.ofBits_zero_f32
/-- The weighted one-hot matrix at (n, k): the weight of edge k where its column id is node n of block j, else 0. -/
theorem onehot_apply (j : BitVec 32) (v19 : IVec S4096 32) (v22 : FVec Ideal S4096 .f32) (n : Fin 1024) (k : Fin 4096) :
    (truncf .bf16
      (select
        (cmpi .eq
          (broadcastTo S1024x4096 (addi (broadcast S1024x1 (Scalar.muli j 1024#32)) (iota .tc S1024x1 32 [0] Gen.iota_S1024x1_d0_w32))
            Gen.broadcasts_S1024x1_S1024x4096)
          (broadcastTo S1024x4096 (shapeCast S1x4096 v19 Gen.shapeCasts_S4096_S1x4096) Gen.broadcasts_S1x4096_S1024x4096))
        (broadcastTo S1024x4096 (shapeCast S1x4096 v22 Gen.shapeCasts_S4096_S1x4096) Gen.broadcasts_S1x4096_S1024x4096)
        (broadcast S1024x4096 (Scalar.ofBits (F := Ideal) .f32 0x00000000#32)))
      Gen.bitsLt_bf16_f32 : FVec Ideal S1024x4096 .bf16) (vx2 n k)
      = if j * 1024#32 + BitVec.ofNat 32 n.val = v19 (vx1 k) then v22 (vx1 k) else 0 := by
  rw [truncf_apply, select_apply, cmpi_apply, broadcastTo_a1_ab_apply, addi_apply, broadcast_apply, iota_single_apply,
    broadcastTo_1b_ab_apply, shapeCast_a_1a_apply, broadcastTo_1b_ab_apply, shapeCast_a_1a_apply, broadcast_apply,
    select_cmpi_eq]
  show (if j * 1024#32 + BitVec.ofNat 32 n.val = v19 (vx1 k) then v22 (vx1 k) else Ideal.ofBits .f32 0x00000000#32) = _
  rw [Ideal.ofBits_zero_f32]
theorem payAdd_apply (i : grid0.Coords) (v19 : IVec S4096 32) (v22 : FVec Ideal S4096 .f32)
    (v33 : FVec Ideal S64x1024 .bf16) (v35 : FVec Ideal S64x4096 .f32) (d : Fin 64) (k : Fin 4096) :
    Gen.k0_pay2 i v19 v22 v33 v35 (vx2 d k)
      = v35 (vx2 d k) + ∑ n : Fin 1024, v33 (vx2 d n) *
          (if BitVec.ofNat 32 (i 1).val * 1024#32 + BitVec.ofNat 32 n.val = v19 (vx1 k) then v22 (vx1 k) else 0) := by
  unfold Gen.k0_pay2
  simp only [shapeCast_self, matmul]
  rw [addf_apply, matmul_gather_apply]
  refine congrArg (v35 (vx2 d k) + ·) (Finset.sum_congr rfl fun n _ => ?_)
  exact congrArg (v33 (vx2 d n) * ·) (onehot_apply _ v19 v22 n k)
theorem payAdd_apply_nat (i : grid0.Coords) (v19 : IVec S4096 32) (v22 : FVec Ideal S4096 .f32)
    (v33 : FVec Ideal S64x1024 .bf16) (v35 : FVec Ideal S64x4096 .f32) (d : Fin 64) (k : Fin 4096) :
    Gen.k0_pay2 i v19 v22 v33 v35 (vx2 d k)
      = v35 (vx2 d k) + ∑ n : Fin 1024, v33 (vx2 d n) *
          (if (v19 (vx1 k)).toNat = 1024 * (i 1).val + n.val then v22 (vx1 k) else 0) := by
  rw [payAdd_apply]
  have h1 : (i 1).val < 147 := (i 1).isLt
  refine congrArg (v35 (vx2 d k) + ·) (Finset.sum_congr rfl fun n _ => ?_)
  exact congrArg (v33 (vx2 d n) * ·) (if_congr (word_eq_iff (i 1).val h1 n (v19 (vx1 k))) rfl rfl)
section Fold
open Cert.Spmm
variable (S E : Fin 293 → BitVec 32) (col : Fin NE → BitVec 32) (w : Fin NE → EReal) (x : Fin 64 → Fin NN → EReal)
def addend (q j : Nat) (idx : S64x4096.Idx) : EReal :=
  if hq : q < 293 then
    if hj : j < 147 then
      if (S ⟨q, hq⟩).toInt ≤ ((j : ℕ) : ℤ) ∧ ((j : ℕ) : ℤ) ≤ (E ⟨q, hq⟩).toInt then
        ∑ n : Fin 1024, x (idx 0) (nodeAt ⟨j, hj⟩ n) *
          (if (col (edgeAt ⟨q, hq⟩ (idx 1))).toNat = 1024 * j + n.val then w (edgeAt ⟨q, hq⟩ (idx 1)) else 0)
      else 0
    else 0
  else 0
theorem addend_of_not_active (q : Fin 293) (j : Nat)
    (h : ¬((S q).toInt ≤ ((j : ℕ) : ℤ) ∧ ((j : ℕ) : ℤ) ≤ (E q).toInt)) (idx : S64x4096.Idx) :
    addend S E col w x q.val j idx = 0 := by
  unfold addend
  rw [dif_pos q.isLt]
  by_cases hj : j < 147
  · rw [dif_pos hj]; exact if_neg h
  · rw [dif_neg hj]
/-- One accumulation adds, at (d, k), the weighted values of the nodes of block j that edge k points at. -/
theorem payAdd_eq_add_addend (i : grid0.Coords) (q : Fin 293) (v19 : IVec S4096 32) (v22 : FVec Ideal S4096 .f32)
    (v33 : FVec Ideal S64x1024 .bf16) (acc : FVec Ideal S64x4096 .f32)
    (hcol : ∀ k : Fin 4096, v19 (vx1 k) = col (edgeAt q k))
    (hw : ∀ k : Fin 4096, v22 (vx1 k) = w (edgeAt q k))
    (hx : ∀ (d : Fin 64) (n : Fin 1024), v33 (vx2 d n) = x d (nodeAt ⟨(i 1).val, (i 1).isLt⟩ n))
    (hact : (S q).toInt ≤ (((i 1).val : ℕ) : ℤ) ∧ (((i 1).val : ℕ) : ℤ) ≤ (E q).toInt) (idx : S64x4096.Idx) :
    Gen.k0_pay2 i v19 v22 v33 acc idx = acc idx + addend S E col w x q.val (i 1).val idx := by
  obtain ⟨d, k, rfl⟩ : ∃ (d : Fin 64) (k : Fin 4096), idx = vx2 d k := ⟨idx 0, idx 1, eq_ix2 idx⟩
  have hj : (i 1).val < 147 := (i 1).isLt
  rw [payAdd_apply_nat]
  refine congrArg (acc (vx2 d k) + ·) ?_
  unfold addend
  rw [dif_pos q.isLt, dif_pos hj]
  refine Eq.trans ?_ (if_pos hact).symm
  refine Finset.sum_congr rfl fun n _ => ?_
  rw [hcol k, hw k]
  exact congrArg (· * _) (hx d n)
theorem sum_addend_eq_gatherRaw (q : Fin 293) (d : Fin 64) (k : Fin 4096) :
    ∑ j ∈ Finset.range 147, addend S E col w x q.val j (vx2 d k) = gatherRaw S E col w x d (edgeAt q k) := by
  rw [Finset.sum_range]
  unfold gatherRaw
  refine Finset.sum_congr rfl fun j _ => ?_
  have hb : blkOf (edgeAt q k) = q := Fin.ext (by
    show (4096 * q.val + k.val) / 4096 = q.val
    have := k.isLt; omega)
  unfold addend
  rw [dif_pos q.isLt, dif_pos j.isLt, hb]
  all_goals rfl
/-- An accumulator reset every J steps holds, j steps after a reset, the sum of the j + 1 addends since. -/
theorem fold_sum {ι : Type} {N : Nat} (f : (n : Nat) → n < N → ι → EReal) (M : Nat → ι → EReal) (J : Nat)
    (h0 : ∀ (n : Nat) (h : n < N), n % J = 0 → ∀ i, f n h i = M n i)
    (hs : ∀ (n : Nat) (h : n + 1 < N), ¬(n + 1) % J = 0 → ∀ i, f (n + 1) h i = f n (Nat.lt_of_succ_lt h) i + M (n + 1) i)
    (q : Nat) : ∀ (j : Nat) (_ : j < J) (h : J * q + j < N) (i : ι),
      f (J * q + j) h i = ∑ s ∈ Finset.range (j + 1), M (J * q + s) i
  | 0, _, h, i => by
    rw [Finset.sum_range_one]
    exact h0 _ h (by rw [Nat.add_zero, Nat.mul_mod_right]) i
  | j + 1, hj, h, i => by
    have hne : ¬(J * q + j + 1) % J = 0 := by
      rw [Nat.add_assoc, Nat.mul_add_mod, Nat.mod_eq_of_lt hj]; exact Nat.succ_ne_zero j
    rw [Finset.sum_range_succ _ (j + 1), ← fold_sum f M J h0 hs q j (Nat.lt_of_succ_lt hj) (Nat.lt_of_succ_lt h) i]
    exact hs (J * q + j) h hne i
/-- On the last column the accumulator has swept all 147 node blocks: the sum is the whole row of the sparse product. -/
theorem fold_eq_gatherRaw {N : Nat} (f : (t : Nat) → t < N → S64x4096.Idx → EReal)
    (h0 : ∀ (t : Nat) (h : t < N), t % 147 = 0 → ∀ idx, f t h idx = addend S E col w x (t / 147) (t % 147) idx)
    (hs : ∀ (t : Nat) (h : t + 1 < N), ¬(t + 1) % 147 = 0 → ∀ idx,
      f (t + 1) h idx = f t (Nat.lt_of_succ_lt h) idx + addend S E col w x ((t + 1) / 147) ((t + 1) % 147) idx)
    (q : Fin 293) (h : 147 * q.val + 146 < N) (d : Fin 64) (k : Fin 4096) :
    f (147 * q.val + 146) h (vx2 d k) = gatherRaw S E col w x d (edgeAt q k) := by
  rw [fold_sum f (fun t idx => addend S E col w x (t / 147) (t % 147) idx) 147 h0 hs q.val 146 (by omega) h (vx2 d k),
    ← sum_addend_eq_gatherRaw S E col w x q d k]
  refine Finset.sum_congr rfl fun s hs' => ?_
  have hs'' : s < 147 := Finset.mem_range.mp hs'
  have e1 : (147 * q.val + s) / 147 = q.val := by omega
  have e2 : (147 * q.val + s) % 147 = s := by omega
  show addend S E col w x ((147 * q.val + s) / 147) ((147 * q.val + s) % 147) (vx2 d k) = _
  rw [e1, e2]
end Fold
end Cert.KernelIdeal.GatherPay
end
-- ==== Proof.KiGatherValue.lean ====
import proofs.«426118_j38259568672975_2_alg».proof.Proof.KiGatherDat
import proofs.«426118_j38259568672975_2_alg».proof.Proof.KiGatherPay
set_option synthInstance.maxSize 4096
set_option maxRecDepth 16384
noncomputable section
namespace Cert.KernelIdeal.Hand0
open Idealize.ShloMosaic Idealize.SL.Sem
open Idealize.ShloMosaic.ValueIdx
open scoped BigOperators
local notation "vx1" => Idealize.ShloMosaic.ValueIdx.ix1
local notation "vx2" => Idealize.ShloMosaic.ValueIdx.ix2
open Cert.KernelIdeal.GatherPay
section Final
open Cert.Spmm Cert.KernelIdeal.Gen
open Idealize.ShloMosaic.TcCoe Idealize.ShloMosaic.Rounds
open Idealize.ShloMosaic.Pipeline (Dat)
variable (W : Dev nD → Valuation τ sig (Elt Ideal)) (a0 : (pcfg0 (F := Ideal)).Adm) (c : Dev nD)
abbrev tabLo : Fin 293 → BitVec 32 := fun b => (a0.1 0 : S293.Idx → BitVec 32) (vx1 b)
abbrev tabHi : Fin 293 → BitVec 32 := fun b => (a0.1 1 : S293.Idx → BitVec 32) (vx1 b)
abbrev colArr : Fin NE → BitVec 32 :=
  fun e => (W c (Proc.devRef .tc (Pipeline.arrRef spec0 0)) : S1200128.Idx → BitVec 32) (vx1 e)
abbrev wArr : Fin NE → EReal :=
  fun e => (W c (Proc.devRef .tc (Pipeline.arrRef spec0 1)) : S1200128.Idx → EReal) (vx1 e)
abbrev xArr : Fin 64 → Fin NN → EReal :=
  fun d n => (W c (Proc.devRef .tc (Pipeline.arrRef spec0 2)) : S64x150528.Idx → EReal) (vx2 d n)
theorem payZero (idx : S64x4096.Idx) : (Gen.k0_pay1 (F := Ideal)) idx = 0 := payZero_apply idx
theorem rowLt (t : Fin grid0.N) : t.val / 147 < 293 := by
  have hN : t.val < 43071 := lt_of_lt_of_eq t.isLt gridN
  omega
theorem colLt (t : Fin grid0.N) : t.val % 147 < 147 := Nat.mod_lt _ (by decide)
/-- The cell a point's two table words are read from is its row. -/
theorem wordIdx_eq (t : Fin grid0.N) :
    LoadRect.idx (Rect.unit (s := S293) (k0_off1 (grid0.coords t)) S1.size (k0_off1_inb (grid0.coords t))).toLoadRect
      (Shape.Idx.first (numel1_S1.symm ▸ Nat.one_pos)) = vx1 ⟨t.val / 147, rowLt t⟩ := by
  have hN := rowLt t
  refine funext fun a => Fin.ext ?_
  match a with
  | ⟨0, _⟩ =>
    show (BitVec.ofNat 32 (grid0.coords t 0).val).toNat + 1 * 0 = t.val / 147
    rw [coordsI t, BitVec.toNat_ofNat]
    omega
theorem wordLo_eq (t : Fin (cfg0 a0).N) : wordLo a0 c t = tabLo a0 ⟨t.val / 147, rowLt t⟩ :=
  congrArg (a0.1 0 : S293.Idx → BitVec 32) (wordIdx_eq t)
theorem wordHi_eq (t : Fin (cfg0 a0).N) : wordHi a0 c t = tabHi a0 ⟨t.val / 147, rowLt t⟩ :=
  congrArg (a0.1 1 : S293.Idx → BitVec 32) (wordIdx_eq t)
/-- The two table words at a point are the row's entries of the two span tables, so the test reads: lo ≤ column ≤ hi. -/
theorem hit_iff (t : Fin (cfg0 a0).N) :
    bracketed a0 c t ↔ (tabLo a0 ⟨t.val / 147, rowLt t⟩).toInt ≤ ((t.val % 147 : ℕ) : ℤ)
      ∧ ((t.val % 147 : ℕ) : ℤ) ≤ (tabHi a0 ⟨t.val / 147, rowLt t⟩).toInt := by
  refine (valid_iff (grid0.coords t 1).val (grid0.coords t 1).isLt (wordLo a0 c t) (wordHi a0 c t)).trans ?_
  rw [coordsJ t, wordLo_eq, wordHi_eq]
/-- An index of the edge arrays whose value is the row's block offset plus k is the row's k-th edge. -/
theorem edgeIdx_eq (t : Fin grid0.N) (k : Fin 4096) (i : S1200128.Idx)
    (hi : (i 0).val = (BitVec.ofNat 32 (grid0.coords t 0).val).toNat * 4096 + 1 * k.val) :
    i = vx1 (edgeAt ⟨t.val / 147, rowLt t⟩ k) := by
  have hN := rowLt t
  refine funext fun a => Fin.ext ?_
  match a with
  | ⟨0, _⟩ =>
    show (i 0).val = 4096 * (t.val / 147) + k.val
    rw [hi, coordsI t, BitVec.toNat_ofNat]
    omega
theorem iblk_col (t : Fin (cfg0 a0).N) (k : Fin 4096) :
    (iblk0 W a0 c 0 t : IVec S4096 32) (vx1 k) = colArr W c (edgeAt ⟨t.val / 147, rowLt t⟩ k) :=
  congrArg (W c (Proc.devRef .tc (Pipeline.arrRef spec0 0)) : S1200128.Idx → BitVec 32)
    (edgeIdx_eq t k ((((cfg0 a0).win 0).blk t).view.emb (vx1 k)) rfl)
theorem iblk_w (t : Fin (cfg0 a0).N) (k : Fin 4096) :
    (iblk0 W a0 c 1 t : FVec Ideal S4096 .f32) (vx1 k) = wArr W c (edgeAt ⟨t.val / 147, rowLt t⟩ k) :=
  congrArg (W c (Proc.devRef .tc (Pipeline.arrRef spec0 1)) : S1200128.Idx → EReal)
    (edgeIdx_eq t k ((((cfg0 a0).win 1).blk t).view.emb (vx1 k)) rfl)
theorem iblk_x (t : Fin (cfg0 a0).N) (d : Fin 64) (n : Fin 1024) :
    (iblk0 W a0 c 2 t : FVec Ideal S64x1024 .bf16) (vx2 d n) = xArr W c d (nodeAt ⟨t.val % 147, colLt t⟩ n) := by
  show (W c (Proc.devRef .tc (Pipeline.arrRef spec0 2)) : S64x150528.Idx → EReal)
    ((((cfg0 a0).win 2).blk t).view.emb (vx2 d n)) = _
  refine congrArg _ (funext fun a => Fin.ext ?_)
  match a with
  | ⟨0, _⟩ =>
    show (0#32 : BitVec 32).toNat * 64 + 1 * d.val = d.val
    show 0 * 64 + 1 * d.val = d.val
    omega
  | ⟨1, _⟩ =>
    show (BitVec.ofNat 32 (grid0.coords t 1).val).toNat * 1024 + 1 * n.val = 1024 * (t.val % 147) + n.val
    rw [coordsJ t, BitVec.toNat_ofNat]
    omega
/-- One point adds its addend, which is zero where the span test fails. -/
theorem accStep_apply (t : Fin (cfg0 a0).N) (z : FVec Ideal S64x4096 .f32) (idx : S64x4096.Idx) :
    accStep W a0 c t z idx
      = z idx + addend (tabLo a0) (tabHi a0) (colArr W c) (wArr W c) (xArr W c) (t.val / 147) (t.val % 147) idx := by
  unfold accStep
  by_cases h : bracketed a0 c t
  · rw [if_pos h]
    have hact := (hit_iff a0 c t).mp h
    have e := payAdd_eq_add_addend (tabLo a0) (tabHi a0) (colArr W c) (wArr W c) (xArr W c) (grid0.coords t)
      ⟨t.val / 147, rowLt t⟩ (iblk0 W a0 c 0 t) (iblk0 W a0 c 1 t) (iblk0 W a0 c 2 t) z
      (fun k => iblk_col W a0 c t k) (fun k => iblk_w W a0 c t k)
      (fun d n => (iblk_x W a0 c t d n).trans (congrArg (fun j => xArr W c d (nodeAt j n)) (Fin.ext (coordsJ t).symm)))
      (by rw [coordsJ t]; exact hact) idx
    rw [coordsJ t] at e
    exact e
  · rw [if_neg h]
    have hna := fun h' => h ((hit_iff a0 c t).mpr h')
    rw [addend_of_not_active (tabLo a0) (tabHi a0) (colArr W c) (wArr W c) (xArr W c) ⟨t.val / 147, rowLt t⟩
      (t.val % 147) hna idx, add_zero]
theorem accAt_last (q : Fin 293) (h : 147 * q.val + 146 < (cfg0 a0).N) (d : Fin 64) (k : Fin 4096) :
    accAt W a0 c (147 * q.val + 146) h (vx2 d k)
      = gatherRaw (tabLo a0) (tabHi a0) (colArr W c) (wArr W c) (xArr W c) d (edgeAt q k) := by
  refine fold_eq_gatherRaw (tabLo a0) (tabHi a0) (colArr W c) (wArr W c) (xArr W c)
    (fun n hn idx => accAt W a0 c n hn idx) ?_ ?_ q h d k
  · intro t ht h0 idx
    show accAt W a0 c (⟨t, ht⟩ : Fin (cfg0 a0).N).val (⟨t, ht⟩ : Fin (cfg0 a0).N).isLt idx = _
    rw [accAt_first W a0 c ⟨t, ht⟩ h0, accStep_apply, payZero, zero_add]
  · intro t ht hne idx
    show accAt W a0 c (⟨t + 1, ht⟩ : Fin (cfg0 a0).N).val (⟨t + 1, ht⟩ : Fin (cfg0 a0).N).isLt idx = _
    rw [accAt_next W a0 c ⟨t + 1, ht⟩ hne, accStep_apply]
    all_goals rfl
abbrev sweep : S64x1200128.Idx → EReal :=
  fun idx => gatherRaw (tabLo a0) (tabHi a0) (colArr W c) (wArr W c) (xArr W c) (idx 0) (idx 1)
theorem flush_iff (t : Fin (cfg0 a0).N) : ((cfg0 a0).win 3).flush t = true ↔ t.val % 147 = 146 := by
  have hN := rowLt t
  constructor
  · intro hf
    by_contra h
    rw [noFlush0_3 a0 t h] at hf
    exact Bool.false_ne_true hf
  · intro h
    refine (((cfg0 a0).win 3).flush_out rfl t).mpr ?_
    by_cases e : t.val + 1 = 43071
    · exact Or.inl (e.trans gridN.symm)
    · have h1 : t.val + 1 < grid0.N := by rw [gridN]; omega
      refine Or.inr ⟨h1, fun heq => ?_⟩
      have hI := congrFun (show cc0_transform_3 (grid0.coords ⟨t.val + 1, h1⟩) = cc0_transform_3 (grid0.coords t) from heq) 1
      have hI' : (BitVec.ofNat 32 (grid0.coords ⟨t.val + 1, h1⟩ 0).val).toNat = (BitVec.ofNat 32 (grid0.coords t 0).val).toNat := hI
      rw [coordsI, coordsI, BitVec.toNat_ofNat, BitVec.toNat_ofNat] at hI'
      have hI'' : (t.val + 1) / 147 % 2 ^ 32 = t.val / 147 % 2 ^ 32 := hI'
      omega
/-- At a last-column point the output's block equals that block of the swept product. -/
theorem flushed_eq (dat : Dat τ (Elt Ideal) Unit ℕ (UR sig nD τ) ℕ (cfg0 a0) c)
    (hafter : ∀ t : Fin (cfg0 a0).N, dat.after 3 t = accAt W a0 c t.val t.isLt)
    (t : Fin (cfg0 a0).N) (hl : t.val % 147 = 146) :
    dat.flushed 3 t = (((cfg0 a0).win 3).blk t).view.read (Elt Ideal) (sweep W a0 c) := by
  have hq := rowLt t
  have ht : t.val = 147 * (t.val / 147) + 146 := by omega
  have hacc : ∀ (d : Fin 64) (k : Fin 4096), accAt W a0 c t.val t.isLt (vx2 d k)
      = gatherRaw (tabLo a0) (tabHi a0) (colArr W c) (wArr W c) (xArr W c) d (edgeAt ⟨t.val / 147, hq⟩ k) := by
    intro d k
    have key : ∀ (n : Nat) (hn : n < (cfg0 a0).N), n = 147 * (t.val / 147) + 146 →
        accAt W a0 c n hn (vx2 d k)
          = gatherRaw (tabLo a0) (tabHi a0) (colArr W c) (wArr W c) (xArr W c) d (edgeAt ⟨t.val / 147, hq⟩ k) := by
      intro n hn e; subst e
      exact accAt_last W a0 c ⟨t.val / 147, hq⟩ hn d k
    exact key t.val t.isLt ht
  show ((cfg0 a0).win 3).cut ((cfg0 a0).grid.coords t) (dat.after 3 t) = _
  rw [hafter t]
  refine funext fun (y : S64x4096.Idx) => ?_
  have hy0 : (y 0).val < 64 := (y 0).isLt
  have hy1 : (y 1).val < 4096 := (y 1).isLt
  have hx : ((cfg0 a0).win 3).xinj ((cfg0 a0).grid.coords t) y
      = vx2 (⟨(y 0).val, hy0⟩ : Fin 64) (⟨(y 1).val, hy1⟩ : Fin 4096) :=
    funext fun a => Fin.ext (by match a with | ⟨0, _⟩ => rfl | ⟨1, _⟩ => rfl)
  show accAt W a0 c t.val t.isLt (((cfg0 a0).win 3).xinj ((cfg0 a0).grid.coords t) y)
    = sweep W a0 c ((((cfg0 a0).win 3).blk t).view.emb y)
  rw [hx, hacc ⟨(y 0).val, hy0⟩ ⟨(y 1).val, hy1⟩]
  refine congrArg₂ (gatherRaw (tabLo a0) (tabHi a0) (colArr W c) (wArr W c) (xArr W c)) (Fin.ext ?_) (Fin.ext ?_)
  · show (y 0).val = 0 * 64 + 1 * (y 0).val
    omega
  · show 4096 * (t.val / 147) + (y 1).val = (BitVec.ofNat 32 (grid0.coords t 0).val).toNat * 4096 + 1 * (y 1).val
    rw [coordsI t, BitVec.toNat_ofNat]
    omega
set_option backward.isDefEq.respectTransparency.types false in
theorem mem_blk (t : Fin (cfg0 a0).N) (i : S64x1200128.Idx) :
    i ∈ (((cfg0 a0).win 3).blk t).view.set ↔ 4096 * (t.val / 147) ≤ (i 1).val ∧ (i 1).val < 4096 * (t.val / 147) + 4096 := by
  have hN := rowLt t
  show i ∈ ((View.whole (Pipeline.arrRef spec0 3)).slice (((cfg0 a0).win 3).rect t)).set ↔ _
  rw [View.set_slice_whole]
  show i ∈ (Rect.unit _ _ _).set ↔ _
  rw [Rect.mem_set_unit]
  constructor
  · intro h
    have h1 : (BitVec.ofNat 32 (grid0.coords t 0).val).toNat * 4096 ≤ (i 1).val
        ∧ (i 1).val < (BitVec.ofNat 32 (grid0.coords t 0).val).toNat * 4096 + 4096 := h 1
    rw [coordsI t, BitVec.toNat_ofNat] at h1
    omega
  · intro h a
    match a with
    | ⟨0, _⟩ =>
      show 0 * 64 ≤ (i 0).val ∧ (i 0).val < 0 * 64 + 64
      have h0 : (i 0).val < 64 := (i 0).isLt
      omega
    | ⟨1, _⟩ =>
      show (BitVec.ofNat 32 (grid0.coords t 0).val).toNat * 4096 ≤ (i 1).val
        ∧ (i 1).val < (BitVec.ofNat 32 (grid0.coords t 0).val).toNat * 4096 + 4096
      rw [coordsI t, BitVec.toNat_ofNat]
      omega
/-- Every output column lies in the output block of the last-column point of its row of the grid. -/
theorem cover (i : S64x1200128.Idx) :
    ∃ t : Fin (cfg0 a0).N, ((cfg0 a0).win 3).flush t = true ∧ i ∈ (((cfg0 a0).win 3).blk t).view.set := by
  have hi : (i 1).val < 1200128 := (i 1).isLt
  have hb : 147 * ((i 1).val / 4096) + 146 < grid0.N := by rw [gridN]; omega
  refine ⟨⟨147 * ((i 1).val / 4096) + 146, hb⟩, (flush_iff a0 _).mpr ?_, (mem_blk a0 _ i).mpr ?_⟩
  · show (147 * ((i 1).val / 4096) + 146) % 147 = 146
    omega
  · show 4096 * ((147 * ((i 1).val / 4096) + 146) / 147) ≤ (i 1).val
      ∧ (i 1).val < 4096 * ((147 * ((i 1).val / 4096) + 146) / 147) + 4096
    have e : (147 * ((i 1).val / 4096) + 146) / 147 = (i 1).val / 4096 := by omega
    rw [e]
    omega
theorem arr_final (dat : Dat τ (Elt Ideal) Unit ℕ (UR sig nD τ) ℕ (cfg0 a0) c)
    (hafter : ∀ t : Fin (cfg0 a0).N, dat.after 3 t = accAt W a0 c t.val t.isLt) :
    dat.arrAt 3 (cfg0 a0).N = sweep W a0 c :=
  dat.arrAt_eq_of_cover 3 (sweep W a0 c)
    (fun t hf => flushed_eq W a0 c dat hafter t ((flush_iff a0 t).mp hf)) (cover a0)
theorem dat0_final :
    (dat0 (F := Ideal) W a0 c).arrAt 3 (cfg0 a0).N
      = fun idx : S64x1200128.Idx => Cert.Spmm.gatherRaw
          (fun b : Fin 293 => (a0.1 0 : S293.Idx → BitVec 32) (Idealize.ShloMosaic.ValueIdx.ix1 b))
          (fun b : Fin 293 => (a0.1 1 : S293.Idx → BitVec 32) (Idealize.ShloMosaic.ValueIdx.ix1 b))
          (fun e : Fin 1200128 => (W c (Proc.devRef .tc (Pipeline.arrRef spec0 0)) : S1200128.Idx → BitVec 32) (Idealize.ShloMosaic.ValueIdx.ix1 e))
          (fun e : Fin 1200128 => (W c (Proc.devRef .tc (Pipeline.arrRef spec0 1)) : S1200128.Idx → EReal) (Idealize.ShloMosaic.ValueIdx.ix1 e))
          (fun (d : Fin 64) (n : Fin 150528) => (W c (Proc.devRef .tc (Pipeline.arrRef spec0 2)) : S64x150528.Idx → EReal) (Idealize.ShloMosaic.ValueIdx.ix2 d n))
          (idx 0) (idx 1) :=
  arr_final W a0 c (dat0 W a0 c) (fun t => (after0_3 W a0 c t).trans (outsAt0_fst W a0 c t.val t.isLt))
end Final
end Cert.KernelIdeal.Hand0
end
-- ==== Proof.KiScatterPay.lean ====
import proofs.«426118_j38259568672975_2_alg».proof.Proof.Gen.KernelIdeal.Skeleton
import Idealize.ShloMosaic.Lib.ValueLayout
import Idealize.ShloMosaic.Lib.StackMember
import proofs.«426118_j38259568672975_2_alg».proof.Proof.SpmmMath
import proofs.«426118_j38259568672975_2_alg».proof.Proof.KiScatterBody
noncomputable section
namespace Cert.KernelIdeal.ScatterPay
open Idealize.ShloMosaic Idealize.ShloMosaic.ValueIdx Idealize.ShloMosaic.StackMember
open Cert.KernelIdeal.Gen Cert.KernelIdeal.ScatterBody
open scoped BigOperators
local notation "vx1" => Idealize.ShloMosaic.ValueIdx.ix1
local notation "vx2" => Idealize.ShloMosaic.ValueIdx.ix2
theorem toNat_ofNat_small {n b : Nat} (h : n < b) (hb : b ≤ 293) : (BitVec.ofNat 32 n).toNat = n := by
  rw [BitVec.toNat_ofNat]; exact Nat.mod_eq_of_lt (by omega)
theorem wordA_eq (i : grid1.Coords) (T : S293.Idx → Elt Ideal .i32) :
    wordA i T = T (vx1 (⟨(i 1).val, (i 1).isLt⟩ : Fin 293)) := by
  show T ((Rect.unit (s := S293) (k1_off1 i) S1.size (k1_off1_inb i)).emb (Shape.Idx.first _)) = _
  refine congrArg T (funext fun a => Fin.ext ?_)
  match a with
  | ⟨0, _⟩ =>
    show (k1_off1 i) 0 + 1 * 0 = (i 1).val
    rw [k1_off1_eq]
    rfl
theorem wordB_eq (i : grid1.Coords) (T : S293.Idx → Elt Ideal .i32) :
    wordB i T = T (vx1 (⟨(i 1).val, (i 1).isLt⟩ : Fin 293)) := wordA_eq i T
theorem condIn_iff (i : grid1.Coords) (T1 T2 : S293.Idx → Elt Ideal .i32) :
    condIn i T1 T2 ↔
      BitVec.toInt (T1 (vx1 (⟨(i 1).val, (i 1).isLt⟩ : Fin 293))) ≤ (((i 0).val : ℕ) : ℤ)
        ∧ (((i 0).val : ℕ) : ℤ) ≤ BitVec.toInt (T2 (vx1 (⟨(i 1).val, (i 1).isLt⟩ : Fin 293))) := by
  have hr : (i 0).val < 147 := (i 0).isLt
  have hnat : (BitVec.ofNat 32 (i 0).val).toNat = (i 0).val := toNat_ofNat_small hr (by decide)
  have hint : (BitVec.ofNat 32 (i 0).val).toInt = (((i 0).val : ℕ) : ℤ) := by
    rw [BitVec.toInt_eq_toNat_of_lt (by rw [hnat]; omega), hnat]
  show Scalar.cmpi .ne (Scalar.extui (Scalar.andi (Scalar.cmpi .sge (BitVec.ofNat 32 (i 0).val) (wordA i T1))
    (Scalar.cmpi .sle (BitVec.ofNat 32 (i 0).val) (wordB i T2)))) 0#32 = 1#1 ↔ _
  rw [Scalar.guard_iff, Scalar.andi, IntOp.andi_eq_one, Scalar.cmpi, Scalar.cmpi, IntOp.cmpi_sge, IntOp.cmpi_sle, hint,
    wordA_eq, wordB_eq]
theorem shapeCast_col_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (vx2 k u) = x (vx1 k) :=
  shapeCast_apply x h _ _ (by
    have hu : u.val = 0 := by omega
    rw [Shape.rowMajor_val_two, Shape.rowMajor_val_one]
    show k.val = k.val * 1 + u.val
    rw [hu, Nat.mul_one, Nat.add_zero])
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (vx2 p c) = v (vx2 p (0 : Fin 1)) := by
  refine broadcastTo_apply v h (vx2 p c) (vx2 p (0 : Fin 1)) fun ax => ?_
  match ax with
  | ⟨0, _⟩ =>
    show p.val = if a = 1 then 0 else p.val
    split
    · have := p.isLt; omega
    · rfl
  | ⟨1, _⟩ => rfl
theorem cmpi_apply {s : Shape} {w : Nat} (p : CmpIPredicate) (x y : IVec s w) (j : s.Idx) :
    cmpi p x y j = IntOp.cmpi p (x j) (y j) := rfl
theorem addi_apply {s : Shape} {w : Nat} (x y : IVec s w) (j : s.Idx) : addi x y j = IntOp.addi (x j) (y j) := rfl
theorem sitofp_extui_cmpi_eq (x y : BitVec 32) :
    (FloatOps.sitofp .f32 ((IntOp.cmpi .eq x y).setWidth 32) : Ideal .f32) = if x = y then (1 : EReal) else 0 := by
  show ((((IntOp.cmpi .eq x y).setWidth 32).toInt : ℝ) : EReal) = _
  rw [toInt_setWidth_bit]
  by_cases h : x = y
  · subst h
    rw [if_pos rfl]
    have hb : IntOp.cmpi .eq x x = 1#1 := IntOp.cmpi_eq.mpr rfl
    rw [hb]
    simp
  · rw [if_neg h]
    have hb : IntOp.cmpi .eq x y = 0#1 := eq_zero_of_ne_one fun hone => h (IntOp.cmpi_eq.mp hone)
    rw [hb]
    simp
theorem word_eq_iff (w : BitVec 32) (r n : Nat) (hr : r < 147) (hn : n < 1024) :
    w = BitVec.ofNat 32 r * 1024#32 + BitVec.ofNat 32 n ↔ w.toNat = 1024 * r + n := by
  have hv : (BitVec.ofNat 32 r * 1024#32 + BitVec.ofNat 32 n).toNat = 1024 * r + n := by
    rw [BitVec.toNat_add, BitVec.toNat_mul, BitVec.toNat_ofNat, BitVec.toNat_ofNat, BitVec.toNat_ofNat]
    norm_num
    omega
  constructor
  · intro h; rw [h, hv]
  · intro h; exact BitVec.eq_of_toNat_eq (h.trans hv.symm)
theorem mask_apply (v19 : IVec S4096 32) (c : BitVec 32)
    (hcast : S4096.ShapeCasts S4096) (hcol : S4096.ShapeCasts S4096x1) (hbcol : S4096x1.Broadcasts S4096x1024)
    (hiota : S1x1024.Iotas .tc 32 [1]) (hbrow : S1x1024.Broadcasts S4096x1024) (hwid : 1 < 32)
    (hbits : FTy.bits .bf16 < FTy.bits .f32) (k : Fin 4096) (n : Fin 1024) :
    (truncf .bf16 (sitofp .f32 (extui 32 (cmpi .eq
        (broadcastTo S4096x1024 (shapeCast S4096x1 (shapeCast S4096 v19 hcast) hcol) hbcol)
        (broadcastTo S4096x1024 (addi (broadcast S1x1024 c) (iota .tc S1x1024 32 [1] hiota)) hbrow)) hwid)
          : FVec Ideal S4096x1024 .f32) hbits : FVec Ideal S4096x1024 .bf16) (vx2 k n)
      = if v19 (vx1 k) = c + BitVec.ofNat 32 n.val then (1 : EReal) else 0 := by
  rw [truncf_apply, sitofp_apply, extui_apply, cmpi_apply, broadcastTo_col_apply, shapeCast_col_apply,
    shapeCast_self, broadcastTo_1b_ab_apply, addi_apply, broadcast_apply, iota_single_apply]
  exact sitofp_extui_cmpi_eq _ _
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (vx2 a b)
      = ∑ c : Fin k, A (vx2 a c) * B (vx2 c b) :=
  (congrFun (matmul_zero_eq_dotGeneral (DotDims.plain m k n) prec A B) (vx2 a b)).trans
    (dotGeneral_plain_apply prec A B a b)
theorem payZero_apply (j : S64x1024.Idx) : (k1_pay1 (F := Ideal)) j = (0 : EReal) := by
  unfold k1_pay1
  rw [shapeCast_self]
  show Ideal.ofBits .f32 0x00000000#32 = 0
  exact Ideal.ofBits_zero_f32
theorem payAdd_apply (i : grid1.Coords) (v19 : IVec S4096 32) (v28 : FVec Ideal S64x4096 .f32)
    (v31 : FVec Ideal S64x1024 .f32) (d : Fin 64) (n : Fin 1024) :
    k1_pay2 (F := Ideal) i v19 v28 v31 (vx2 d n)
      = v31 (vx2 d n) + ∑ k : Fin 4096, v28 (vx2 d k) *
          (if v19 (vx1 k) = BitVec.ofNat 32 (i 0).val * 1024#32 + BitVec.ofNat 32 n.val then (1 : EReal) else 0) := by
  unfold k1_pay2
  dsimp only [matmul]
  rw [shapeCast_self, addf_apply]
  refine congrArg (v31 (vx2 d n) + ·) ?_
  refine (matmul_plain_zero_apply none _ _ d n).trans (Finset.sum_congr rfl fun k _ => ?_)
  refine congrArg₂ (· * ·) ?_ ?_
  · rw [truncf_apply, shapeCast_self]
  · exact mask_apply v19 _ _ _ _ _ _ _ _ k n
section Fold
open Cert.Spmm
variable (S E : Fin 293 → BitVec 32) (row : Fin NE → BitVec 32) (v : Fin 64 → Fin NE → EReal)
def addend (r s : Nat) (idx : S64x1024.Idx) : EReal :=
  if hlt : s < 293 then
    if (S ⟨s, hlt⟩).toInt ≤ ((r : ℕ) : ℤ) ∧ ((r : ℕ) : ℤ) ≤ (E ⟨s, hlt⟩).toInt then
      ∑ k : Fin 4096, v (idx 0) (edgeAt ⟨s, hlt⟩ k) *
        (if (row (edgeAt ⟨s, hlt⟩ k)).toNat = 1024 * r + (idx 1).val then 1 else 0)
    else 0
  else 0
theorem addend_of_not_active (r : Nat) (s : Fin 293)
    (h : ¬((S s).toInt ≤ ((r : ℕ) : ℤ) ∧ ((r : ℕ) : ℤ) ≤ (E s).toInt)) (idx : S64x1024.Idx) :
    addend S E row v r s.val idx = 0 := by
  unfold addend
  rw [dif_pos s.isLt]
  exact if_neg h
/-- One accumulation adds, at (d, n), the values of the edges of block s whose row id is node n of block r. -/
theorem payAdd_eq_add_addend (i : grid1.Coords) (s : Fin 293) (v19 : IVec S4096 32) (v28 : FVec Ideal S64x4096 .f32)
    (acc : FVec Ideal S64x1024 .f32)
    (hrow : ∀ k : Fin 4096, v19 (vx1 k) = row (edgeAt s k))
    (hv : ∀ (d : Fin 64) (k : Fin 4096), v28 (vx2 d k) = v d (edgeAt s k))
    (hact : (S s).toInt ≤ (((i 0).val : ℕ) : ℤ) ∧ (((i 0).val : ℕ) : ℤ) ≤ (E s).toInt) (idx : S64x1024.Idx) :
    k1_pay2 (F := Ideal) i v19 v28 acc idx = acc idx + addend S E row v (i 0).val s.val idx := by
  obtain ⟨d, n, rfl⟩ : ∃ (d : Fin 64) (n : Fin 1024), idx = vx2 d n := ⟨idx 0, idx 1, eq_ix2 idx⟩
  have hr : (i 0).val < 147 := (i 0).isLt
  rw [payAdd_apply]
  refine congrArg (acc (vx2 d n) + ·) ?_
  unfold addend
  rw [dif_pos s.isLt]
  refine Eq.trans ?_ (if_pos hact).symm
  refine Finset.sum_congr rfl fun k _ => ?_
  rw [hrow k, hv d k]
  refine congrArg (v d (edgeAt s k) * ·) ?_
  exact if_congr (word_eq_iff _ _ _ hr n.isLt) rfl rfl
theorem sum_addend_eq_scatterRaw (r : Fin 147) (d : Fin 64) (n : Fin 1024) :
    ∑ s ∈ Finset.range 293, addend S E row v r.val s (vx2 d n) = scatterRaw S E row v d (nodeAt r n) := by
  rw [Finset.sum_range]
  unfold scatterRaw
  refine Finset.sum_congr rfl fun b _ => ?_
  have hdiv : (nodeAt r n).val / 1024 = r.val := by
    show (1024 * r.val + n.val) / 1024 = r.val
    have := n.isLt; omega
  unfold addend
  rw [dif_pos b.isLt, hdiv]
  rfl
theorem fold_eq_scatterRaw {N : Nat} (f : (t : Nat) → t < N → S64x1024.Idx → EReal)
    (hreset : ∀ (t : Nat) (h : t < N), t % 293 = 0 → ∀ idx, f t h idx = addend S E row v (t / 293) (t % 293) idx)
    (hstep : ∀ (t : Nat) (h : t + 1 < N), ¬(t + 1) % 293 = 0 → ∀ idx,
      f (t + 1) h idx = f t (Nat.lt_of_succ_lt h) idx + addend S E row v ((t + 1) / 293) ((t + 1) % 293) idx)
    (r : Fin 147) (hlast : 293 * r.val + 292 < N) (d : Fin 64) (n : Fin 1024) :
    f (293 * r.val + 292) hlast (vx2 d n) = scatterRaw S E row v d (nodeAt r n) := by
  have key : ∀ (j : Nat) (hj : j < 293) (hjN : 293 * r.val + j < N), f (293 * r.val + j) hjN (vx2 d n)
      = ∑ s ∈ Finset.range (j + 1), addend S E row v r.val s (vx2 d n) := by
    intro j
    induction j with
    | zero =>
      intro hj hjN
      have ediv : (293 * r.val + 0) / 293 = r.val := by omega
      have emod : (293 * r.val + 0) % 293 = 0 := by omega
      refine (hreset (293 * r.val + 0) hjN emod (vx2 d n)).trans ?_
      rw [ediv, emod, Finset.sum_range_one]
    | succ j ih =>
      intro hj hjN
      have ediv : (293 * r.val + j + 1) / 293 = r.val := by omega
      have emod : (293 * r.val + j + 1) % 293 = j + 1 := by omega
      have hne : ¬(293 * r.val + j + 1) % 293 = 0 := by omega
      refine (hstep (293 * r.val + j) hjN hne (vx2 d n)).trans ?_
      rw [ih (by omega) (Nat.lt_of_succ_lt hjN), ediv, emod, Finset.sum_range_succ _ (j + 1)]
  rw [key 292 (by omega) hlast]
  exact sum_addend_eq_scatterRaw S E row v r d n
/-- At the last edge block the scratch has swept all 293 edge blocks: the sum is the whole row of the sparse product. -/
theorem fold_at_last {N : Nat} (f : (t : Nat) → t < N → S64x1024.Idx → EReal)
    (hreset : ∀ (t : Nat) (h : t < N), t % 293 = 0 → ∀ idx, f t h idx = addend S E row v (t / 293) (t % 293) idx)
    (hstep : ∀ (t : Nat) (h : t + 1 < N), ¬(t + 1) % 293 = 0 → ∀ idx,
      f (t + 1) h idx = f t (Nat.lt_of_succ_lt h) idx + addend S E row v ((t + 1) / 293) ((t + 1) % 293) idx)
    (t : Nat) (h : t < N) (hN : N ≤ 147 * 293) (hlast : t % 293 = 292) (d : Fin 64) (n : Fin 1024)
    (dd : Fin 64) (nd : Fin NN) (hdd : dd.val = d.val) (hnd : nd.val = 1024 * (t / 293) + n.val) :
    f t h (vx2 d n) = scatterRaw S E row v dd nd := by
  obtain ⟨r, rfl⟩ : ∃ r, t = 293 * r + 292 := ⟨t / 293, by omega⟩
  have hr : r < 147 := by omega
  have edd : dd = d := Fin.ext hdd
  have end' : nd = nodeAt ⟨r, hr⟩ n := Fin.ext (by
    rw [hnd]
    show 1024 * ((293 * r + 292) / 293) + n.val = 1024 * r + n.val
    omega)
  rw [edd, end']
  exact fold_eq_scatterRaw S E row v f hreset hstep ⟨r, hr⟩ h d n
end Fold
end Cert.KernelIdeal.ScatterPay
end
-- ==== Proof.KiScatterValue.lean ====
import proofs.«426118_j38259568672975_2_alg».proof.Proof.KiScatterDat
import proofs.«426118_j38259568672975_2_alg».proof.Proof.KiScatterPay
noncomputable section
namespace Cert.KernelIdeal.Hand1
open Idealize.ShloMosaic Idealize.ShloMosaic.ValueIdx Idealize.ShloMosaic.StackMember
open Cert.KernelIdeal.Gen
open scoped BigOperators
local notation "vx1" => Idealize.ShloMosaic.ValueIdx.ix1
local notation "vx2" => Idealize.ShloMosaic.ValueIdx.ix2
open Cert.KernelIdeal.ScatterPay Cert.KernelIdeal.ScatterBody
section Blocks
open Cert.Spmm
variable (W : Dev nD → Valuation τ sig (Elt Ideal)) (a1 : (pcfg1 (F := Ideal)).Adm) (c : Dev nD)
theorem payZero (idx : S64x1024.Idx) : (k1_pay1 (F := Ideal)) idx = (0 : EReal) := payZero_apply idx
theorem idxRow1 (i : grid1.Coords) : cc1_transform_0 i 0 = (i 1).val := toNat_ofNat_small (i 1).isLt (by decide)
theorem idxValA1 (i : grid1.Coords) : cc1_transform_1 i 0 = 0 := rfl
theorem idxValB1 (i : grid1.Coords) : cc1_transform_1 i 1 = (i 1).val := toNat_ofNat_small (i 1).isLt (by decide)
theorem idxOutA1 (i : grid1.Coords) : cc1_transform_2 i 0 = 0 := rfl
theorem idxOutB1 (i : grid1.Coords) : cc1_transform_2 i 1 = (i 0).val := toNat_ofNat_small (i 0).isLt (by decide)
abbrev tblS1 : Fin 293 → BitVec 32 := fun b => a1.1 0 (vx1 b)
abbrev tblE1 : Fin 293 → BitVec 32 := fun b => a1.1 1 (vx1 b)
abbrev rowOf1 : Fin NE → BitVec 32 := fun e => (W c (Proc.devRef .tc (Pipeline.arrRef spec1 0)) : S1200128.Idx → BitVec 32) (vx1 e)
abbrev valOf1 : Fin 64 → Fin NE → EReal := fun d e => (W c (Proc.devRef .tc (Pipeline.arrRef spec1 1)) : S64x1200128.Idx → EReal) (vx2 d e)
abbrev edgeOf1 (t : Fin (cfg1 a1).N) : Fin 293 := ⟨t.val % 293, Nat.mod_lt _ (by decide)⟩
theorem iblk1_row (t : Fin (cfg1 a1).N) (k : Fin 4096) :
    (iblk1 W a1 c 0 t : Vec Ideal S4096 .i32) (vx1 k) = rowOf1 W c (edgeAt (edgeOf1 a1 t) k) := by
  show (W c (Proc.devRef .tc (Pipeline.arrRef spec1 0)) : S1200128.Idx → BitVec 32)
      ((((cfg1 a1).win 0).blk t).view.emb (vx1 k))
    = (W c (Proc.devRef .tc (Pipeline.arrRef spec1 0)) : S1200128.Idx → BitVec 32) (vx1 (edgeAt (edgeOf1 a1 t) k))
  refine congrArg (W c (Proc.devRef .tc (Pipeline.arrRef spec1 0)) : S1200128.Idx → BitVec 32) (funext fun a => Fin.ext ?_)
  match a with
  | ⟨0, _⟩ =>
    show cc1_transform_0 (grid1.coords t) 0 * 4096 + 1 * k.val = 4096 * (t.val % 293) + k.val
    rw [idxRow1, coords_edge]
    omega
theorem iblk1_val (t : Fin (cfg1 a1).N) (d : Fin 64) (k : Fin 4096) :
    (iblk1 W a1 c 1 t : Vec Ideal S64x4096 .f32) (vx2 d k) = valOf1 W c d (edgeAt (edgeOf1 a1 t) k) := by
  show (W c (Proc.devRef .tc (Pipeline.arrRef spec1 1)) : S64x1200128.Idx → EReal)
      ((((cfg1 a1).win 1).blk t).view.emb (vx2 d k))
    = (W c (Proc.devRef .tc (Pipeline.arrRef spec1 1)) : S64x1200128.Idx → EReal) (vx2 d (edgeAt (edgeOf1 a1 t) k))
  refine congrArg (W c (Proc.devRef .tc (Pipeline.arrRef spec1 1)) : S64x1200128.Idx → EReal) (funext fun a => Fin.ext ?_)
  match a with
  | ⟨0, _⟩ =>
    show cc1_transform_1 (grid1.coords t) 0 * 64 + 1 * d.val = d.val
    rw [idxValA1]
    omega
  | ⟨1, _⟩ =>
    show cc1_transform_1 (grid1.coords t) 1 * 4096 + 1 * k.val = 4096 * (t.val % 293) + k.val
    rw [idxValB1, coords_edge]
    omega
/-- The two table words at a point are the edge block's entries of the two span tables, so the test reads: first ≤ node block ≤ last. -/
theorem cond1_w_point (t : Fin (cfg1 a1).N) :
    condIn (grid1.coords t) (tblFirst a1) (tblLast a1) ↔
      (tblS1 a1 (edgeOf1 a1 t)).toInt ≤ ((t.val / 293 : ℕ) : ℤ)
        ∧ ((t.val / 293 : ℕ) : ℤ) ≤ (tblE1 a1 (edgeOf1 a1 t)).toInt := by
  have hh := condIn_iff (grid1.coords t) (tblFirst a1) (tblLast a1)
  have e0 : ((grid1.coords t) 0).val = t.val / 293 := coords_node t
  have e1 : (⟨((grid1.coords t) 1).val, ((grid1.coords t) 1).isLt⟩ : Fin 293) = edgeOf1 a1 t := Fin.ext (coords_edge t)
  rw [e0, e1] at hh
  exact hh
/-- One point adds its edge block's addend to what the scratch held, zero at edge block 0. -/
theorem sout1_value (t : Fin (cfg1 a1).N) (xs : Vec Ideal S64x1024 .f32) (idx : S64x1024.Idx) :
    step (grid1.coords t) (tblFirst a1) (tblLast a1) (iblk1 W a1 c 0 t) (iblk1 W a1 c 1 t) xs idx
      = (if t.val % 293 = 0 then 0 else xs idx) + addend (tblS1 a1) (tblE1 a1) (rowOf1 W c) (valOf1 W c) (t.val / 293) (t.val % 293) idx := by
  have e0 : ((grid1.coords t) 0).val = t.val / 293 := coords_node t
  have hacc : ∀ z : Vec Ideal S64x1024 .f32, z idx = 0 →
      (if condFirst (grid1.coords t) then z else xs) idx = if t.val % 293 = 0 then 0 else xs idx := fun z hz => by
    by_cases h0 : t.val % 293 = 0
    · rw [if_pos ((hcond1_0 t).mpr h0), if_pos h0, hz]
    · rw [if_neg (mt (hcond1_0 t).mp h0), if_neg h0]
  unfold step
  by_cases hw : condIn (grid1.coords t) (tblFirst a1) (tblLast a1)
  · rw [if_pos hw]
    refine (payAdd_eq_add_addend (tblS1 a1) (tblE1 a1) (rowOf1 W c) (valOf1 W c) (grid1.coords t) (edgeOf1 a1 t) _ _ _
      (iblk1_row W a1 c t) (iblk1_val W a1 c t) (by rw [e0]; exact (cond1_w_point a1 t).mp hw) idx).trans ?_
    rw [e0]
    exact congrArg (· + _) (hacc _ (payZero idx))
  · have hz : addend (tblS1 a1) (tblE1 a1) (rowOf1 W c) (valOf1 W c) (t.val / 293) (t.val % 293) idx = 0 :=
      addend_of_not_active (tblS1 a1) (tblE1 a1) (rowOf1 W c) (valOf1 W c) (t.val / 293) (edgeOf1 a1 t)
        (fun hh => hw ((cond1_w_point a1 t).mpr hh)) idx
    rw [if_neg hw, hz, add_zero]
    exact hacc _ (payZero idx)
theorem scratch_reset1 (t : Nat) (h : t < (cfg1 a1).N) (h0 : t % 293 = 0) (idx : S64x1024.Idx) :
    (outsAt1 W a1 c t h).2 idx = addend (tblS1 a1) (tblE1 a1) (rowOf1 W c) (valOf1 W c) (t / 293) (t % 293) idx := by
  refine (congrFun (congrArg Prod.snd (outsAt1_step W a1 c ⟨t, h⟩ _ fun _ => rfl)) idx).trans ((sout1_value W a1 c ⟨t, h⟩ _ idx).trans ?_)
  rw [if_pos h0, zero_add]
theorem scratch_step1 (t : Nat) (h : t + 1 < (cfg1 a1).N) (h0 : ¬(t + 1) % 293 = 0) (idx : S64x1024.Idx) :
    (outsAt1 W a1 c (t + 1) h).2 idx
      = (outsAt1 W a1 c t (Nat.lt_of_succ_lt h)).2 idx + addend (tblS1 a1) (tblE1 a1) (rowOf1 W c) (valOf1 W c) ((t + 1) / 293) ((t + 1) % 293) idx := by
  refine (congrFun (congrArg Prod.snd (outsAt1_step W a1 c ⟨t + 1, h⟩ _ fun _ => rfl)) idx).trans ((sout1_value W a1 c ⟨t + 1, h⟩ _ idx).trans ?_)
  rw [if_neg h0]
  rfl
end Blocks
section Final
open Cert.Spmm
variable (W : Dev nD → Valuation τ sig (Elt Ideal)) (a1 : (pcfg1 (F := Ideal)).Adm) (c : Dev nD)
theorem flushOnly1 (t : Fin (cfg1 a1).N) (hf : ((cfg1 a1).win 2).flush t = true) : t.val % 293 = 292 := by
  by_contra hc
  rw [noFlush1_2 a1 t hc] at hf
  exact Bool.false_ne_true hf
theorem flushAt1 (t : Fin (cfg1 a1).N) (h : t.val % 293 = 292) : ((cfg1 a1).win 2).flush t = true := by
  have ht : t.val < 43071 := lt_of_lt_of_eq t.isLt hN
  refine (((cfg1 a1).win 2).flush_out rfl t).mpr ?_
  by_cases hl : t.val + 1 = 43071
  · exact Or.inl (hl.trans hN.symm)
  · have hnext : t.val + 1 < (cfg1 a1).grid.N := lt_of_lt_of_eq (by omega : t.val + 1 < 43071) hN.symm
    refine Or.inr ⟨hnext, fun heq => ?_⟩
    have e : cc1_transform_2 (grid1.coords ⟨t.val + 1, hnext⟩) 1 = cc1_transform_2 (grid1.coords t) 1 :=
      congrFun heq (⟨1, Nat.lt_succ_self 1⟩ : Fin 2)
    rw [idxOutB1, idxOutB1, coords_node, coords_node] at e
    have e' : (t.val + 1) / 293 = t.val / 293 := e
    omega
abbrev swept1 : S64x150528.Idx → EReal := fun idx =>
  scatterRaw (tblS1 a1) (tblE1 a1) (rowOf1 W c) (valOf1 W c) (idx 0) (idx 1)
theorem flushed1_eq (t : Fin (cfg1 a1).N) (hf : ((cfg1 a1).win 2).flush t = true) :
    (dat1 W a1 c).flushed 2 t = (((cfg1 a1).win 2).blk t).view.read (Elt Ideal) (swept1 W a1 c) := by
  have hlast := flushOnly1 a1 t hf
  show ((cfg1 a1).win 2).cut ((cfg1 a1).grid.coords t) ((dat1 W a1 c).after 2 t) = _
  rw [after1_2, outsAt1_fst]
  funext y
  obtain ⟨d, n, rfl⟩ : ∃ (d : Fin 64) (n : Fin 1024), y = vx2 d n := ⟨_, _, eq_ix2 (n0 := 64) (n1 := 1024) y⟩
  show (outsAt1 W a1 c t.val t.isLt).2 (vx2 d n)
    = scatterRaw (tblS1 a1) (tblE1 a1) (rowOf1 W c) (valOf1 W c) _ _
  refine fold_at_last (tblS1 a1) (tblE1 a1) (rowOf1 W c) (valOf1 W c) (fun u hu => (outsAt1 W a1 c u hu).2)
    (scratch_reset1 W a1 c) (scratch_step1 W a1 c) t.val t.isLt (le_of_eq hN) hlast d n _ _ ?_ ?_
  · show cc1_transform_2 (grid1.coords t) 0 * 64 + 1 * d.val = d.val
    rw [idxOutA1]; omega
  · show cc1_transform_2 (grid1.coords t) 1 * 1024 + 1 * n.val = 1024 * (t.val / 293) + n.val
    rw [idxOutB1, coords_node]; omega
/-- Every node column lies in the output block of the last-edge-block point of its node block. -/
theorem scover1 (i : S64x150528.Idx) :
    ∃ t : Fin (cfg1 a1).N, ((cfg1 a1).win 2).flush t = true ∧ i ∈ (((cfg1 a1).win 2).blk t).view.set := by
  have hi0 : (i 0).val < 64 := (i 0).isLt
  have hi1 : (i 1).val < 150528 := (i 1).isLt
  have htN : 293 * ((i 1).val / 1024) + 292 < (cfg1 a1).N := lt_of_lt_of_eq (by omega : _ < 43071) hN.symm
  refine ⟨⟨293 * ((i 1).val / 1024) + 292, htN⟩, flushAt1 a1 _ (by show (293 * ((i 1).val / 1024) + 292) % 293 = 292; omega), ?_⟩
  have he : (((cfg1 a1).win 2).blk ⟨293 * ((i 1).val / 1024) + 292, htN⟩).view.emb
      (vx2 (⟨(i 0).val, hi0⟩ : Fin 64) (⟨(i 1).val % 1024, Nat.mod_lt _ (by decide)⟩ : Fin 1024)) = i := by
    funext a
    apply Fin.ext
    match a with
    | ⟨0, _⟩ =>
      show cc1_transform_2 (grid1.coords ⟨293 * ((i 1).val / 1024) + 292, htN⟩) 0 * 64 + 1 * (i 0).val = (i 0).val
      rw [idxOutA1]; omega
    | ⟨1, _⟩ =>
      show cc1_transform_2 (grid1.coords ⟨293 * ((i 1).val / 1024) + 292, htN⟩) 1 * 1024 + 1 * ((i 1).val % 1024) = (i 1).val
      rw [idxOutB1, coords_node]
      show (293 * ((i 1).val / 1024) + 292) / 293 * 1024 + 1 * ((i 1).val % 1024) = (i 1).val
      omega
  have hm := View.emb_mem_set (((cfg1 a1).win 2).blk ⟨293 * ((i 1).val / 1024) + 292, htN⟩).view
    (vx2 (⟨(i 0).val, hi0⟩ : Fin 64) (⟨(i 1).val % 1024, Nat.mod_lt _ (by decide)⟩ : Fin 1024))
  rw [he] at hm
  exact hm
theorem dat1_final :
    (dat1 (F := Ideal) W a1 c).arrAt 2 (cfg1 a1).N = fun idx : S64x150528.Idx =>
      Cert.Spmm.scatterRaw
        (fun b : Fin 293 => a1.1 0 (vx1 b))
        (fun b : Fin 293 => a1.1 1 (vx1 b))
        (fun e : Fin Cert.Spmm.NE => (W c (Proc.devRef .tc (Pipeline.arrRef spec1 0)) : S1200128.Idx → BitVec 32) (vx1 e))
        (fun (d : Fin 64) (e : Fin Cert.Spmm.NE) => (W c (Proc.devRef .tc (Pipeline.arrRef spec1 1)) : S64x1200128.Idx → EReal) (vx2 d e))
        (idx 0) (idx 1) :=
  (dat1 W a1 c).arrAt_eq_of_cover 2 (swept1 W a1 c) (fun t hf => flushed1_eq W a1 c t hf) (scover1 a1)
end Final
end Cert.KernelIdeal.Hand1
end
-- ==== Proof.KiValue.lean ====
import proofs.«426118_j38259568672975_2_alg».proof.Proof.KiFamily
import proofs.«426118_j38259568672975_2_alg».proof.Proof.KiHost
import proofs.«426118_j38259568672975_2_alg».proof.Proof.KiHostX
import proofs.«426118_j38259568672975_2_alg».proof.Proof.KiReindex
import proofs.«426118_j38259568672975_2_alg».proof.Proof.KiGatherValue
import proofs.«426118_j38259568672975_2_alg».proof.Proof.KiScatterValue
import proofs.«426118_j38259568672975_2_alg».proof.Proof.KiGatherValue2
import proofs.«426118_j38259568672975_2_alg».proof.Proof.KiScatterValue3
import proofs.«426118_j38259568672975_2_alg».proof.Proof.KiGatherValue4
import proofs.«426118_j38259568672975_2_alg».proof.Proof.KiScatterValue5
import Idealize.ShloMosaic.Lib.ValueIdx
import Idealize.ShloMosaic.Lib.Pipeline.Value
import Idealize.ShloMosaic.Lib.StableHlo.Predicate
set_option maxRecDepth 16384
noncomputable section
namespace Cert.KernelIdeal.Hand
open Cert.KernelIdeal.Gen Cert.KernelIdeal.HostVal
open Idealize.ShloMosaic Idealize.ShloMosaic.TcCoe Idealize.SL.Sem
open Cert.Spmm (NE NN layerK gatherRaw scatterRaw takeCols sum3K sum3R refLayer restr)
section Keep
variable {F : FTy → Type} [FloatOps F]
variable (m : (ℓ : Loc nD τ sig) → Buf (Elt F) ℓ) (c : Dev nD)
theorem entry1_keep (r : Ref sig .tc) (hw : r ∉ hostOps1_W) (hn : r ≠ main_v60) : entry1 m c r = entry0 m c r :=
  (StableHlo.after_of_writes_sub hostOps1 _ hostOps1_writes hw).trans
    (Function.update_of_ne (StableHlo.devRef_ne_of_ne hn : (Proc.devRef .tc r : DevRef τ sig) ≠ Proc.devRef .tc main_v60) _ _)
theorem entry2_keep (r : Ref sig .tc) (hw : r ∉ hostOps2_W) (hn : r ≠ main_v62) : entry2 m c r = entry1 m c r :=
  (StableHlo.after_of_writes_sub hostOps2 _ hostOps2_writes hw).trans
    (Function.update_of_ne (StableHlo.devRef_ne_of_ne hn : (Proc.devRef .tc r : DevRef τ sig) ≠ Proc.devRef .tc main_v62) _ _)
theorem entry3_keep (r : Ref sig .tc) (hw : r ∉ hostOps3_W) (hn : r ≠ main_v65) : entry3 m c r = entry2 m c r :=
  (StableHlo.after_of_writes_sub hostOps3 _ hostOps3_writes hw).trans
    (Function.update_of_ne (StableHlo.devRef_ne_of_ne hn : (Proc.devRef .tc r : DevRef τ sig) ≠ Proc.devRef .tc main_v65) _ _)
theorem entry4_keep (r : Ref sig .tc) (hw : r ∉ hostOps4_W) (hn : r ≠ main_v67) : entry4 m c r = entry3 m c r :=
  (StableHlo.after_of_writes_sub hostOps4 _ hostOps4_writes hw).trans
    (Function.update_of_ne (StableHlo.devRef_ne_of_ne hn : (Proc.devRef .tc r : DevRef τ sig) ≠ Proc.devRef .tc main_v67) _ _)
theorem entry5_keep (r : Ref sig .tc) (hw : r ∉ hostOps5_W) (hn : r ≠ main_v70) : entry5 m c r = entry4 m c r :=
  (StableHlo.after_of_writes_sub hostOps5 _ hostOps5_writes hw).trans
    (Function.update_of_ne (StableHlo.devRef_ne_of_ne hn : (Proc.devRef .tc r : DevRef τ sig) ≠ Proc.devRef .tc main_v70) _ _)
end Keep
variable (m : (ℓ : Loc nD τ sig) → Buf (Elt Ideal) ℓ) (c : Dev nD)
abbrev pairIx {a b : Nat} (i : Fin a) (j : Fin b) : (⟨2, ![a, b]⟩ : Shape).Idx := Idealize.ShloMosaic.ValueIdx.ix2 i j
def feat (t : S64x150528.Idx → EReal) : Fin 64 → Fin NN → EReal := fun d n => t (pairIx d n)
def edgeT (t : S64x1200128.Idx → EReal) : Fin 64 → Fin NE → EReal := fun d e => t (pairIx d e)
theorem ofFin_eq {n : Nat} (k : Fin n) : Idealize.ShloMosaic.ValueIdx.ix1 k = Shape.Idx.ofFin k :=
  funext fun a => match a with | ⟨0, _⟩ => Fin.ext rfl
def layer : (Fin 64 → Fin NN → EReal) → Fin 64 → Fin NN → EReal :=
  layerK (Sc m c) (Ec m c) (Sr m c) (Er m c) (colS m c) (rowS m c) (wS m c) (gI m c)
theorem entry2_main_v10 : entry2 m c main_v10 = V19 m c main_v10 := (entry2_keep m c main_v10 (by decide) (by decide)).trans <| (entry1_keep m c main_v10 (by decide) (by decide))
theorem entry4_main_v10 : entry4 m c main_v10 = V19 m c main_v10 := (entry4_keep m c main_v10 (by decide) (by decide)).trans <| (entry3_keep m c main_v10 (by decide) (by decide)).trans <| (entry2_keep m c main_v10 (by decide) (by decide)).trans <| (entry1_keep m c main_v10 (by decide) (by decide))
theorem entry2_main_v17 : entry2 m c main_v17 = V19 m c main_v17 := (entry2_keep m c main_v17 (by decide) (by decide)).trans <| (entry1_keep m c main_v17 (by decide) (by decide))
theorem entry4_main_v17 : entry4 m c main_v17 = V19 m c main_v17 := (entry4_keep m c main_v17 (by decide) (by decide)).trans <| (entry3_keep m c main_v17 (by decide) (by decide)).trans <| (entry2_keep m c main_v17 (by decide) (by decide)).trans <| (entry1_keep m c main_v17 (by decide) (by decide))
theorem entry1_main_v32 : entry1 m c main_v32 = V19 m c main_v32 := (entry1_keep m c main_v32 (by decide) (by decide))
theorem entry3_main_v32 : entry3 m c main_v32 = V19 m c main_v32 := (entry3_keep m c main_v32 (by decide) (by decide)).trans <| (entry2_keep m c main_v32 (by decide) (by decide)).trans <| (entry1_keep m c main_v32 (by decide) (by decide))
theorem entry5_main_v32 : entry5 m c main_v32 = V19 m c main_v32 := (entry5_keep m c main_v32 (by decide) (by decide)).trans <| (entry4_keep m c main_v32 (by decide) (by decide)).trans <| (entry3_keep m c main_v32 (by decide) (by decide)).trans <| (entry2_keep m c main_v32 (by decide) (by decide)).trans <| (entry1_keep m c main_v32 (by decide) (by decide))
theorem entry2_main_v55 : entry2 m c main_v55 = V19 m c main_v55 := (entry2_keep m c main_v55 (by decide) (by decide)).trans <| (entry1_keep m c main_v55 (by decide) (by decide))
theorem entry4_main_v55 : entry4 m c main_v55 = V19 m c main_v55 := (entry4_keep m c main_v55 (by decide) (by decide)).trans <| (entry3_keep m c main_v55 (by decide) (by decide)).trans <| (entry2_keep m c main_v55 (by decide) (by decide)).trans <| (entry1_keep m c main_v55 (by decide) (by decide))
theorem entry1_main_v58 : entry1 m c main_v58 = V19 m c main_v58 := (entry1_keep m c main_v58 (by decide) (by decide))
theorem entry2_main_v63 (d : Fin 64) (n : Fin NN) :
    feat (entry2 m c main_v63) d n = feat (entry1 m c main_v58) d n + feat (exit1 m c main_v62) d n := by
  show (StableHlo.after hostOps2 (Function.update (entry1 m c) main_v62 (exit1 m c main_v62)) (Proc.devRef .tc main_v63)
      : S64x150528.Idx → EReal) (pairIx d n) = _
  after_results
  rw [Function.update_self,
    Function.update_of_ne (StableHlo.devRef_ne_of_ne (by decide) : (Proc.devRef .tc main_v58 : DevRef τ sig) ≠ Proc.devRef .tc main_v62)]
  rfl
theorem entry2_main_v64 (d : Fin 64) (n : Fin NN) :
    feat (entry2 m c main_v64) d n = feat (exit1 m c main_v62) d n := by
  show (StableHlo.after hostOps2 (Function.update (entry1 m c) main_v62 (exit1 m c main_v62)) (Proc.devRef .tc main_v64)
      : S64x150528.Idx → EReal) (pairIx d n) = _
  after_results
  rw [Function.update_self]
  rfl
theorem entry4_main_v68 (d : Fin 64) (n : Fin NN) :
    feat (entry4 m c main_v68) d n = feat (entry3 m c main_v63) d n + feat (exit3 m c main_v67) d n := by
  show (StableHlo.after hostOps4 (Function.update (entry3 m c) main_v67 (exit3 m c main_v67)) (Proc.devRef .tc main_v68)
      : S64x150528.Idx → EReal) (pairIx d n) = _
  after_results
  rw [Function.update_self,
    Function.update_of_ne (StableHlo.devRef_ne_of_ne (by decide) : (Proc.devRef .tc main_v63 : DevRef τ sig) ≠ Proc.devRef .tc main_v67)]
  rfl
theorem entry4_main_v69 (d : Fin 64) (n : Fin NN) :
    feat (entry4 m c main_v69) d n = feat (exit3 m c main_v67) d n := by
  show (StableHlo.after hostOps4 (Function.update (entry3 m c) main_v67 (exit3 m c main_v67)) (Proc.devRef .tc main_v69)
      : S64x150528.Idx → EReal) (pairIx d n) = _
  after_results
  rw [Function.update_self]
  rfl
theorem entry3_main_v63 : entry3 m c main_v63 = entry2 m c main_v63 := entry3_keep m c main_v63 (by decide) (by decide)
theorem entry5_main_v68 : entry5 m c main_v68 = entry4 m c main_v68 := entry5_keep m c main_v68 (by decide) (by decide)
/-- A buffer holding the swept gather of tables and arrays that are the layer's, read as an edge table. -/
theorem gatherOut_of {t : S64x1200128.Idx → EReal} {S E : Fin 293 → BitVec 32} {col : Fin 1200128 → BitVec 32}
    {w : Fin 1200128 → EReal} {x : Fin 64 → Fin 150528 → EReal}
    (ht : t = fun idx : S64x1200128.Idx => gatherRaw S E col w x (idx 0) (idx 1))
    (hS : S = Sc m c) (hE : E = Ec m c) (hc : col = colS m c) (hw : w = wS m c) :
    edgeT t = gatherRaw (Sc m c) (Ec m c) (colS m c) (wS m c) x := by
  subst ht hS hE hc hw; rfl
/-- A buffer holding the swept scatter of tables and an array that are the layer's, read as a feature table. -/
theorem scatterOut_of {t : S64x150528.Idx → EReal} {S E : Fin 293 → BitVec 32} {row : Fin 1200128 → BitVec 32}
    {y : Fin 64 → Fin 1200128 → EReal}
    (ht : t = fun idx : S64x150528.Idx => scatterRaw S E row y (idx 0) (idx 1))
    (hS : S = Sr m c) (hE : E = Er m c) (hr : row = rowS m c) :
    feat t = scatterRaw (Sr m c) (Er m c) (rowS m c) y := by
  subst ht hS hE hr; rfl
theorem gatherOut0 : edgeT (exit0 m c main_v60)
    = gatherRaw (Sc m c) (Ec m c) (colS m c) (wS m c) (feat (entry0 m c main_v59)) :=
  gatherOut_of m c ((exit0_out m c).trans (Hand0.dat0_final (entry0 m) (adm0 m) c)) (funext fun b => by rw [ofFin_eq, dev_eq c]; rfl) (funext fun b => by rw [ofFin_eq, dev_eq c]; rfl)
    (funext fun e => by show (entry0 m c main_v10 : S1200128.Idx → BitVec 32) _ = _; rw [ofFin_eq]; rfl)
    (funext fun e => by show (entry0 m c main_v17 : S1200128.Idx → EReal) _ = _; rw [ofFin_eq]; rfl)
theorem takeOut1 : edgeT (entry1 m c main_v61) = takeCols (edgeT (exit0 m c main_v60)) (gI m c) := by
  funext d k
  show (StableHlo.after hostOps1 (Function.update (entry0 m c) main_v60 (exit0 m c main_v60)) (Proc.devRef .tc main_v61)
      : S64x1200128.Idx → EReal) (pairIx d k) = _
  rw [take1_apply (entry0 m c) (exit0 m c main_v60) (gI m c) (fun k' => gW_eq m c k') d k]
  rfl
theorem scatterOut1 : feat (exit1 m c main_v62)
    = scatterRaw (Sr m c) (Er m c) (rowS m c) (edgeT (entry1 m c main_v61)) :=
  scatterOut_of m c ((exit1_out m c).trans (Hand1.dat1_final (entry1 m) (adm1 m) c)) (funext fun b => by rw [ofFin_eq, dev_eq c]; rfl) (funext fun b => by rw [ofFin_eq, dev_eq c]; rfl)
    (funext fun e => by show (entry1 m c main_v32 : S1200128.Idx → BitVec 32) _ = _; rw [entry1_main_v32 m c, ofFin_eq]; rfl)
theorem layerOut1 : feat (exit1 m c main_v62) = layer m c (feat (entry0 m c main_v59)) := by
  rw [scatterOut1, takeOut1, gatherOut0]
  rfl
theorem gatherOut2 : edgeT (exit2 m c main_v65)
    = gatherRaw (Sc m c) (Ec m c) (colS m c) (wS m c) (feat (entry2 m c main_v64)) :=
  gatherOut_of m c ((exit2_out m c).trans (Hand2.dat2_final (entry2 m) (adm2 m) c)) (funext fun b => by rw [ofFin_eq, dev_eq c]; rfl) (funext fun b => by rw [ofFin_eq, dev_eq c]; rfl)
    (funext fun e => by show (entry2 m c main_v10 : S1200128.Idx → BitVec 32) _ = _; rw [entry2_main_v10 m c, ofFin_eq]; rfl)
    (funext fun e => by show (entry2 m c main_v17 : S1200128.Idx → EReal) _ = _; rw [entry2_main_v17 m c, ofFin_eq]; rfl)
theorem takeOut3 : edgeT (entry3 m c main_v66) = takeCols (edgeT (exit2 m c main_v65)) (gI m c) := by
  funext d k
  show (StableHlo.after hostOps3 (Function.update (entry2 m c) main_v65 (exit2 m c main_v65)) (Proc.devRef .tc main_v66)
      : S64x1200128.Idx → EReal) (pairIx d k) = _
  rw [take3_apply (entry2 m c) (exit2 m c main_v65) (gI m c) (fun k' => by rw [entry2_main_v55 m c]; exact gW_eq m c k') d k]
  rfl
theorem scatterOut3 : feat (exit3 m c main_v67)
    = scatterRaw (Sr m c) (Er m c) (rowS m c) (edgeT (entry3 m c main_v66)) :=
  scatterOut_of m c ((exit3_out m c).trans (Hand3.dat3_final (entry3 m) (adm3 m) c)) (funext fun b => by rw [ofFin_eq, dev_eq c]; rfl) (funext fun b => by rw [ofFin_eq, dev_eq c]; rfl)
    (funext fun e => by show (entry3 m c main_v32 : S1200128.Idx → BitVec 32) _ = _; rw [entry3_main_v32 m c, ofFin_eq]; rfl)
theorem layerOut3 : feat (exit3 m c main_v67) = layer m c (feat (entry2 m c main_v64)) := by
  rw [scatterOut3, takeOut3, gatherOut2]
  rfl
theorem gatherOut4 : edgeT (exit4 m c main_v70)
    = gatherRaw (Sc m c) (Ec m c) (colS m c) (wS m c) (feat (entry4 m c main_v69)) :=
  gatherOut_of m c ((exit4_out m c).trans (Hand4.dat4_final (entry4 m) (adm4 m) c)) (funext fun b => by rw [ofFin_eq, dev_eq c]; rfl) (funext fun b => by rw [ofFin_eq, dev_eq c]; rfl)
    (funext fun e => by show (entry4 m c main_v10 : S1200128.Idx → BitVec 32) _ = _; rw [entry4_main_v10 m c, ofFin_eq]; rfl)
    (funext fun e => by show (entry4 m c main_v17 : S1200128.Idx → EReal) _ = _; rw [entry4_main_v17 m c, ofFin_eq]; rfl)
theorem takeOut5 : edgeT (entry5 m c main_v71) = takeCols (edgeT (exit4 m c main_v70)) (gI m c) := by
  funext d k
  show (StableHlo.after hostOps5 (Function.update (entry4 m c) main_v70 (exit4 m c main_v70)) (Proc.devRef .tc main_v71)
      : S64x1200128.Idx → EReal) (pairIx d k) = _
  rw [take5_apply (entry4 m c) (exit4 m c main_v70) (gI m c) (fun k' => by rw [entry4_main_v55 m c]; exact gW_eq m c k') d k]
  rfl
theorem scatterOut5 : feat (exit5 m c main_v72)
    = scatterRaw (Sr m c) (Er m c) (rowS m c) (edgeT (entry5 m c main_v71)) :=
  scatterOut_of m c ((exit5_out m c).trans (Hand5.dat5_final (entry5 m) (adm5 m) c)) (funext fun b => by rw [ofFin_eq, dev_eq c]; rfl) (funext fun b => by rw [ofFin_eq, dev_eq c]; rfl)
    (funext fun e => by show (entry5 m c main_v32 : S1200128.Idx → BitVec 32) _ = _; rw [entry5_main_v32 m c, ofFin_eq]; rfl)
theorem layerOut5 : feat (exit5 m c main_v72) = layer m c (feat (entry4 m c main_v69)) := by
  rw [scatterOut5, takeOut5, gatherOut4]
  rfl
theorem in0_eq : feat (entry0 m c main_v59) = x0T m c :=
  funext fun d => funext fun n => v59_eq m c d n
theorem table_eq : feat (entry1 m c main_v58) = x0T m c := by
  rw [entry1_main_v58]; rfl
theorem in2_eq : feat (entry2 m c main_v64) = layer m c (x0T m c) := by
  rw [← in0_eq m c, ← layerOut1 m c]
  exact funext fun d => funext fun n => entry2_main_v64 m c d n
theorem in4_eq : feat (entry4 m c main_v69) = layer m c (layer m c (x0T m c)) := by
  rw [← in2_eq m c, ← layerOut3 m c]
  exact funext fun d => funext fun n => entry4_main_v69 m c d n
theorem out5_eq : feat (exit5 m c main_v72) = layer m c (layer m c (layer m c (x0T m c))) := by
  rw [layerOut5 m c, in4_eq m c]
theorem acc4_eq (d : Fin 64) (n : Fin NN) :
    feat (entry4 m c main_v68) d n = x0T m c d n + layer m c (x0T m c) d n + layer m c (layer m c (x0T m c)) d n := by
  rw [entry4_main_v68 m c d n, entry3_main_v63 m c, entry2_main_v63 m c d n,
    table_eq m c, layerOut1 m c, in0_eq m c, layerOut3 m c, in2_eq m c]
theorem total_eq (d : Fin 64) (n : Fin NN) :
    (feat (entry5 m c main_v68) d n + feat (exit5 m c main_v72) d n) = sum3K (layer m c) (x0T m c) d n := by
  rw [entry5_main_v68, acc4_eq m c d n, out5_eq m c]
  rfl
abbrev four : EReal := Ideal.ofBits .f32 0x40800000#32
theorem v78_apply (n : Fin 100000) (d : Fin 64) :
    (V31 m (outs m) c main_v78 : S100000x64.Idx → EReal) (pairIx n d)
      = Ideal.div (sum3K (layer m c) (x0T m c) d ⟨n.val, by have := n.isLt; show _ < 150528; omega⟩) four := by
  have e : V31 m (outs m) c main_v78
      = StableHlo.after hostOps6 (Function.update (entry5 m c) main_v72 (exit5 m c main_v72)) (Proc.devRef .tc main_v78) := by
    show StableHlo.after hostOps6 (Function.update (V29 m (outs m) c) main_v72 (outs m 30 main_v72 c)) (Proc.devRef .tc main_v78) = _
    rw [entry5_eq, outs_30]
  rw [e]
  after_results
  have hn := n.isLt
  refine (Idealize.ShloMosaic.extractStridedSlice_apply _ _ _ (pairIx n d) (pairIx (⟨n.val, by omega⟩ : Fin 150000) d) ?_).trans ?_
  · intro a
    match a with
    | ⟨0, _⟩ => show n.val = 0 + n.val; omega
    | ⟨1, _⟩ => show d.val = 0 + d.val; omega
  refine (Idealize.ShloMosaic.extractStridedSlice_apply _ _ _ (pairIx (⟨n.val, by omega⟩ : Fin 150000) d)
    (pairIx (⟨n.val, by omega⟩ : Fin 150528) d) ?_).trans ?_
  · intro a
    match a with
    | ⟨0, _⟩ => show n.val = 0 + (n.val); omega
    | ⟨1, _⟩ => show d.val = 0 + d.val; omega
  refine (Idealize.ShloMosaic.transpose_apply _ _ _ (pairIx (⟨n.val, by omega⟩ : Fin 150528) d)
    (pairIx d (⟨n.val, by omega⟩ : Fin 150528)) ?_).trans ?_
  · intro b
    match b with
    | ⟨0, _⟩ => rfl
    | ⟨1, _⟩ => rfl
  show Ideal.div
      (feat (Function.update (entry5 m c) main_v72 (exit5 m c main_v72) main_v68) d ⟨n.val, by show _ < 150528; omega⟩
        + feat (Function.update (entry5 m c) main_v72 (exit5 m c main_v72) main_v72) d ⟨n.val, by show _ < 150528; omega⟩)
      (Ideal.ofBits .f32 0x40800000#32) = _
  rw [Function.update_self,
    Function.update_of_ne (StableHlo.devRef_ne_of_ne (by decide) : (Proc.devRef .tc main_v68 : DevRef τ sig) ≠ Proc.devRef .tc main_v72)]
  exact congrArg (fun t => Ideal.div t four) (total_eq m c d ⟨n.val, by show _ < 150528; omega⟩)
theorem v79_apply (n : Fin 50000) (d : Fin 64) :
    (V31 m (outs m) c main_v79 : S50000x64.Idx → EReal) (pairIx n d)
      = Ideal.div (sum3K (layer m c) (x0T m c) d ⟨100000 + n.val, by have := n.isLt; show _ < 150528; omega⟩) four := by
  have e : V31 m (outs m) c main_v79
      = StableHlo.after hostOps6 (Function.update (entry5 m c) main_v72 (exit5 m c main_v72)) (Proc.devRef .tc main_v79) := by
    show StableHlo.after hostOps6 (Function.update (V29 m (outs m) c) main_v72 (outs m 30 main_v72 c)) (Proc.devRef .tc main_v79) = _
    rw [entry5_eq, outs_30]
  rw [e]
  after_results
  have hn := n.isLt
  refine (Idealize.ShloMosaic.extractStridedSlice_apply _ _ _ (pairIx n d) (pairIx (⟨100000 + n.val, by omega⟩ : Fin 150000) d) ?_).trans ?_
  · intro a
    match a with
    | ⟨0, _⟩ => show 100000 + n.val = 100000 + n.val; omega
    | ⟨1, _⟩ => show d.val = 0 + d.val; omega
  refine (Idealize.ShloMosaic.extractStridedSlice_apply _ _ _ (pairIx (⟨100000 + n.val, by omega⟩ : Fin 150000) d)
    (pairIx (⟨100000 + n.val, by omega⟩ : Fin 150528) d) ?_).trans ?_
  · intro a
    match a with
    | ⟨0, _⟩ => show 100000 + n.val = 0 + (100000 + n.val); omega
    | ⟨1, _⟩ => show d.val = 0 + d.val; omega
  refine (Idealize.ShloMosaic.transpose_apply _ _ _ (pairIx (⟨100000 + n.val, by omega⟩ : Fin 150528) d)
    (pairIx d (⟨100000 + n.val, by omega⟩ : Fin 150528)) ?_).trans ?_
  · intro b
    match b with
    | ⟨0, _⟩ => rfl
    | ⟨1, _⟩ => rfl
  show Ideal.div
      (feat (Function.update (entry5 m c) main_v72 (exit5 m c main_v72) main_v68) d ⟨100000 + n.val, by show _ < 150528; omega⟩
        + feat (Function.update (entry5 m c) main_v72 (exit5 m c main_v72) main_v72) d ⟨100000 + n.val, by show _ < 150528; omega⟩)
      (Ideal.ofBits .f32 0x40800000#32) = _
  rw [Function.update_self,
    Function.update_of_ne (StableHlo.devRef_ne_of_ne (by decide) : (Proc.devRef .tc main_v68 : DevRef τ sig) ≠ Proc.devRef .tc main_v72)]
  exact congrArg (fun t => Ideal.div t four) (total_eq m c d ⟨100000 + n.val, by show _ < 150528; omega⟩)
theorem restr_x0T : restr (x0T m c) = x0 m c := by
  funext n d
  unfold Cert.Spmm.restr
  rw [x0T_eq m c d]
  exact dif_pos n.isLt
variable (hcol : ∀ e, (colA m c e).toNat < 150000) (hrow : ∀ e, (rowA m c e).toNat < 150000)
include hcol hrow
theorem result0 (n : Fin 100000) (d : Fin 64) :
    (V31 m (outs m) c main_v78 : S100000x64.Idx → EReal) (pairIx n d)
      = Ideal.div (sum3R (refLayer (rowA m c) (colA m c) (wA m c)) (x0 m c) ⟨n.val, by have := n.isLt; omega⟩ d) four := by
  rw [v78_apply m c n d]
  unfold layer
  rw [Cert.Spmm.three_layers (layerHyp m c hcol hrow) (x0T m c) ⟨n.val, by have := n.isLt; omega⟩ d, restr_x0T m c]
theorem result1 (n : Fin 50000) (d : Fin 64) :
    (V31 m (outs m) c main_v79 : S50000x64.Idx → EReal) (pairIx n d)
      = Ideal.div (sum3R (refLayer (rowA m c) (colA m c) (wA m c)) (x0 m c) ⟨100000 + n.val, by have := n.isLt; omega⟩ d) four := by
  rw [v79_apply m c n d]
  unfold layer
  rw [Cert.Spmm.three_layers (layerHyp m c hcol hrow) (x0T m c) ⟨100000 + n.val, by have := n.isLt; omega⟩ d, restr_x0T m c]
end Cert.KernelIdeal.Hand
end
-- ==== Proof.RefOps.lean ====
import Idealize.ShloMosaic.Lib.ValueIdx
import Idealize.ShloMosaic.Lib.IdealHost
set_option synthInstance.maxSize 4096
noncomputable section
namespace Cert.RefOps
open Idealize.ShloMosaic Idealize.ShloMosaic.ValueIdx
open scoped BigOperators
abbrev SEx1 : Shape := ⟨2, ![1200000, 1]⟩
abbrev SExD : Shape := ⟨2, ![1200000, 64]⟩
abbrev SNxD : Shape := ⟨2, ![150000, 64]⟩
abbrev gd : GatherDims SNxD SEx1 SExD where
  offsetDims := [1]
  collapsedSliceDims := [0]
  operandBatchingDims := []
  startIndicesBatchingDims := []
  startIndexMap := [0]
  indexVectorDim := 1
  sliceSizes := ![1, 64]
abbrev sd : ScatterDims SNxD SEx1 SExD where
  updateWindowDims := [1]
  insertedWindowDims := [0]
  scatterDimsToOperandDims := [0]
  indexVectorDim := 1
theorem toInt_eq_natCast_iff (b : BitVec 32) (n : ℕ) (hn : n < 150000) : b.toInt = (n : ℤ) ↔ b.toNat = n := by
  rw [BitVec.toInt_eq_toNat_cond]
  have := b.isLt
  split <;> omega
theorem toInt_toNat_of_lt (b : BitVec 32) (h : b.toNat < 150000) : b.toInt.toNat = b.toNat := by
  rw [BitVec.toInt_eq_toNat_cond]
  split <;> omega
theorem gd_operandIdx0 {w : Nat} (j : SExD.Idx) (idx : IVec SEx1 w) :
    (gd.operandIdx j idx 0).val = min (idx (ix2 (j 0) (0 : Fin 1))).toInt.toNat 149999 := by
  show gd.start j idx 0 + gd.batchCoord j 0 + gd.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin SNxD.rank) ∈ gd.startIndexMap from List.mem_singleton.mpr rfl)]
  have hsi : gd.siIdx j ⟨List.idxOf (0 : Fin SNxD.rank) gd.startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
theorem gd_operandIdx1 {w : Nat} (j : SExD.Idx) (idx : IVec SEx1 w) :
    (gd.operandIdx j idx 1).val = (j 1).val := by
  show gd.start j idx 1 + gd.batchCoord j 1 + gd.offCoord j 1 = _
  have h1 : gd.start j idx 1 = 0 := by
    unfold GatherDims.start
    exact dif_neg (by decide)
  have h2 : gd.batchCoord j 1 = 0 := GatherDims.batchCoord_eq_zero _ _ _ List.not_mem_nil
  have h3 : gd.offCoord j 1 = (j 1).val := by
    unfold GatherDims.offCoord
    rw [dif_pos (by decide)]
    rfl
  rw [h1, h2, h3]
  omega
theorem gather_apply {α : Type} {w : Nat} (x : SNxD.Idx → α) (idx : IVec SEx1 w) (e : Fin 1200000) (d : Fin 64) :
    Host.gather gd x idx (ix2 e d)
      = x (ix2 (⟨min (idx (ix2 e (0 : Fin 1))).toInt.toNat 149999, by omega⟩ : Fin 150000) d) := by
  unfold Host.gather
  refine congrArg x (funext fun a => Fin.ext ?_)
  match a with
  | ⟨0, _⟩ => exact gd_operandIdx0 (ix2 e d) idx
  | ⟨1, _⟩ => exact gd_operandIdx1 (ix2 e d) idx
theorem sd_start0 {w : Nat} (j : SExD.Idx) (idx : IVec SEx1 w) :
    sd.start j idx 0 = (idx (ix2 (j 0) (0 : Fin 1))).toInt := by
  unfold ScatterDims.start
  rw [dif_pos (show (0 : Fin SNxD.rank) ∈ sd.scatterDimsToOperandDims from List.mem_singleton.mpr rfl)]
  have hsi : sd.siIdx j ⟨List.idxOf (0 : Fin SNxD.rank) sd.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
theorem sd_start1 {w : Nat} (j : SExD.Idx) (idx : IVec SEx1 w) : sd.start j idx 1 = 0 := by
  unfold ScatterDims.start
  exact dif_neg (by decide)
theorem sd_window0 (j : SExD.Idx) : sd.window j 0 = 0 := by
  unfold ScatterDims.window
  exact dif_neg (by decide)
theorem sd_window1 (j : SExD.Idx) : sd.window j 1 = (j 1).val := by
  unfold ScatterDims.window
  rw [dif_pos (by decide)]
  rfl
theorem sd_resultIdx_eq_some (j : SExD.Idx) (idx : IVec SEx1 32) (i : SNxD.Idx) :
    sd.resultIdx? j idx = some i ↔
      (idx (ix2 (j 0) (0 : Fin 1))).toNat = (i 0).val ∧ (j 1).val = (i 1).val := by
  have hs0 := sd_start0 j idx
  have hs1 := sd_start1 j idx
  have hw0 := sd_window0 j
  have hw1 := sd_window1 j
  have hi0 : (i 0).val < 150000 := idx2_lt0 i
  have hi1 : (i 1).val < 64 := idx2_lt1 i
  have hj1 : (j 1).val < 64 := idx2_lt1 j
  unfold ScatterDims.resultIdx?
  split
  · rename_i hr
    constructor
    · intro h
      have hf := Option.some.inj h
      have h0 : (sd.start j idx 0 + (sd.window j 0 : ℤ)).toNat = (i 0).val := congrArg (fun f => (f 0).val) hf
      have h1 : (sd.start j idx 1 + (sd.window j 1 : ℤ)).toNat = (i 1).val := congrArg (fun f => (f 1).val) hf
      have hr0 := (hr 0).1
      rw [hs0, hw0] at h0 hr0
      rw [hs1, hw1] at h1
      exact ⟨(toInt_eq_natCast_iff _ _ hi0).mp (by omega), by omega⟩
    · rintro ⟨h0, h1⟩
      have hT := (toInt_eq_natCast_iff _ _ hi0).mpr h0
      have e0 : (sd.start j idx 0 + (sd.window j 0 : ℤ)).toNat = (i 0).val := by
        rw [hs0, hw0, hT]; omega
      have e1 : (sd.start j idx 1 + (sd.window j 1 : ℤ)).toNat = (i 1).val := by
        rw [hs1, hw1]; omega
      refine congrArg some (funext fun a => Fin.ext ?_)
      match a with
      | ⟨0, _⟩ => exact e0
      | ⟨1, _⟩ => exact e1
  · rename_i hr
    constructor
    · intro h; exact absurd h (by simp)
    · rintro ⟨h0, h1⟩
      exfalso
      apply hr
      have hT := (toInt_eq_natCast_iff _ _ hi0).mpr h0
      have k0 : 0 ≤ sd.start j idx 0 + (sd.window j 0 : ℤ) ∧
          sd.start j idx 0 + (sd.window j 0 : ℤ) < ((150000 : ℕ) : ℤ) := by
        rw [hs0, hw0, hT]; constructor <;> omega
      have k1 : 0 ≤ sd.start j idx 1 + (sd.window j 1 : ℤ) ∧
          sd.start j idx 1 + (sd.window j 1 : ℤ) < ((64 : ℕ) : ℤ) := by
        rw [hs1, hw1]; constructor <;> omega
      intro a
      match a with
      | ⟨0, _⟩ => exact k0
      | ⟨1, _⟩ => exact k1
theorem scatterAdd_apply (x : SNxD.Idx → EReal) (idx : IVec SEx1 32) (upd : SExD.Idx → EReal)
    (n : Fin 150000) (d : Fin 64) :
    Ideal.hostScatterAdd sd x idx upd (ix2 n d)
      = x (ix2 n d) + ∑ e : Fin 1200000,
          if (idx (ix2 e (0 : Fin 1))).toNat = n.val then upd (ix2 e d) else 0 := by
  unfold Ideal.hostScatterAdd
  show x (ix2 n d) + _ = x (ix2 n d) + _
  refine congrArg (x (ix2 n d) + ·) ?_
  rw [Finset.sum_filter, sum_idx2]
  refine Finset.sum_congr rfl fun e _ => ?_
  have hP : ∀ k : Fin 64, sd.resultIdx? (ix2 e k) idx = some (ix2 n d) ↔
      ((idx (ix2 e (0 : Fin 1))).toNat = n.val ∧ k = d) := by
    intro k
    rw [sd_resultIdx_eq_some]
    exact and_congr Iff.rfl Fin.ext_iff.symm
  rw [Finset.sum_eq_single d]
  · by_cases hA : (idx (ix2 e (0 : Fin 1))).toNat = n.val
    · rw [if_pos ((hP d).mpr ⟨hA, rfl⟩), if_pos hA]
    · rw [if_neg (fun h => hA ((hP d).mp h).1), if_neg hA]
  · intro k _ hk
    exact if_neg (fun h => hk ((hP k).mp h).2)
  · intro h
    exact absurd (Finset.mem_univ d) h
end Cert.RefOps
end
-- ==== Proof.RefValue.lean ====
import proofs.«426118_j38259568672975_2_alg».proof.Proof.Gen.ReferenceIdeal.Run
import proofs.«426118_j38259568672975_2_alg».proof.Proof.RefOps
import proofs.«426118_j38259568672975_2_alg».proof.Proof.SpmmMath
import Idealize.ShloMosaic.Lib.Pipeline.Value
import Idealize.ShloMosaic.Lib.StableHlo.Predicate
noncomputable section
namespace Cert.ReferenceIdeal.RefValue
open Cert.ReferenceIdeal Cert.ReferenceIdeal.Gen Idealize.ShloMosaic Idealize.ShloMosaic.TcCoe Idealize.SL.Sem
  Idealize.ShloMosaic.StableHlo Idealize.ShloMosaic.ValueIdx
open scoped BigOperators
def X0 (x3 : FVec Ideal S100000x64 .f32) (x4 : FVec Ideal S50000x64 .f32) : FVec Ideal S150000x64 .f32 :=
  concatenate S150000x64 0 [⟨S100000x64, x3⟩, ⟨S50000x64, x4⟩] concatenates_S100000x64_S50000x64_S150000x64_d0
def colIdx (x1 : IVec S1200000 32) : IVec S1200000x1 32 :=
  broadcastInDim S1200000x1 ![0] bcast_S1200000_S1200000x1_0
    (select (cmpi .slt x1 (broadcastInDim S1200000 ![] bcast_S_S1200000 (constantI S_ 32 0#32)))
      (addi x1 (broadcastInDim S1200000 ![] bcast_S_S1200000 (constantI S_ 32 150000#32))) x1)
def rowIdx (x0 : IVec S1200000 32) : IVec S1200000x1 32 :=
  broadcastInDim S1200000x1 ![0] bcast_S1200000_S1200000x1_0 x0
def wB (x2 : FVec Ideal S1200000 .f32) : FVec Ideal S1200000x64 .f32 :=
  broadcastInDim S1200000x64 ![0, 1] bcast_S1200000x1_S1200000x64_0_1
    (broadcastInDim S1200000x1 ![0] bcast_S1200000_S1200000x1_0 x2)
def zeros : FVec Ideal S150000x64 .f32 :=
  broadcastInDim S150000x64 ![] bcast_S_S150000x64 (constant (F := Ideal) S_ .f32 0x00000000#32)
def layerP (x0 x1 : IVec S1200000 32) (x2 : FVec Ideal S1200000 .f32) (y : FVec Ideal S150000x64 .f32) :
    FVec Ideal S150000x64 .f32 :=
  Host.scatterAdd (F := Ideal) scatter_S150000x64_S1200000x1_S1200000x64_1_0_0_1 zeros (rowIdx x0)
    (mulf (F := Ideal) (Host.gather gather_S150000x64_S1200000x1_S1200000x64_1_0_n_n_0_1_164 y (colIdx x1)) (wB x2))
def total (x0 x1 : IVec S1200000 32) (x2 : FVec Ideal S1200000 .f32) (x3 : FVec Ideal S100000x64 .f32)
    (x4 : FVec Ideal S50000x64 .f32) : FVec Ideal S150000x64 .f32 :=
  Host.divf (F := Ideal)
    (addf (F := Ideal)
      (addf (F := Ideal) (addf (F := Ideal) (X0 x3 x4) (layerP x0 x1 x2 (X0 x3 x4)))
        (layerP x0 x1 x2 (layerP x0 x1 x2 (X0 x3 x4))))
      (layerP x0 x1 x2 (layerP x0 x1 x2 (layerP x0 x1 x2 (X0 x3 x4)))))
    (broadcastInDim S150000x64 ![] bcast_S_S150000x64 (constant (F := Ideal) S_ .f32 0x40800000#32))
def cur (y : FVec Ideal S150000x64 .f32) : Fin 150000 → Fin 64 → EReal := fun n d => y (ix2 n d)
def edges {α : Type} (v : S1200000.Idx → α) : Fin 1200000 → α := fun e => v (ix1 e)
def out (x0 x1 : IVec S1200000 32) (x2 : FVec Ideal S1200000 .f32) (x3 : FVec Ideal S100000x64 .f32)
    (x4 : FVec Ideal S50000x64 .f32) (n : Fin 150000) (d : Fin 64) : EReal :=
  Ideal.div (Cert.Spmm.sum3R (Cert.Spmm.refLayer (edges x0) (edges x1) (edges x2)) (cur (X0 x3 x4)) n d)
    (Ideal.ofBits .f32 0x40800000#32)
def out0 (x0 x1 : IVec S1200000 32) (x2 : FVec Ideal S1200000 .f32) (x3 : FVec Ideal S100000x64 .f32)
    (x4 : FVec Ideal S50000x64 .f32) : FVec Ideal S100000x64 .f32 :=
  fun i => out x0 x1 x2 x3 x4 ⟨(i 0).val, by have := idx2_lt0 i; omega⟩ (i 1)
def out1 (x0 x1 : IVec S1200000 32) (x2 : FVec Ideal S1200000 .f32) (x3 : FVec Ideal S100000x64 .f32)
    (x4 : FVec Ideal S50000x64 .f32) : FVec Ideal S50000x64 .f32 :=
  fun i => out x0 x1 x2 x3 x4 ⟨100000 + (i 0).val, by have := idx2_lt0 i; omega⟩ (i 1)
theorem X0_user (x3 : FVec Ideal S100000x64 .f32) (x4 : FVec Ideal S50000x64 .f32) (n : Fin 100000) (d : Fin 64) :
    cur (X0 x3 x4) ⟨n.val, by have := n.isLt; omega⟩ d = x3 (ix2 n d) := by
  unfold cur X0
  exact concatenate_pair_apply_left (t := S150000x64) (s₁ := S100000x64) (s₂ := S50000x64) 0 x3 x4
    concatenates_S100000x64_S50000x64_S150000x64_d0 (ix2 (⟨n.val, by have := n.isLt; omega⟩ : Fin 150000) d) rfl
    (ix2 n d) (fun b => match b with
      | ⟨0, _⟩ => rfl
      | ⟨1, _⟩ => rfl)
theorem X0_item (x3 : FVec Ideal S100000x64 .f32) (x4 : FVec Ideal S50000x64 .f32) (n : Fin 50000) (d : Fin 64) :
    cur (X0 x3 x4) ⟨100000 + n.val, by have := n.isLt; omega⟩ d = x4 (ix2 n d) := by
  unfold cur X0
  exact concatenate_pair_apply_right (t := S150000x64) (s₁ := S100000x64) (s₂ := S50000x64) 0 x3 x4
    concatenates_S100000x64_S50000x64_S150000x64_d0
    (ix2 (⟨100000 + n.val, by have := n.isLt; omega⟩ : Fin 150000) d) rfl rfl (ix2 n d)
    (fun b hb => match b, hb with
      | ⟨0, _⟩, hb => absurd rfl hb
      | ⟨1, _⟩, _ => rfl)
    (by show n.val + 100000 = 100000 + n.val; omega)
theorem colIdx_apply (x1 : IVec S1200000 32) (hcol : ∀ e : Fin 1200000, (x1 (ix1 e)).toNat < 150000)
    (e : Fin 1200000) : colIdx x1 (ix2 e (0 : Fin 1)) = x1 (ix1 e) := by
  unfold colIdx
  rw [broadcastInDim_apply _ bcast_S1200000_S1200000x1_0 _ (ix2 e (0 : Fin 1)) (ix1 e) (fun a => match a with
    | ⟨0, _⟩ => by show e.val = if (1200000 : Nat) = 1 then 0 else e.val; rw [if_neg (by decide)])]
  show Scalar.select (IntOp.cmpi .slt (x1 (ix1 e)) 0#32) (IntOp.addi (x1 (ix1 e)) 150000#32) (x1 (ix1 e)) = x1 (ix1 e)
  have hk := hcol e
  have hne : ¬ IntOp.cmpi .slt (x1 (ix1 e)) 0#32 = 1#1 := fun hc => by
    have h := (Predicate.slt_iff_toNat (a := x1 (ix1 e)) (b := 0#32) (by omega) (by decide)).mp hc
    have h0 : (0#32 : BitVec 32).toNat = 0 := rfl
    omega
  rw [eq_zero_of_ne_one hne, select_zero]
theorem rowIdx_apply (x0 : IVec S1200000 32) (e : Fin 1200000) : rowIdx x0 (ix2 e (0 : Fin 1)) = x0 (ix1 e) := by
  unfold rowIdx
  exact broadcastInDim_apply _ bcast_S1200000_S1200000x1_0 x0 (ix2 e (0 : Fin 1)) (ix1 e) (fun a => match a with
    | ⟨0, _⟩ => by show e.val = if (1200000 : Nat) = 1 then 0 else e.val; rw [if_neg (by decide)])
theorem wB_apply (x2 : FVec Ideal S1200000 .f32) (e : Fin 1200000) (d : Fin 64) : wB x2 (ix2 e d) = x2 (ix1 e) := by
  unfold wB
  rw [broadcastInDim_apply _ bcast_S1200000x1_S1200000x64_0_1 _ (ix2 e d) (ix2 e (0 : Fin 1)) (fun a => match a with
    | ⟨0, _⟩ => by show e.val = if (1200000 : Nat) = 1 then 0 else e.val; rw [if_neg (by decide)]
    | ⟨1, _⟩ => by show 0 = if (1 : Nat) = 1 then 0 else d.val; rw [if_pos rfl])]
  exact broadcastInDim_apply _ bcast_S1200000_S1200000x1_0 x2 (ix2 e (0 : Fin 1)) (ix1 e) (fun a => match a with
    | ⟨0, _⟩ => by show e.val = if (1200000 : Nat) = 1 then 0 else e.val; rw [if_neg (by decide)])
theorem host_scatterAdd_eq (x : FVec Ideal Cert.RefOps.SNxD .f32) (idx : IVec Cert.RefOps.SEx1 32)
    (upd : FVec Ideal Cert.RefOps.SExD .f32) :
    Host.scatterAdd (F := Ideal) Cert.RefOps.sd x idx upd = Ideal.hostScatterAdd Cert.RefOps.sd x idx upd := rfl
theorem host_scatterAdd_apply (x : FVec Ideal Cert.RefOps.SNxD .f32) (idx : IVec Cert.RefOps.SEx1 32)
    (upd : FVec Ideal Cert.RefOps.SExD .f32) (n : Fin 150000) (d : Fin 64) :
    Host.scatterAdd (F := Ideal) Cert.RefOps.sd x idx upd (ix2 n d)
      = x (ix2 n d) + ∑ e : Fin 1200000,
          if (idx (ix2 e (0 : Fin 1))).toNat = n.val then upd (ix2 e d) else 0 := by
  rw [host_scatterAdd_eq]
  exact Cert.RefOps.scatterAdd_apply x idx upd n d
theorem zeros_apply (i : S150000x64.Idx) : zeros i = 0 := by
  unfold zeros
  rw [broadcastInDim_scalar_apply, constant_apply]
  exact Ideal.ofBits_zero_f32
theorem cur_apply (y : FVec Ideal S150000x64 .f32) (n : Fin 150000) (d : Fin 64) : cur y n d = y (ix2 n d) := rfl
theorem edges_apply {α : Type} (v : S1200000.Idx → α) (e : Fin 1200000) : edges v e = v (ix1 e) := rfl
theorem layerP_apply (x0 x1 : IVec S1200000 32) (x2 : FVec Ideal S1200000 .f32)
    (hcol : ∀ e : Fin 1200000, (x1 (ix1 e)).toNat < 150000) (y : FVec Ideal S150000x64 .f32)
    (n : Fin 150000) (d : Fin 64) :
    layerP x0 x1 x2 y (ix2 n d) = Cert.Spmm.refLayer (edges x0) (edges x1) (edges x2) (cur y) n d := by
  unfold layerP
  have hg : gather_S150000x64_S1200000x1_S1200000x64_1_0_n_n_0_1_164 = Cert.RefOps.gd := rfl
  have hs : scatter_S150000x64_S1200000x1_S1200000x64_1_0_0_1 = Cert.RefOps.sd := rfl
  rw [hg, hs, host_scatterAdd_apply, zeros_apply, zero_add]
  unfold Cert.Spmm.refLayer
  refine Finset.sum_congr rfl fun e _ => ?_
  rw [rowIdx_apply, mulf_apply, Cert.RefOps.gather_apply, wB_apply, edges_apply, edges_apply, edges_apply,
    dif_pos (hcol e), cur_apply]
  have hrow : (⟨min (colIdx x1 (ix2 e (0 : Fin 1))).toInt.toNat 149999, by omega⟩ : Fin 150000)
      = ⟨(x1 (ix1 e)).toNat, hcol e⟩ := by
    apply Fin.ext
    show min (colIdx x1 (ix2 e (0 : Fin 1))).toInt.toNat 149999 = (x1 (ix1 e)).toNat
    rw [colIdx_apply x1 hcol, Cert.RefOps.toInt_toNat_of_lt _ (hcol e)]
    have := hcol e
    omega
  rw [hrow]
theorem layerP_cur (x0 x1 : IVec S1200000 32) (x2 : FVec Ideal S1200000 .f32)
    (hcol : ∀ e : Fin 1200000, (x1 (ix1 e)).toNat < 150000) (y : FVec Ideal S150000x64 .f32) :
    cur (layerP x0 x1 x2 y) = Cert.Spmm.refLayer (edges x0) (edges x1) (edges x2) (cur y) :=
  funext fun n => funext fun d => layerP_apply x0 x1 x2 hcol y n d
theorem four_apply (i : S150000x64.Idx) :
    broadcastInDim S150000x64 ![] bcast_S_S150000x64 (constant (F := Ideal) S_ .f32 0x40800000#32) i
      = Ideal.ofBits .f32 0x40800000#32 := by
  rw [broadcastInDim_scalar_apply, constant_apply]
theorem total_apply (x0 x1 : IVec S1200000 32) (x2 : FVec Ideal S1200000 .f32) (x3 : FVec Ideal S100000x64 .f32)
    (x4 : FVec Ideal S50000x64 .f32) (hcol : ∀ e : Fin 1200000, (x1 (ix1 e)).toNat < 150000)
    (n : Fin 150000) (d : Fin 64) :
    total x0 x1 x2 x3 x4 (ix2 n d) = out x0 x1 x2 x3 x4 n d := by
  unfold total out Cert.Spmm.sum3R
  rw [hostDivf_apply, addf_apply, addf_apply, addf_apply, four_apply,
    layerP_apply x0 x1 x2 hcol, layerP_apply x0 x1 x2 hcol, layerP_apply x0 x1 x2 hcol,
    cur_apply (X0 x3 x4) n d]
  simp only [layerP_cur x0 x1 x2 hcol]
theorem slice0_eq (x0 x1 : IVec S1200000 32) (x2 : FVec Ideal S1200000 .f32) (x3 : FVec Ideal S100000x64 .f32)
    (x4 : FVec Ideal S50000x64 .f32) (hcol : ∀ e : Fin 1200000, (x1 (ix1 e)).toNat < 150000) :
    extractStridedSlice S100000x64 ![0, 0] (total x0 x1 x2 x3 x4) slices_S150000x64_S100000x64_0_0
      = out0 x0 x1 x2 x3 x4 := by
  funext i
  have hi := idx2_lt0 i
  rw [extractStridedSlice_apply ![0, 0] (total x0 x1 x2 x3 x4) slices_S150000x64_S100000x64_0_0 i
    (ix2 (⟨(i 0).val, by omega⟩ : Fin 150000) (i 1)) (fun a => match a with
      | ⟨0, _⟩ => by show (i 0).val = 0 + (i 0).val; omega
      | ⟨1, _⟩ => by show (i 1).val = 0 + (i 1).val; omega)]
  exact total_apply x0 x1 x2 x3 x4 hcol _ _
theorem slice1_eq (x0 x1 : IVec S1200000 32) (x2 : FVec Ideal S1200000 .f32) (x3 : FVec Ideal S100000x64 .f32)
    (x4 : FVec Ideal S50000x64 .f32) (hcol : ∀ e : Fin 1200000, (x1 (ix1 e)).toNat < 150000) :
    extractStridedSlice S50000x64 ![100000, 0] (total x0 x1 x2 x3 x4) slices_S150000x64_S50000x64_100000_0
      = out1 x0 x1 x2 x3 x4 := by
  funext i
  have hi := idx2_lt0 i
  rw [extractStridedSlice_apply ![100000, 0] (total x0 x1 x2 x3 x4) slices_S150000x64_S50000x64_100000_0 i
    (ix2 (⟨100000 + (i 0).val, by omega⟩ : Fin 150000) (i 1)) (fun a => match a with
      | ⟨0, _⟩ => by show 100000 + (i 0).val = 100000 + (i 0).val; omega
      | ⟨1, _⟩ => by show (i 1).val = 0 + (i 1).val; omega)]
  exact total_apply x0 x1 x2 x3 x4 hcol _ _
theorem res0_eq (m : (ℓ : Loc nD τ sig) → Buf (Elt Ideal) ℓ) (c : Dev nD) :
    Cert.ReferenceIdeal.Value.res_main_v45 (F := Ideal) m c
      = extractStridedSlice S100000x64 ![0, 0]
          (total (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))) slices_S150000x64_S100000x64_0_0 := by
  unfold Cert.ReferenceIdeal.Value.res_main_v45; rfl
theorem res1_eq (m : (ℓ : Loc nD τ sig) → Buf (Elt Ideal) ℓ) (c : Dev nD) :
    Cert.ReferenceIdeal.Value.res_main_v46 (F := Ideal) m c
      = extractStridedSlice S50000x64 ![100000, 0]
          (total (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))) slices_S150000x64_S50000x64_100000_0 := by
  unfold Cert.ReferenceIdeal.Value.res_main_v46; rfl
theorem ref_result (m : (ℓ : Loc nD τ sig) → Buf (Elt Ideal) ℓ) (ρ : Dev nD → PrngReg)
    (hcol : ∀ (c : Dev nD) (e : Fin 1200000),
      ((m ((c.tc : Thread nD τ).loc main_arg1) : IVec S1200000 32) (ix1 e)).toNat < 150000) :
    θ_run (defs (F := Ideal)) (onTc (τ := τ) (main (F := Ideal))) ⟨m, fun _ => 0, ρ⟩ fun r => ∀ c : Dev nD,
      r.2.mem ((c.tc : Thread nD τ).loc main_v45)
          = out0 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_v46)
          = out1 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
      ⟨(h c).1.trans ((res0_eq m c).trans (slice0_eq _ _ _ _ _ (hcol c))),
       (h c).2.1.trans ((res1_eq m c).trans (slice1_eq _ _ _ _ _ (hcol c))),
       (h c).2.2⟩)
    (Cert.ReferenceIdeal.Value.run (F := Ideal) m ρ)
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => (h c).2.2)
    (Cert.ReferenceIdeal.Value.run (F := Ideal) m ρ)
end Cert.ReferenceIdeal.RefValue
end
-- ==== Proof.RefBridge.lean ====
import proofs.«426118_j38259568672975_2_alg».proof.Proof.RefValue
import proofs.«426118_j38259568672975_2_alg».proof.Proof.KiHostX
set_option maxRecDepth 1676
noncomputable section
namespace Cert.Bridge
open Idealize.ShloMosaic Idealize.ShloMosaic.TcCoe Idealize.SL.Sem
open Cert.KernelIdeal Cert.KernelIdeal.Gen
open Cert.ReferenceIdeal.RefValue (cur X0 edges X0_user X0_item out out0 out1)
variable (m : (ℓ : Loc nD τ sig) → Buf (Elt Ideal) ℓ) (c : Dev nD)
theorem ix1_eq_ofFin {n : Nat} (k : Fin n) : ValueIdx.ix1 k = Shape.Idx.ofFin k :=
  funext fun a => match a with | ⟨0, _⟩ => Fin.ext rfl
theorem edges_eq {α : Type} (v : S1200000.Idx → α) : edges v = fun e => v (Shape.Idx.ofFin e) :=
  funext fun e => congrArg v (ix1_eq_ofFin e)
theorem cur_X0 : cur (X0 (m ((c : Thread nD τ).loc main_arg3)) (m ((c : Thread nD τ).loc main_arg4)))
    = Cert.KernelIdeal.HostVal.x0 m c := by
  funext n d
  unfold Cert.KernelIdeal.HostVal.x0
  have hn := n.isLt
  by_cases h : n.val < 100000
  · rw [dif_pos h]
    exact X0_user _ _ ⟨n.val, h⟩ d
  · rw [dif_neg h]
    have e : (⟨100000 + (n.val - 100000), by omega⟩ : Fin 150000) = n :=
      Fin.ext (by show 100000 + (n.val - 100000) = n.val; omega)
    exact (congrArg (fun k => cur (X0 (m ((c : Thread nD τ).loc main_arg3)) (m ((c : Thread nD τ).loc main_arg4))) k d)
      e).symm.trans (X0_item _ _ ⟨n.val - 100000, by omega⟩ d)
theorem out0_of (v : S100000x64.Idx → EReal)
    (h : ∀ (n : Fin 100000) (d : Fin 64), v (ValueIdx.ix2 n d)
      = Ideal.div (Cert.Spmm.sum3R (Cert.Spmm.refLayer
            (fun e => (m ((c : Thread nD τ).loc main_arg0) : S1200000.Idx → BitVec 32) (Shape.Idx.ofFin e))
            (fun e => (m ((c : Thread nD τ).loc main_arg1) : S1200000.Idx → BitVec 32) (Shape.Idx.ofFin e))
            (fun e => (m ((c : Thread nD τ).loc main_arg2) : S1200000.Idx → EReal) (Shape.Idx.ofFin e)))
          (Cert.KernelIdeal.HostVal.x0 m c) ⟨n.val, by have := n.isLt; omega⟩ d) (Ideal.ofBits .f32 0x40800000#32)) :
    v = out0 (m ((c : Thread nD τ).loc main_arg0)) (m ((c : Thread nD τ).loc main_arg1))
        (m ((c : Thread nD τ).loc main_arg2)) (m ((c : Thread nD τ).loc main_arg3))
        (m ((c : Thread nD τ).loc main_arg4)) := by
  funext i
  have hi := ValueIdx.idx2_lt0 i
  rw [ValueIdx.eq_ix2 i]
  refine (h ⟨(i 0).val, hi⟩ (i 1)).trans ?_
  unfold out0 out
  rw [edges_eq, edges_eq, edges_eq, cur_X0 m c]
theorem out1_of (v : S50000x64.Idx → EReal)
    (h : ∀ (n : Fin 50000) (d : Fin 64), v (ValueIdx.ix2 n d)
      = Ideal.div (Cert.Spmm.sum3R (Cert.Spmm.refLayer
            (fun e => (m ((c : Thread nD τ).loc main_arg0) : S1200000.Idx → BitVec 32) (Shape.Idx.ofFin e))
            (fun e => (m ((c : Thread nD τ).loc main_arg1) : S1200000.Idx → BitVec 32) (Shape.Idx.ofFin e))
            (fun e => (m ((c : Thread nD τ).loc main_arg2) : S1200000.Idx → EReal) (Shape.Idx.ofFin e)))
          (Cert.KernelIdeal.HostVal.x0 m c) ⟨100000 + n.val, by have := n.isLt; omega⟩ d) (Ideal.ofBits .f32 0x40800000#32)) :
    v = out1 (m ((c : Thread nD τ).loc main_arg0)) (m ((c : Thread nD τ).loc main_arg1))
        (m ((c : Thread nD τ).loc main_arg2)) (m ((c : Thread nD τ).loc main_arg3))
        (m ((c : Thread nD τ).loc main_arg4)) := by
  funext i
  have hi := ValueIdx.idx2_lt0 i
  rw [ValueIdx.eq_ix2 i]
  refine (h ⟨(i 0).val, hi⟩ (i 1)).trans ?_
  unfold out1 out
  rw [edges_eq, edges_eq, edges_eq, cur_X0 m c]
end Cert.Bridge
end
-- ==== Proof.KiResult.lean ====
import proofs.«426118_j38259568672975_2_alg».proof.Proof.KiValue
import proofs.«426118_j38259568672975_2_alg».proof.Proof.RefBridge
set_option maxRecDepth 16384
noncomputable section
namespace Cert.KernelIdeal.Hand
open Cert.KernelIdeal.Gen Cert.KernelIdeal.HostVal
open Idealize.ShloMosaic Idealize.ShloMosaic.TcCoe Idealize.SL.Sem
open Cert.ReferenceIdeal.RefValue (out out0 out1)
variable (m : (ℓ : Loc nD τ sig) → Buf (Elt Ideal) ℓ)
section Match
variable (c : Dev nD)
variable (hcol : ∀ e, (colA m c e).toNat < 150000) (hrow : ∀ e, (rowA m c e).toNat < 150000)
include hcol hrow
theorem kernel_out0 : V31 m (outs m) c main_v78
    = out0 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) :=
  Cert.Bridge.out0_of m c _ (fun n d => result0 m c hcol hrow n d)
theorem kernel_out1 : V31 m (outs m) c main_v79
    = out1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) :=
  Cert.Bridge.out1_of m c _ (fun n d => result1 m c hcol hrow n d)
end Match
theorem run_out (ρ : Dev nD → PrngReg)
    (hcol : ∀ (c : Dev nD) e, (colA m c e).toNat < 150000) (hrow : ∀ (c : Dev nD) e, (rowA m c e).toNat < 150000) :
    θ_run (defs (F := Ideal)) (onTc (τ := τ) (main (F := Ideal))) ⟨m, fun _ => 0, ρ⟩ (fun r => ∀ c : Dev nD,
      r.2.mem ((c.tc : Thread nD τ).loc main_v78)
          = out0 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_v79)
          = out1 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => by
      obtain ⟨h0, h1, h2, h3, h4, h78, h79⟩ := h c
      exact ⟨h78.trans (kernel_out0 m c (hcol c) (hrow c)), h79.trans (kernel_out1 m c (hcol c) (hrow c)), h0, h1, h2, h3, h4⟩)
    (run m ρ)
end Cert.KernelIdeal.Hand
end
-- ==== Proof.PreFacts.lean ====
import proofs.«426118_j38259568672975_2_alg».proof.Pre_finite_inputs
import Idealize.ShloMosaic.Lib.ReduceAll
import Idealize.ShloMosaic.Lib.ValueIdx
import Idealize.ShloMosaic.PureOps.Ideal
noncomputable section
namespace Cert.PreFacts
open Idealize.ShloMosaic Cert.Pre_finite_inputs
instance subsingleton_S_Idx : Subsingleton S_.Idx := ⟨fun a b => funext fun d => d.elim0⟩
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h
theorem toNat_lt_of_toInt {x : BitVec 32} {n : ℕ} (h0 : 0 ≤ x.toInt) (h1 : x.toInt < (n : ℤ)) : x.toNat < n := by
  have hx := x.isLt
  rw [BitVec.toInt_eq_toNat_cond] at h0 h1
  split at h0
  · rename_i hc; rw [if_pos hc] at h1; omega
  · rename_i hc; rw [if_neg hc] at h1; omega
variable [Facts]
theorem decode (row col : IVec S1200000 32) (w : FVec Ideal S1200000 .f32) (u : FVec Ideal S100000x64 .f32)
    (it : FVec Ideal S50000x64 .f32) (h : fn (F := Ideal) row col w u it = fun _ => 1#1) :
    (∀ e, ∃ r : ℝ, w e = (r : EReal)) ∧ (∀ i, ∃ r : ℝ, u i = (r : EReal)) ∧ (∀ i, ∃ r : ℝ, it i = (r : EReal))
      ∧ (∀ e, 0 ≤ (row e).toInt ∧ (row e).toInt < 150000) ∧ (∀ e, 0 ≤ (col e).toInt ∧ (col e).toInt < 150000) := by
  have e := congrFun h ValueIdx.ix0
  dsimp only [fn, fn_part1] at e
  simp only [andi, IntOp.andi_eq_one] at e
  obtain ⟨⟨⟨⟨⟨⟨hw, hu⟩, hi⟩, hr0⟩, hr1⟩, hc0⟩, hc1⟩ := e
  have z0 : (0#32 : BitVec 32).toInt = 0 := by decide
  have zN : (150000#32 : BitVec 32).toInt = 150000 := by decide
  refine ⟨fun e => ?_, fun i => ?_, fun i => ?_, fun e => ⟨?_, ?_⟩, fun e => ⟨?_, ?_⟩⟩
  · exact real_of_abs_lt_inf (w e) (Host.reduce_andi_all _ _ _ _ _ hw e)
  · exact real_of_abs_lt_inf (u i) (Host.reduce_andi_all _ _ _ _ _ hu i)
  · exact real_of_abs_lt_inf (it i) (Host.reduce_andi_all _ _ _ _ _ hi i)
  · have := IntOp.cmpi_sge.1 (Host.reduce_andi_all _ _ _ _ _ hr0 e)
    rw [← z0]; exact this
  · have := IntOp.cmpi_slt.1 (Host.reduce_andi_all _ _ _ _ _ hr1 e)
    rw [← zN]; exact this
  · have := IntOp.cmpi_sge.1 (Host.reduce_andi_all _ _ _ _ _ hc0 e)
    rw [← z0]; exact this
  · have := IntOp.cmpi_slt.1 (Host.reduce_andi_all _ _ _ _ _ hc1 e)
    rw [← zN]; exact this
theorem ids_lt (row col : IVec S1200000 32) (w : FVec Ideal S1200000 .f32) (u : FVec Ideal S100000x64 .f32)
    (it : FVec Ideal S50000x64 .f32) (h : fn (F := Ideal) row col w u it = fun _ => 1#1) :
    (∀ e, (row e).toNat < 150000) ∧ (∀ e, (col e).toNat < 150000) :=
  let d := decode row col w u it h
  ⟨fun e => toNat_lt_of_toInt (d.2.2.2.1 e).1 (d.2.2.2.1 e).2, fun e => toNat_lt_of_toInt (d.2.2.2.2 e).1 (d.2.2.2.2 e).2⟩
end Cert.PreFacts
end
-- ==== Proof.PreGlue.lean ====
import proofs.«426118_j38259568672975_2_alg».proof.Defs
import proofs.«426118_j38259568672975_2_alg».proof.Proof.PreFacts
noncomputable section
namespace Cert.PreGlue
open Idealize.ShloMosaic Idealize.ShloMosaic.TcCoe Idealize.SL.Sem
variable [hP : Cert.Pre_finite_inputs.Facts]
theorem ki_row_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1200000.Idx) :
    ((m ((c.tc : Thread Cert.KernelIdeal.nD Cert.KernelIdeal.τ).loc Cert.KernelIdeal.main_arg0)
      : IVec Cert.KernelIdeal.S1200000 32) i).toNat < 150000 :=
  (Cert.PreFacts.ids_lt _ _ _ _ _ (hpre c)).1 i
theorem ki_col_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1200000.Idx) :
    ((m ((c.tc : Thread Cert.KernelIdeal.nD Cert.KernelIdeal.τ).loc Cert.KernelIdeal.main_arg1)
      : IVec Cert.KernelIdeal.S1200000 32) i).toNat < 150000 :=
  (Cert.PreFacts.ids_lt _ _ _ _ _ (hpre c)).2 i
theorem ref_col_lt (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.ReferenceIdeal.nD) (e : Fin 1200000) :
    ((m' ((c.tc : Thread Cert.ReferenceIdeal.nD Cert.ReferenceIdeal.τ).loc Cert.ReferenceIdeal.main_arg1)
      : IVec Cert.ReferenceIdeal.S1200000 32) (ValueIdx.ix1 e)).toNat < 150000 := by
  rw [(hagree c).2.1]
  exact ki_col_lt m hpre c (ValueIdx.ix1 e)
end Cert.PreGlue
end
-- ==== Proof.lean ====
import proofs.«426118_j38259568672975_2_alg».proof.Defs
import proofs.«426118_j38259568672975_2_alg».proof.Proof.Gen.Kernel
import proofs.«426118_j38259568672975_2_alg».proof.Proof.Gen.KernelIdeal
import proofs.«426118_j38259568672975_2_alg».proof.Proof.Gen.ReferenceIdeal
import proofs.«426118_j38259568672975_2_alg».proof.Proof.Gen.Pre_finite_inputs
import proofs.«426118_j38259568672975_2_alg».proof.Proof.KbFamily
import proofs.«426118_j38259568672975_2_alg».proof.Proof.KiFamily
import proofs.«426118_j38259568672975_2_alg».proof.Proof.KiResult
import proofs.«426118_j38259568672975_2_alg».proof.Proof.RefValue
import proofs.«426118_j38259568672975_2_alg».proof.Proof.PreGlue
import Idealize.ShloMosaic.Adequacy
import Idealize.ShloMosaic.Init
set_option maxRecDepth 1676
noncomputable section
namespace Cert.Proof
open Idealize.ShloMosaic Idealize.ShloMosaic.TcCoe Idealize.SL.Sem
open Cert.ReferenceIdeal.RefValue
theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.RefValue.ref_frame m ρ
theorem preserves : Cert.preserves_Kernel_KernelIdeal := trivial
theorem algebraic : Cert.algebraic_KernelIdeal_ReferenceIdeal := by
  intro m ρ m' ρ' hpre hagree
  refine ⟨fun c => out0 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
    fun c => out1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)), ?_, ?_⟩
  · exact Cert.KernelIdeal.Hand.run_out m ρ (fun c e => Cert.PreGlue.ki_col_lt m hpre c _)
      (fun c e => Cert.PreGlue.ki_row_lt m hpre c _)
  · refine (θ_run Cert.ReferenceIdeal.defs _ _).mono (fun _ h c => ?_)
      (Cert.ReferenceIdeal.RefValue.ref_result m' ρ' (Cert.PreGlue.ref_col_lt m m' hpre hagree))
    obtain ⟨h45, h46, h0, h1, h2, h3, h4⟩ := h c
    obtain ⟨a0, a1, a2, a3, a4⟩ := hagree c
    exact ⟨by rw [h45, a0, a1, a2, a3, a4], by rw [h46, a0, a1, a2, a3, a4], h0, h1, h2, h3, h4⟩
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩
end Cert.Proof
end
